-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v299) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x64 : Shape := ⟨2, ![300000, 64]⟩
abbrev S2x900000 : Shape := ⟨2, ![2, 900000]⟩
abbrev S300000 : Shape := ⟨1, ![300000]⟩
abbrev S2700000 : Shape := ⟨1, ![2700000]⟩
abbrev S3x64x64 : Shape := ⟨3, ![3, 64, 64]⟩
abbrev S3x64 : Shape := ⟨2, ![3, 64]⟩
abbrev S3x64x128 : Shape := ⟨3, ![3, 64, 128]⟩
abbrev S3x128 : Shape := ⟨2, ![3, 128]⟩
abbrev S3x128x128 : Shape := ⟨3, ![3, 128, 128]⟩
abbrev S128 : Shape := ⟨1, ![128]⟩
abbrev S_ : Shape := ⟨0, ![]⟩

class Facts : Prop where
  bcast_S_S300000x64 : S_.BroadcastsInDim S300000x64 (![] : Fin 0 → Fin S300000x64.rank)
  reducesTo_S300000x64_S_d0_1 : S300000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part3 {F : FTy → Type} [FloatOps F] (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg16
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg12 : FVec F S3x128 .f32) (main_arg13 : FVec F S3x128x128 .f32) (main_arg14 : FVec F S128 .f32) (main_arg15 : FVec F S128 .f32) (main_arg16 : FVec F S128 .f32) (main_arg17 : FVec F S128 .f32) (main_v33 : IVec S_ 1) : IVec S_ 1 :=
  let main_v34 : FVec F S3x128 .f32 := Host.absf main_arg12
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg13
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg16 main_arg17 main_v48 main_v49 main_v50

def fn_part1 {F : FTy → Type} [FloatOps F] (main_arg9 : FVec F S3x128 .f32) (main_arg10 : FVec F S3x64x128 .f32) (main_arg11 : FVec F S3x128x128 .f32) (main_arg12 : FVec F S3x128 .f32) (main_arg13 : FVec F S3x128x128 .f32) (main_arg14 : FVec F S128 .f32) (main_arg15 : FVec F S128 .f32) (main_arg16 : FVec F S128 .f32) (main_arg17 : FVec F S128 .f32) (main_v13 : IVec S_ 1) (main_v16 : IVec S3x64x128 1) : IVec S_ 1 :=
  let main_c_5 : IVec S_ 1 := constantI S_ 1 1#1
  let main_v17 : IVec S_ 1 := (fun x v => Host.reduce IntOp.andi x v reducesTo_S3x64x128_S_d0_1_2 h_S_) main_v16 main_c_5
  let main_v18 : IVec S_ 1 := andi main_v13 main_v17
  let main_v19 : FVec F S3x128 .f32 := Host.absf main_arg9
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x64x128 .f32 := Host.absf main_arg10
  let main_cst_8 : FVec F S_ .f32 := constant S_ .f32 0x7F800000#32
  let main_v25 : FVec F S3x64x128 .f32 := broadcastInDim S3x64x128 ![] bcast_S_S3x64x128 main_cst_8
  let main_v26 : IVec S3x64x128 1 := cmpf .olt main_v24 main_v25
  let main_c_9 : IVec S_ 1 := constantI S_ 1 1#1
  let main_v27 : IVec S_ 1 := (fun x v => Host.reduce IntOp.andi x v reducesTo_S3x64x128_S_d0_1_2 h_S_) main_v26 main_c_9
  let main_v28 : IVec S_ 1 := andi main_v23 main_v27
  let main_v29 : FVec F S3x128x128 .f32 := Host.absf main_arg11
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg12 main_arg13 main_arg14 main_arg15 main_arg16 main_arg17 main_v33

def fn {F : FTy → Type} [FloatOps F] (main_arg0 : FVec F S300000x64 .f32) (main_arg1 : IVec S2x900000 32) (main_arg2 : IVec S2x900000 32) (main_arg3 : IVec S2x900000 32) (main_arg4 : IVec S300000 32) (main_arg5 : IVec S2700000 32) (main_arg6 : FVec F S3x64x64 .f32) (main_arg7 : FVec F S3x64 .f32) (main_arg8 : FVec F S3x64x128 .f32) (main_arg9 : FVec F S3x128 .f32) (main_arg10 : FVec F S3x64x128 .f32) (main_arg11 : FVec F S3x128x128 .f32) (main_arg12 : FVec F S3x128 .f32) (main_arg13 : FVec F S3x128x128 .f32) (main_arg14 : FVec F S128 .f32) (main_arg15 : FVec F S128 .f32) (main_arg16 : FVec F S128 .f32) (main_arg17 : FVec F S128 .f32) : IVec S_ 1 :=
  let main_v0 : FVec F S300000x64 .f32 := Host.absf main_arg0
  let main_cst : FVec F S_ .f32 := constant S_ .f32 0x7F800000#32
  let main_v1 : FVec F S300000x64 .f32 := broadcastInDim S300000x64 ![] bcast_S_S300000x64 main_cst
  let main_v2 : IVec S300000x64 1 := cmpf .olt main_v0 main_v1
  let main_c : IVec S_ 1 := constantI S_ 1 1#1
  let main_v3 : IVec S_ 1 := (fun x v => Host.reduce IntOp.andi x v reducesTo_S300000x64_S_d0_1 h_S_) main_v2 main_c
  let main_v4 : FVec F S3x64x64 .f32 := Host.absf main_arg6
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg7
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x128 .f32 := Host.absf main_arg8
  let main_cst_4 : FVec F S_ .f32 := constant S_ .f32 0x7F800000#32
  let main_v15 : FVec F S3x64x128 .f32 := broadcastInDim S3x64x128 ![] bcast_S_S3x64x128 main_cst_4
  let main_v16 : IVec S3x64x128 1 := cmpf .olt main_v14 main_v15
  fn_part1 (F := F) main_arg9 main_arg10 main_arg11 main_arg12 main_arg13 main_arg14 main_arg15 main_arg16 main_arg17 main_v13 main_v16
-- ==== Kernel.lean ====
abbrev S300000x64 : Shape := ⟨2, ![300000, 64]⟩
abbrev S2x900000 : Shape := ⟨2, ![2, 900000]⟩
abbrev S300000 : Shape := ⟨1, ![300000]⟩
abbrev S2700000 : Shape := ⟨1, ![2700000]⟩
abbrev S3x64x64 : Shape := ⟨3, ![3, 64, 64]⟩
abbrev S3x64 : Shape := ⟨2, ![3, 64]⟩
abbrev S3x64x128 : Shape := ⟨3, ![3, 64, 128]⟩
abbrev S3x128 : Shape := ⟨2, ![3, 128]⟩
abbrev S3x128x128 : Shape := ⟨3, ![3, 128, 128]⟩
abbrev S128 : Shape := ⟨1, ![128]⟩
abbrev S10000x64 : Shape := ⟨2, ![10000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x900000 : Shape := ⟨2, ![1, 900000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S150000x64 : Shape := ⟨2, ![150000, 64]⟩
abbrev S150000 : Shape := ⟨1, ![150000]⟩
abbrev S150000x1 : Shape := ⟨2, ![150000, 1]⟩
abbrev S150000x3 : Shape := ⟨2, ![150000, 3]⟩
abbrev S150000x128 : Shape := ⟨2, ![150000, 128]⟩
abbrev S5000x64 : Shape := ⟨2, ![5000, 64]⟩
abbrev S5000x3 : Shape := ⟨2, ![5000, 3]⟩
abbrev S5000x128 : Shape := ⟨2, ![5000, 128]⟩
abbrev S5000x1 : Shape := ⟨2, ![5000, 1]⟩
abbrev S1x64x128 : Shape := ⟨3, ![1, 64, 128]⟩
abbrev S64x128 : Shape := ⟨2, ![64, 128]⟩
abbrev S1x128 : Shape := ⟨2, ![1, 128]⟩
abbrev S5000 : Shape := ⟨1, ![5000]⟩
abbrev S1x300000 : Shape := ⟨2, ![1, 300000]⟩
abbrev S300000x1 : Shape := ⟨2, ![300000, 1]⟩
abbrev S300000x128 : Shape := ⟨2, ![300000, 128]⟩
abbrev S50000x128 : Shape := ⟨2, ![50000, 128]⟩
abbrev S50000 : Shape := ⟨1, ![50000]⟩
abbrev S50000x1 : Shape := ⟨2, ![50000, 1]⟩
abbrev S50000x3 : Shape := ⟨2, ![50000, 3]⟩
abbrev S1x128x128 : Shape := ⟨3, ![1, 128, 128]⟩
abbrev S128x128 : Shape := ⟨2, ![128, 128]⟩

abbrev nBuf : Space → Nat
  | .hbm => 174
  | .vmem => 44
  | .smem => 0
  | _ => 0

abbrev hbmTy0_0 (i : Nat) : BufTy := match i % 128 with
  | 0 => ⟨S300000x64, .f32⟩
  | 1 => ⟨S2x900000, .i32⟩
  | 2 => ⟨S2x900000, .i32⟩
  | 3 => ⟨S2x900000, .i32⟩
  | 4 => ⟨S300000, .i32⟩
  | 5 => ⟨S2700000, .i32⟩
  | 6 => ⟨S3x64x64, .f32⟩
  | 7 => ⟨S3x64, .f32⟩
  | 8 => ⟨S3x64x128, .f32⟩
  | 9 => ⟨S3x128, .f32⟩
  | 10 => ⟨S3x64x128, .f32⟩
  | 11 => ⟨S3x128x128, .f32⟩
  | 12 => ⟨S3x128, .f32⟩
  | 13 => ⟨S3x128x128, .f32⟩
  | 14 => ⟨S128, .f32⟩
  | 15 => ⟨S128, .f32⟩
  | 16 => ⟨S128, .f32⟩
  | 17 => ⟨S128, .f32⟩
  | 18 => ⟨S300000x64, .bf16⟩
  | 19 => ⟨S300000x64, .bf16⟩
  | 20 => ⟨S300000x64, .bf16⟩
  | 21 => ⟨S1x900000, .i32⟩
  | 22 => ⟨S900000, .i32⟩
  | 23 => ⟨S1x900000, .i32⟩
  | 24 => ⟨S900000, .i32⟩
  | 25 => ⟨S_, .i32⟩
  | 26 => ⟨S900000, .i32⟩
  | 27 => ⟨S900000, .i1⟩
  | 28 => ⟨S_, .i32⟩
  | 29 => ⟨S900000, .i32⟩
  | 30 => ⟨S900000, .i32⟩
  | 31 => ⟨S900000, .i32⟩
  | 32 => ⟨S900000x1, .i32⟩
  | 33 => ⟨S900000x64, .bf16⟩
  | 34 => ⟨S900000x64, .f32⟩
  | 35 => ⟨S_, .f32⟩
  | 36 => ⟨S150000x64, .f32⟩
  | 37 => ⟨S900000x1, .i32⟩
  | 38 => ⟨S150000x64, .f32⟩
  | 39 => ⟨S_, .f32⟩
  | 40 => ⟨S900000, .f32⟩
  | 41 => ⟨S_, .f32⟩
  | 42 => ⟨S150000, .f32⟩
  | 43 => ⟨S900000x1, .i32⟩
  | 44 => ⟨S150000, .f32⟩
  | 45 => ⟨S1x900000, .i32⟩
  | 46 => ⟨S900000, .i32⟩
  | 47 => ⟨S1x900000, .i32⟩
  | 48 => ⟨S900000, .i32⟩
  | 49 => ⟨S_, .i32⟩
  | 50 => ⟨S900000, .i32⟩
  | 51 => ⟨S900000, .i1⟩
  | 52 => ⟨S_, .i32⟩
  | 53 => ⟨S900000, .i32⟩
  | 54 => ⟨S900000, .i32⟩
  | 55 => ⟨S900000, .i32⟩
  | 56 => ⟨S900000x1, .i32⟩
  | 57 => ⟨S900000x64, .bf16⟩
  | 58 => ⟨S900000x64, .f32⟩
  | 59 => ⟨S_, .f32⟩
  | 60 => ⟨S150000x64, .f32⟩
  | 61 => ⟨S900000x1, .i32⟩
  | 62 => ⟨S150000x64, .f32⟩
  | 63 => ⟨S_, .f32⟩
  | 64 => ⟨S900000, .f32⟩
  | 65 => ⟨S_, .f32⟩
  | 66 => ⟨S150000, .f32⟩
  | 67 => ⟨S900000x1, .i32⟩
  | 68 => ⟨S150000, .f32⟩
  | 69 => ⟨S1x900000, .i32⟩
  | 70 => ⟨S900000, .i32⟩
  | 71 => ⟨S1x900000, .i32⟩
  | 72 => ⟨S900000, .i32⟩
  | 73 => ⟨S_, .i32⟩
  | 74 => ⟨S900000, .i32⟩
  | 75 => ⟨S900000, .i1⟩
  | 76 => ⟨S_, .i32⟩
  | 77 => ⟨S900000, .i32⟩
  | 78 => ⟨S900000, .i32⟩
  | 79 => ⟨S900000, .i32⟩
  | 80 => ⟨S900000x1, .i32⟩
  | 81 => ⟨S900000x64, .bf16⟩
  | 82 => ⟨S900000x64, .f32⟩
  | 83 => ⟨S_, .f32⟩
  | 84 => ⟨S150000x64, .f32⟩
  | 85 => ⟨S900000x1, .i32⟩
  | 86 => ⟨S150000x64, .f32⟩
  | 87 => ⟨S_, .f32⟩
  | 88 => ⟨S900000, .f32⟩
  | 89 => ⟨S_, .f32⟩
  | 90 => ⟨S150000, .f32⟩
  | 91 => ⟨S900000x1, .i32⟩
  | 92 => ⟨S150000, .f32⟩
  | 93 => ⟨S150000x1, .f32⟩
  | 94 => ⟨S150000x1, .f32⟩
  | 95 => ⟨S150000x1, .f32⟩
  | 96 => ⟨S150000x3, .f32⟩
  | 97 => ⟨S150000x64, .f32⟩
  | 98 => ⟨S150000x128, .f32⟩
  | 99 => ⟨S1x300000, .i32⟩
  | 100 => ⟨S300000, .i32⟩
  | 101 => ⟨S1x300000, .i32⟩
  | 102 => ⟨S300000, .i32⟩
  | 103 => ⟨S_, .i32⟩
  | 104 => ⟨S300000, .i32⟩
  | 105 => ⟨S300000, .i1⟩
  | 106 => ⟨S_, .i32⟩
  | 107 => ⟨S300000, .i32⟩
  | 108 => ⟨S300000, .i32⟩
  | 109 => ⟨S300000, .i32⟩
  | 110 => ⟨S300000x1, .i32⟩
  | 111 => ⟨S300000x128, .f32⟩
  | 112 => ⟨S_, .f32⟩
  | 113 => ⟨S50000x128, .f32⟩
  | 114 => ⟨S300000x1, .i32⟩
  | 115 => ⟨S50000x128, .f32⟩
  | 116 => ⟨S_, .f32⟩
  | 117 => ⟨S300000, .f32⟩
  | 118 => ⟨S_, .f32⟩
  | 119 => ⟨S50000, .f32⟩
  | 120 => ⟨S300000x1, .i32⟩
  | 121 => ⟨S50000, .f32⟩
  | 122 => ⟨S1x300000, .i32⟩
  | 123 => ⟨S300000, .i32⟩
  | 124 => ⟨S1x300000, .i32⟩
  | 125 => ⟨S300000, .i32⟩
  | 126 => ⟨S_, .i32⟩
  | 127 => ⟨S300000, .i32⟩
  | _ => ⟨S300000x64, .f32⟩

abbrev hbmTy0_1 (i : Nat) : BufTy := match i % 128 with
  | 0 => ⟨S300000, .i1⟩
  | 1 => ⟨S_, .i32⟩
  | 2 => ⟨S300000, .i32⟩
  | 3 => ⟨S300000, .i32⟩
  | 4 => ⟨S300000, .i32⟩
  | 5 => ⟨S300000x1, .i32⟩
  | 6 => ⟨S300000x128, .f32⟩
  | 7 => ⟨S_, .f32⟩
  | 8 => ⟨S50000x128, .f32⟩
  | 9 => ⟨S300000x1, .i32⟩
  | 10 => ⟨S50000x128, .f32⟩
  | 11 => ⟨S_, .f32⟩
  | 12 => ⟨S300000, .f32⟩
  | 13 => ⟨S_, .f32⟩
  | 14 => ⟨S50000, .f32⟩
  | 15 => ⟨S300000x1, .i32⟩
  | 16 => ⟨S50000, .f32⟩
  | 17 => ⟨S1x300000, .i32⟩
  | 18 => ⟨S300000, .i32⟩
  | 19 => ⟨S1x300000, .i32⟩
  | 20 => ⟨S300000, .i32⟩
  | 21 => ⟨S_, .i32⟩
  | 22 => ⟨S300000, .i32⟩
  | 23 => ⟨S300000, .i1⟩
  | 24 => ⟨S_, .i32⟩
  | 25 => ⟨S300000, .i32⟩
  | 26 => ⟨S300000, .i32⟩
  | 27 => ⟨S300000, .i32⟩
  | 28 => ⟨S300000x1, .i32⟩
  | 29 => ⟨S300000x128, .f32⟩
  | 30 => ⟨S_, .f32⟩
  | 31 => ⟨S50000x128, .f32⟩
  | 32 => ⟨S300000x1, .i32⟩
  | 33 => ⟨S50000x128, .f32⟩
  | 34 => ⟨S_, .f32⟩
  | 35 => ⟨S300000, .f32⟩
  | 36 => ⟨S_, .f32⟩
  | 37 => ⟨S50000, .f32⟩
  | 38 => ⟨S300000x1, .i32⟩
  | 39 => ⟨S50000, .f32⟩
  | 40 => ⟨S50000x1, .f32⟩
  | 41 => ⟨S50000x1, .f32⟩
  | 42 => ⟨S50000x1, .f32⟩
  | 43 => ⟨S50000x3, .f32⟩
  | 44 => ⟨S50000x128, .f32⟩
  | 45 => ⟨S50000x128, .f32⟩
  | _ => ⟨S300000x64, .f32⟩

abbrev hbmTy (i : Nat) : BufTy := match i / 128 with
  | 0 => hbmTy0_0 i
  | 1 => hbmTy0_1 i
  | _ => ⟨S300000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S3x64x64, .f32⟩
  | .local _ .vmem, ⟨3, _⟩ => ⟨S3x64, .f32⟩
  | .local _ .vmem, ⟨4, _⟩ => ⟨S10000x64, .bf16⟩
  | .local _ .vmem, ⟨5, _⟩ => ⟨S10000x64, .bf16⟩
  | .local _ .vmem, ⟨6, _⟩ => ⟨S10000x64, .bf16⟩
  | .local _ .vmem, ⟨7, _⟩ => ⟨S10000x64, .bf16⟩
  | .local _ .vmem, ⟨8, _⟩ => ⟨S10000x64, .bf16⟩
  | .local _ .vmem, ⟨9, _⟩ => ⟨S10000x64, .bf16⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x3, .f32⟩
  | .local _ .vmem, ⟨17, _⟩ => ⟨S5000x3, .f32⟩
  | .local _ .vmem, ⟨18, _⟩ => ⟨S5000x64, .f32⟩
  | .local _ .vmem, ⟨19, _⟩ => ⟨S5000x64, .f32⟩
  | .local _ .vmem, ⟨20, _⟩ => ⟨S3x64x128, .f32⟩
  | .local _ .vmem, ⟨21, _⟩ => ⟨S3x128, .f32⟩
  | .local _ .vmem, ⟨22, _⟩ => ⟨S3x64x128, .f32⟩
  | .local _ .vmem, ⟨23, _⟩ => ⟨S128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x3, .f32⟩
  | .local _ .vmem, ⟨34, _⟩ => ⟨S5000x3, .f32⟩
  | .local _ .vmem, ⟨35, _⟩ => ⟨S5000x128, .f32⟩
  | .local _ .vmem, ⟨36, _⟩ => ⟨S5000x128, .f32⟩
  | .local _ .vmem, ⟨37, _⟩ => ⟨S3x128x128, .f32⟩
  | .local _ .vmem, ⟨38, _⟩ => ⟨S3x128, .f32⟩
  | .local _ .vmem, ⟨39, _⟩ => ⟨S3x128x128, .f32⟩
  | .local _ .vmem, ⟨40, _⟩ => ⟨S128, .f32⟩
  | .local _ .vmem, ⟨41, _⟩ => ⟨S128, .f32⟩
  | .local _ .vmem, ⟨42, _⟩ => ⟨S5000x128, .f32⟩
  | .local _ .vmem, ⟨43, _⟩ => ⟨S5000x128, .f32⟩
  | _, _ => ⟨S300000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_3 : Ref sig .tc := ⟨.hbm, 49, rfl⟩
abbrev main_v24 : Ref sig .tc := ⟨.hbm, 50, rfl⟩
abbrev main_v25 : Ref sig .tc := ⟨.hbm, 51, rfl⟩
abbrev main_c_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_c_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_c_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_cst_17 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_18 : Ref sig .tc := ⟨.hbm, 126, rfl⟩
abbrev main_v86 : Ref sig .tc := ⟨.hbm, 127, rfl⟩
abbrev main_v87 : Ref sig .tc := ⟨.hbm, 128, rfl⟩
abbrev main_c_19 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_21 : Ref sig .tc := ⟨.hbm, 139, rfl⟩
abbrev main_v96 : Ref sig .tc := ⟨.hbm, 140, rfl⟩
abbrev main_cst_22 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_23 : Ref sig .tc := ⟨.hbm, 149, rfl⟩
abbrev main_v104 : Ref sig .tc := ⟨.hbm, 150, rfl⟩
abbrev main_v105 : Ref sig .tc := ⟨.hbm, 151, rfl⟩
abbrev main_c_24 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_25 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_26 : Ref sig .tc := ⟨.hbm, 162, rfl⟩
abbrev main_v114 : Ref sig .tc := ⟨.hbm, 163, rfl⟩
abbrev main_cst_27 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg10_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x64x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S3x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  slices_S2x900000_S1x900000_0_0 : S2x900000.Slices ![0, 0] S1x900000
  shapeCasts_S1x900000_S900000 : S1x900000.ShapeCasts S900000
  slices_S2x900000_S1x900000_1_0 : S2x900000.Slices ![1, 0] S1x900000
  bcast_S_S900000 : S_.BroadcastsInDim S900000 (![] : Fin 0 → Fin S900000.rank)
  bcast_S900000_S900000x1_0 : S900000.BroadcastsInDim S900000x1 (![0] : Fin 1 → Fin S900000x1.rank)
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  concatenates_S150000x1_S150000x1_S150000x1_S150000x3_d1 : Shape.Concatenates [S150000x1, S150000x1, S150000x1] S150000x3 1
  slices_S300000x64_S150000x64_0_0 : S300000x64.Slices ![0, 0] S150000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  slices_S5000x3_o0_0_S5000x1 : S5000x3.Slices ![0, 0] S5000x1
  broadcasts_S5000x1_S5000x64 : S5000x1.Broadcasts S5000x64
  inb_S3x64x128_S1x64x128_0_0_0 : ∀ a, (![0, 0, 0] : Fin 3 → Nat) a + S1x64x128.size a ≤ S3x64x128.size a
  h_S1x64x128 : 0 < S1x64x128.numel
  shapeCasts_S1x64x128_S64x128 : S1x64x128.ShapeCasts S64x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S5000x3_o0_1_S5000x1 : S5000x3.Slices ![0, 1] S5000x1
  inb_S3x64x128_S1x64x128_1_0_0 : ∀ a, (![1, 0, 0] : Fin 3 → Nat) a + S1x64x128.size a ≤ S3x64x128.size a
  inb_S3x128_S1x128_1_0 : ∀ a, (![1, 0] : Fin 2 → Nat) a + S1x128.size a ≤ S3x128.size a
  slices_S5000x3_o0_2_S5000x1 : S5000x3.Slices ![0, 2] S5000x1
  inb_S3x64x128_S1x64x128_2_0_0 : ∀ a, (![2, 0, 0] : Fin 3 → Nat) a + S1x64x128.size a ≤ S3x64x128.size a
  inb_S3x128_S1x128_2_0 : ∀ a, (![2, 0] : Fin 2 → Nat) a + S1x128.size a ≤ S3x128.size a
  inb_S128_S128_0 : ∀ a, (![0] : Fin 1 → Nat) a + S128.size a ≤ S128.size a
  h_S128 : 0 < S128.numel
  inb_S5000x128_S5000x128_0_0 : ∀ a, (![0, 0] : Fin 2 → Nat) a + S5000x128.size a ≤ S5000x128.size a
  h_S5000x128 : 0 < S5000x128.numel
  slices_S2x900000_S1x300000_0_0 : S2x900000.Slices ![0, 0] S1x300000
  shapeCasts_S1x300000_S300000 : S1x300000.ShapeCasts S300000
  slices_S2x900000_S1x300000_1_0 : S2x900000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x1_S50000x1_S50000x1_S50000x3_d1 : Shape.Concatenates [S50000x1, S50000x1, S50000x1] S50000x3 1
  slices_S150000x128_S50000x128_0_0 : S150000x128.Slices ![0, 0] S50000x128
  shapeCasts_S5000x128_S5000x128 : S5000x128.ShapeCasts S5000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  dot_S10000x64_S64x64_S10000x64_1_0_0_1_n_n_wf : DotDims.WF S10000x64 S64x64 S10000x64 [1] [0] [0] [1] [] []
  gather_S300000x64_S900000x1_S900000x64_1_0_n_n_0_1_164_wf : GatherDims.WF S300000x64 S900000x1 S900000x64 [1] [0] [] [0] [] 1 ![1, 64]
  scatter_S150000x64_S900000x1_S900000x64_1_0_0_1_wf : ScatterDims.WF S150000x64 S900000x1 S900000x64 [1] [0] [0] 1
  scatter_S150000_S900000x1_S900000_n_0_0_1_wf : ScatterDims.WF S150000 S900000x1 S900000 [] [0] [0] 1
  dot_S5000x64_S64x128_S5000x128_1_0_0_1_n_n_wf : DotDims.WF S5000x64 S64x128 S5000x128 [1] [0] [0] [1] [] []
  gather_S150000x128_S300000x1_S300000x128_1_0_n_n_0_1_1128_wf : GatherDims.WF S150000x128 S300000x1 S300000x128 [1] [0] [] [0] [] 1 ![1, 128]
  scatter_S50000x128_S300000x1_S300000x128_1_0_0_1_wf : ScatterDims.WF S50000x128 S300000x1 S300000x128 [1] [0] [0] 1
  scatter_S50000_S300000x1_S300000_n_0_0_1_wf : ScatterDims.WF S50000 S300000x1 S300000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S300000x64.size a
  hwx0_0 : ∀ i : grid0.Coords, EltTy.bits .f32 = 32 ∨ (Rect.block (s := S300000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x64.size a ≤ S3x64x64.size a
  hwx0_1 : ∀ i : grid0.Coords, EltTy.bits .f32 = 32 ∨ (Rect.block (s := S3x64x64) S3x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S300000x64.size a
  hwx0_3 : ∀ i : grid0.Coords, EltTy.bits .bf16 = 32 ∨ (Rect.block (s := S300000x64) S10000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S300000x64.size a
  hwx0_4 : ∀ i : grid0.Coords, EltTy.bits .bf16 = 32 ∨ (Rect.block (s := S300000x64) S10000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S300000x64.size a
  hwx0_5 : ∀ i : grid0.Coords, EltTy.bits .bf16 = 32 ∨ (Rect.block (s := S300000x64) S10000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S150000x64.size a
  hwx1_1 : ∀ i : grid1.Coords, EltTy.bits .f32 = 32 ∨ (Rect.block (s := S150000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S150000x64.size a
  hwx1_2 : ∀ i : grid1.Coords, EltTy.bits .f32 = 32 ∨ (Rect.block (s := S150000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x3.size a ≤ S150000x3.size a
  hwx1_3 : ∀ i : grid1.Coords, EltTy.bits .f32 = 32 ∨ (Rect.block (s := S150000x3) S5000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S150000x64.size a
  hwx1_4 : ∀ i : grid1.Coords, EltTy.bits .f32 = 32 ∨ (Rect.block (s := S150000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x64x128.size a ≤ S3x64x128.size a
  hwx1_5 : ∀ i : grid1.Coords, EltTy.bits .f32 = 32 ∨ (Rect.block (s := S3x64x128) S3x64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x128.size a ≤ S3x128.size a
  hwx1_6 : ∀ i : grid1.Coords, EltTy.bits .f32 = 32 ∨ (Rect.block (s := S3x128) S3x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x64x128.size a ≤ S3x64x128.size a
  hwx1_7 : ∀ i : grid1.Coords, EltTy.bits .f32 = 32 ∨ (Rect.block (s := S3x64x128) S3x64x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S150000x128.size a
  hwx1_10 : ∀ i : grid1.Coords, EltTy.bits .f32 = 32 ∨ (Rect.block (s := S150000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x3.size a ≤ S50000x3.size a
  hwx2_3 : ∀ i : grid2.Coords, EltTy.bits .f32 = 32 ∨ (Rect.block (s := S50000x3) S5000x3.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x128x128.size a ≤ S3x128x128.size a
  hwx2_5 : ∀ i : grid2.Coords, EltTy.bits .f32 = 32 ∨ (Rect.block (s := S3x128x128) S3x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x128.size a ≤ S3x128.size a
  hwx2_6 : ∀ i : grid2.Coords, EltTy.bits .f32 = 32 ∨ (Rect.block (s := S3x128) S3x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x128x128.size a ≤ S3x128x128.size a
  hwx2_7 : ∀ i : grid2.Coords, EltTy.bits .f32 = 32 ∨ (Rect.block (s := S3x128x128) S3x128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S50000x128.size a
  hwx2_10 : ∀ i : grid2.Coords, EltTy.bits .f32 = 32 ∨ (Rect.block (s := S50000x128) S5000x128.size (cc2_transform_10 i) (hinb2_10 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S300000x64_S900000x1_S900000x64_1_0_n_n_0_1_164 : GatherDims S300000x64 S900000x1 S900000x64 where
  offsetDims := [1]
  collapsedSliceDims := [0]
  operandBatchingDims := []
  startIndicesBatchingDims := []
  startIndexMap := [0]
  indexVectorDim := 1
  sliceSizes := ![1, 64]
  wf := gather_S300000x64_S900000x1_S900000x64_1_0_n_n_0_1_164_wf
def scatter_S150000x64_S900000x1_S900000x64_1_0_0_1 : ScatterDims S150000x64 S900000x1 S900000x64 where
  updateWindowDims := [1]
  insertedWindowDims := [0]
  scatterDimsToOperandDims := [0]
  indexVectorDim := 1
  wf := scatter_S150000x64_S900000x1_S900000x64_1_0_0_1_wf
def scatter_S150000_S900000x1_S900000_n_0_0_1 : ScatterDims S150000 S900000x1 S900000 where
  updateWindowDims := []
  insertedWindowDims := [0]
  scatterDimsToOperandDims := [0]
  indexVectorDim := 1
  wf := scatter_S150000_S900000x1_S900000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S150000x128_S300000x1_S300000x128_1_0_n_n_0_1_1128 : GatherDims S150000x128 S300000x1 S300000x128 where
  offsetDims := [1]
  collapsedSliceDims := [0]
  operandBatchingDims := []
  startIndicesBatchingDims := []
  startIndexMap := [0]
  indexVectorDim := 1
  sliceSizes := ![1, 128]
  wf := gather_S150000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v61) S5000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v62) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S3x64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S3x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S3x64x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v63) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v77) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v113) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v121) S5000x3.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v122) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S3x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S3x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S3x128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg17) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v123) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S300000x64 : Shape := ⟨2, ![300000, 64]⟩
abbrev S2x900000 : Shape := ⟨2, ![2, 900000]⟩
abbrev S300000 : Shape := ⟨1, ![300000]⟩
abbrev S2700000 : Shape := ⟨1, ![2700000]⟩
abbrev S3x64x64 : Shape := ⟨3, ![3, 64, 64]⟩
abbrev S3x64 : Shape := ⟨2, ![3, 64]⟩
abbrev S3x64x128 : Shape := ⟨3, ![3, 64, 128]⟩
abbrev S3x128 : Shape := ⟨2, ![3, 128]⟩
abbrev S3x128x128 : Shape := ⟨3, ![3, 128, 128]⟩
abbrev S128 : Shape := ⟨1, ![128]⟩
abbrev S1x900000 : Shape := ⟨2, ![1, 900000]⟩
abbrev S900000 : Shape := ⟨1, ![900000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S900000x1 : Shape := ⟨2, ![900000, 1]⟩
abbrev S900000x64 : Shape := ⟨2, ![900000, 64]⟩
abbrev S300000x1 : Shape := ⟨2, ![300000, 1]⟩
abbrev S1x64x128 : Shape := ⟨3, ![1, 64, 128]⟩
abbrev S64x128 : Shape := ⟨2, ![64, 128]⟩
abbrev S300000x128 : Shape := ⟨2, ![300000, 128]⟩
abbrev S1x128 : Shape := ⟨2, ![1, 128]⟩
abbrev S1x300000x128 : Shape := ⟨3, ![1, 300000, 128]⟩
abbrev S3x300000x128 : Shape := ⟨3, ![3, 300000, 128]⟩
abbrev S150000x128 : Shape := ⟨2, ![150000, 128]⟩
abbrev S1x300000 : Shape := ⟨2, ![1, 300000]⟩
abbrev S150000x1 : Shape := ⟨2, ![150000, 1]⟩
abbrev S1x128x128 : Shape := ⟨3, ![1, 128, 128]⟩
abbrev S128x128 : Shape := ⟨2, ![128, 128]⟩
abbrev S1x150000x128 : Shape := ⟨3, ![1, 150000, 128]⟩
abbrev S3x150000x128 : Shape := ⟨3, ![3, 150000, 128]⟩
abbrev S150000 : Shape := ⟨1, ![150000]⟩
abbrev S50000x128 : Shape := ⟨2, ![50000, 128]⟩

abbrev nBuf : Space → Nat
  | .hbm => 435
  | .vmem => 0
  | .smem => 0
  | _ => 0

abbrev hbmTy0_0 (i : Nat) : BufTy := match i % 128 with
  | 0 => ⟨S300000x64, .f32⟩
  | 1 => ⟨S2x900000, .i32⟩
  | 2 => ⟨S2x900000, .i32⟩
  | 3 => ⟨S2x900000, .i32⟩
  | 4 => ⟨S300000, .i32⟩
  | 5 => ⟨S2700000, .i32⟩
  | 6 => ⟨S3x64x64, .f32⟩
  | 7 => ⟨S3x64, .f32⟩
  | 8 => ⟨S3x64x128, .f32⟩
  | 9 => ⟨S3x128, .f32⟩
  | 10 => ⟨S3x64x128, .f32⟩
  | 11 => ⟨S3x128x128, .f32⟩
  | 12 => ⟨S3x128, .f32⟩
  | 13 => ⟨S3x128x128, .f32⟩
  | 14 => ⟨S128, .f32⟩
  | 15 => ⟨S128, .f32⟩
  | 16 => ⟨S128, .f32⟩
  | 17 => ⟨S128, .f32⟩
  | 18 => ⟨S1x900000, .i32⟩
  | 19 => ⟨S900000, .i32⟩
  | 20 => ⟨S1x900000, .i32⟩
  | 21 => ⟨S900000, .i32⟩
  | 22 => ⟨S1x64x64, .f32⟩
  | 23 => ⟨S64x64, .f32⟩
  | 24 => ⟨S300000x64, .f32⟩
  | 25 => ⟨S1x64, .f32⟩
  | 26 => ⟨S64, .f32⟩
  | 27 => ⟨S1x64, .f32⟩
  | 28 => ⟨S300000x64, .f32⟩
  | 29 => ⟨S300000x64, .f32⟩
  | 30 => ⟨S_, .f32⟩
  | 31 => ⟨S300000x64, .f32⟩
  | 32 => ⟨S300000x64, .f32⟩
  | 33 => ⟨S_, .i32⟩
  | 34 => ⟨S900000, .i32⟩
  | 35 => ⟨S900000, .i1⟩
  | 36 => ⟨S_, .i32⟩
  | 37 => ⟨S900000, .i32⟩
  | 38 => ⟨S900000, .i32⟩
  | 39 => ⟨S900000, .i32⟩
  | 40 => ⟨S900000x1, .i32⟩
  | 41 => ⟨S900000x64, .f32⟩
  | 42 => ⟨S_, .f32⟩
  | 43 => ⟨S300000x64, .f32⟩
  | 44 => ⟨S900000x1, .i32⟩
  | 45 => ⟨S300000x64, .f32⟩
  | 46 => ⟨S_, .f32⟩
  | 47 => ⟨S900000x1, .f32⟩
  | 48 => ⟨S_, .f32⟩
  | 49 => ⟨S300000x1, .f32⟩
  | 50 => ⟨S900000x1, .i32⟩
  | 51 => ⟨S300000x1, .f32⟩
  | 52 => ⟨S_, .f32⟩
  | 53 => ⟨S300000x1, .f32⟩
  | 54 => ⟨S300000x1, .f32⟩
  | 55 => ⟨S300000x64, .f32⟩
  | 56 => ⟨S300000x64, .f32⟩
  | 57 => ⟨S1x64x128, .f32⟩
  | 58 => ⟨S64x128, .f32⟩
  | 59 => ⟨S300000x128, .f32⟩
  | 60 => ⟨S1x128, .f32⟩
  | 61 => ⟨S128, .f32⟩
  | 62 => ⟨S1x128, .f32⟩
  | 63 => ⟨S300000x128, .f32⟩
  | 64 => ⟨S300000x128, .f32⟩
  | 65 => ⟨S1x64x128, .f32⟩
  | 66 => ⟨S64x128, .f32⟩
  | 67 => ⟨S300000x128, .f32⟩
  | 68 => ⟨S300000x128, .f32⟩
  | 69 => ⟨S300000x128, .f32⟩
  | 70 => ⟨S_, .f32⟩
  | 71 => ⟨S300000, .f32⟩
  | 72 => ⟨S300000x1, .f32⟩
  | 73 => ⟨S300000x1, .f32⟩
  | 74 => ⟨S_, .f32⟩
  | 75 => ⟨S300000x1, .f32⟩
  | 76 => ⟨S300000x1, .f32⟩
  | 77 => ⟨S300000x128, .f32⟩
  | 78 => ⟨S300000x128, .f32⟩
  | 79 => ⟨S1x900000, .i32⟩
  | 80 => ⟨S900000, .i32⟩
  | 81 => ⟨S1x900000, .i32⟩
  | 82 => ⟨S900000, .i32⟩
  | 83 => ⟨S1x64x64, .f32⟩
  | 84 => ⟨S64x64, .f32⟩
  | 85 => ⟨S300000x64, .f32⟩
  | 86 => ⟨S1x64, .f32⟩
  | 87 => ⟨S64, .f32⟩
  | 88 => ⟨S1x64, .f32⟩
  | 89 => ⟨S300000x64, .f32⟩
  | 90 => ⟨S300000x64, .f32⟩
  | 91 => ⟨S_, .f32⟩
  | 92 => ⟨S300000x64, .f32⟩
  | 93 => ⟨S300000x64, .f32⟩
  | 94 => ⟨S_, .i32⟩
  | 95 => ⟨S900000, .i32⟩
  | 96 => ⟨S900000, .i1⟩
  | 97 => ⟨S_, .i32⟩
  | 98 => ⟨S900000, .i32⟩
  | 99 => ⟨S900000, .i32⟩
  | 100 => ⟨S900000, .i32⟩
  | 101 => ⟨S900000x1, .i32⟩
  | 102 => ⟨S900000x64, .f32⟩
  | 103 => ⟨S_, .f32⟩
  | 104 => ⟨S300000x64, .f32⟩
  | 105 => ⟨S900000x1, .i32⟩
  | 106 => ⟨S300000x64, .f32⟩
  | 107 => ⟨S_, .f32⟩
  | 108 => ⟨S900000x1, .f32⟩
  | 109 => ⟨S_, .f32⟩
  | 110 => ⟨S300000x1, .f32⟩
  | 111 => ⟨S900000x1, .i32⟩
  | 112 => ⟨S300000x1, .f32⟩
  | 113 => ⟨S_, .f32⟩
  | 114 => ⟨S300000x1, .f32⟩
  | 115 => ⟨S300000x1, .f32⟩
  | 116 => ⟨S300000x64, .f32⟩
  | 117 => ⟨S300000x64, .f32⟩
  | 118 => ⟨S1x64x128, .f32⟩
  | 119 => ⟨S64x128, .f32⟩
  | 120 => ⟨S300000x128, .f32⟩
  | 121 => ⟨S1x128, .f32⟩
  | 122 => ⟨S128, .f32⟩
  | 123 => ⟨S1x128, .f32⟩
  | 124 => ⟨S300000x128, .f32⟩
  | 125 => ⟨S300000x128, .f32⟩
  | 126 => ⟨S1x64x128, .f32⟩
  | 127 => ⟨S64x128, .f32⟩
  | _ => ⟨S300000x64, .f32⟩

abbrev hbmTy0_1 (i : Nat) : BufTy := match i % 128 with
  | 0 => ⟨S300000x128, .f32⟩
  | 1 => ⟨S300000x128, .f32⟩
  | 2 => ⟨S300000x128, .f32⟩
  | 3 => ⟨S_, .f32⟩
  | 4 => ⟨S300000, .f32⟩
  | 5 => ⟨S300000x1, .f32⟩
  | 6 => ⟨S300000x1, .f32⟩
  | 7 => ⟨S_, .f32⟩
  | 8 => ⟨S300000x1, .f32⟩
  | 9 => ⟨S300000x1, .f32⟩
  | 10 => ⟨S300000x128, .f32⟩
  | 11 => ⟨S300000x128, .f32⟩
  | 12 => ⟨S1x900000, .i32⟩
  | 13 => ⟨S900000, .i32⟩
  | 14 => ⟨S1x900000, .i32⟩
  | 15 => ⟨S900000, .i32⟩
  | 16 => ⟨S1x64x64, .f32⟩
  | 17 => ⟨S64x64, .f32⟩
  | 18 => ⟨S300000x64, .f32⟩
  | 19 => ⟨S1x64, .f32⟩
  | 20 => ⟨S64, .f32⟩
  | 21 => ⟨S1x64, .f32⟩
  | 22 => ⟨S300000x64, .f32⟩
  | 23 => ⟨S300000x64, .f32⟩
  | 24 => ⟨S_, .f32⟩
  | 25 => ⟨S300000x64, .f32⟩
  | 26 => ⟨S300000x64, .f32⟩
  | 27 => ⟨S_, .i32⟩
  | 28 => ⟨S900000, .i32⟩
  | 29 => ⟨S900000, .i1⟩
  | 30 => ⟨S_, .i32⟩
  | 31 => ⟨S900000, .i32⟩
  | 32 => ⟨S900000, .i32⟩
  | 33 => ⟨S900000, .i32⟩
  | 34 => ⟨S900000x1, .i32⟩
  | 35 => ⟨S900000x64, .f32⟩
  | 36 => ⟨S_, .f32⟩
  | 37 => ⟨S300000x64, .f32⟩
  | 38 => ⟨S900000x1, .i32⟩
  | 39 => ⟨S300000x64, .f32⟩
  | 40 => ⟨S_, .f32⟩
  | 41 => ⟨S900000x1, .f32⟩
  | 42 => ⟨S_, .f32⟩
  | 43 => ⟨S300000x1, .f32⟩
  | 44 => ⟨S900000x1, .i32⟩
  | 45 => ⟨S300000x1, .f32⟩
  | 46 => ⟨S_, .f32⟩
  | 47 => ⟨S300000x1, .f32⟩
  | 48 => ⟨S300000x1, .f32⟩
  | 49 => ⟨S300000x64, .f32⟩
  | 50 => ⟨S300000x64, .f32⟩
  | 51 => ⟨S1x64x128, .f32⟩
  | 52 => ⟨S64x128, .f32⟩
  | 53 => ⟨S300000x128, .f32⟩
  | 54 => ⟨S1x128, .f32⟩
  | 55 => ⟨S128, .f32⟩
  | 56 => ⟨S1x128, .f32⟩
  | 57 => ⟨S300000x128, .f32⟩
  | 58 => ⟨S300000x128, .f32⟩
  | 59 => ⟨S1x64x128, .f32⟩
  | 60 => ⟨S64x128, .f32⟩
  | 61 => ⟨S300000x128, .f32⟩
  | 62 => ⟨S300000x128, .f32⟩
  | 63 => ⟨S300000x128, .f32⟩
  | 64 => ⟨S_, .f32⟩
  | 65 => ⟨S300000, .f32⟩
  | 66 => ⟨S300000x1, .f32⟩
  | 67 => ⟨S300000x1, .f32⟩
  | 68 => ⟨S_, .f32⟩
  | 69 => ⟨S300000x1, .f32⟩
  | 70 => ⟨S300000x1, .f32⟩
  | 71 => ⟨S300000x128, .f32⟩
  | 72 => ⟨S300000x128, .f32⟩
  | 73 => ⟨S1x300000x128, .f32⟩
  | 74 => ⟨S1x300000x128, .f32⟩
  | 75 => ⟨S1x300000x128, .f32⟩
  | 76 => ⟨S3x300000x128, .f32⟩
  | 77 => ⟨S_, .f32⟩
  | 78 => ⟨S300000x128, .f32⟩
  | 79 => ⟨S_, .f32⟩
  | 80 => ⟨S300000x128, .f32⟩
  | 81 => ⟨S300000x128, .f32⟩
  | 82 => ⟨S_, .f32⟩
  | 83 => ⟨S300000x128, .f32⟩
  | 84 => ⟨S300000x128, .f32⟩
  | 85 => ⟨S_, .f32⟩
  | 86 => ⟨S300000, .f32⟩
  | 87 => ⟨S300000x1, .f32⟩
  | 88 => ⟨S_, .f32⟩
  | 89 => ⟨S300000x1, .f32⟩
  | 90 => ⟨S300000x1, .f32⟩
  | 91 => ⟨S_, .i32⟩
  | 92 => ⟨S_, .f32⟩
  | 93 => ⟨S300000, .f32⟩
  | 94 => ⟨S300000x1, .f32⟩
  | 95 => ⟨S_, .f32⟩
  | 96 => ⟨S300000x1, .f32⟩
  | 97 => ⟨S300000x1, .f32⟩
  | 98 => ⟨S300000x128, .f32⟩
  | 99 => ⟨S300000x128, .f32⟩
  | 100 => ⟨S300000x128, .f32⟩
  | 101 => ⟨S_, .f32⟩
  | 102 => ⟨S_, .f32⟩
  | 103 => ⟨S_, .f32⟩
  | 104 => ⟨S_, .f32⟩
  | 105 => ⟨S300000, .f32⟩
  | 106 => ⟨S300000x1, .f32⟩
  | 107 => ⟨S300000x1, .f32⟩
  | 108 => ⟨S300000x1, .f32⟩
  | 109 => ⟨S_, .f32⟩
  | 110 => ⟨S_, .i1⟩
  | 111 => ⟨S_, .f32⟩
  | 112 => ⟨S_, .f32⟩
  | 113 => ⟨S300000x1, .f32⟩
  | 114 => ⟨S300000x1, .f32⟩
  | 115 => ⟨S300000x128, .f32⟩
  | 116 => ⟨S300000x128, .f32⟩
  | 117 => ⟨S_, .f32⟩
  | 118 => ⟨S300000x1, .f32⟩
  | 119 => ⟨S300000x1, .f32⟩
  | 120 => ⟨S300000x1, .f32⟩
  | 121 => ⟨S300000x128, .f32⟩
  | 122 => ⟨S300000x128, .f32⟩
  | 123 => ⟨S1x128, .f32⟩
  | 124 => ⟨S300000x128, .f32⟩
  | 125 => ⟨S300000x128, .f32⟩
  | 126 => ⟨S1x128, .f32⟩
  | 127 => ⟨S300000x128, .f32⟩
  | _ => ⟨S300000x64, .f32⟩

abbrev hbmTy0_2 (i : Nat) : BufTy := match i % 128 with
  | 0 => ⟨S300000x128, .f32⟩
  | 1 => ⟨S150000x128, .f32⟩
  | 2 => ⟨S1x300000, .i32⟩
  | 3 => ⟨S300000, .i32⟩
  | 4 => ⟨S1x300000, .i32⟩
  | 5 => ⟨S300000, .i32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x128, .f32⟩
  | 15 => ⟨S_, .f32⟩
  | 16 => ⟨S150000x128, .f32⟩
  | 17 => ⟨S300000x1, .i32⟩
  | 18 => ⟨S150000x128, .f32⟩
  | 19 => ⟨S_, .f32⟩
  | 20 => ⟨S300000x1, .f32⟩
  | 21 => ⟨S_, .f32⟩
  | 22 => ⟨S150000x1, .f32⟩
  | 23 => ⟨S300000x1, .i32⟩
  | 24 => ⟨S150000x1, .f32⟩
  | 25 => ⟨S_, .f32⟩
  | 26 => ⟨S150000x1, .f32⟩
  | 27 => ⟨S150000x1, .f32⟩
  | 28 => ⟨S150000x128, .f32⟩
  | 29 => ⟨S150000x128, .f32⟩
  | 30 => ⟨S1x128x128, .f32⟩
  | 31 => ⟨S128x128, .f32⟩
  | 32 => ⟨S150000x128, .f32⟩
  | 33 => ⟨S1x128, .f32⟩
  | 34 => ⟨S128, .f32⟩
  | 35 => ⟨S1x128, .f32⟩
  | 36 => ⟨S150000x128, .f32⟩
  | 37 => ⟨S150000x128, .f32⟩
  | 38 => ⟨S1x128x128, .f32⟩
  | 39 => ⟨S128x128, .f32⟩
  | 40 => ⟨S150000x128, .f32⟩
  | 41 => ⟨S150000x128, .f32⟩
  | 42 => ⟨S1x300000, .i32⟩
  | 43 => ⟨S300000, .i32⟩
  | 44 => ⟨S1x300000, .i32⟩
  | 45 => ⟨S300000, .i32⟩
  | 46 => ⟨S_, .i32⟩
  | 47 => ⟨S300000, .i32⟩
  | 48 => ⟨S300000, .i1⟩
  | 49 => ⟨S_, .i32⟩
  | 50 => ⟨S300000, .i32⟩
  | 51 => ⟨S300000, .i32⟩
  | 52 => ⟨S300000, .i32⟩
  | 53 => ⟨S300000x1, .i32⟩
  | 54 => ⟨S300000x128, .f32⟩
  | 55 => ⟨S_, .f32⟩
  | 56 => ⟨S150000x128, .f32⟩
  | 57 => ⟨S300000x1, .i32⟩
  | 58 => ⟨S150000x128, .f32⟩
  | 59 => ⟨S_, .f32⟩
  | 60 => ⟨S300000x1, .f32⟩
  | 61 => ⟨S_, .f32⟩
  | 62 => ⟨S150000x1, .f32⟩
  | 63 => ⟨S300000x1, .i32⟩
  | 64 => ⟨S150000x1, .f32⟩
  | 65 => ⟨S_, .f32⟩
  | 66 => ⟨S150000x1, .f32⟩
  | 67 => ⟨S150000x1, .f32⟩
  | 68 => ⟨S150000x128, .f32⟩
  | 69 => ⟨S150000x128, .f32⟩
  | 70 => ⟨S1x128x128, .f32⟩
  | 71 => ⟨S128x128, .f32⟩
  | 72 => ⟨S150000x128, .f32⟩
  | 73 => ⟨S1x128, .f32⟩
  | 74 => ⟨S128, .f32⟩
  | 75 => ⟨S1x128, .f32⟩
  | 76 => ⟨S150000x128, .f32⟩
  | 77 => ⟨S150000x128, .f32⟩
  | 78 => ⟨S1x128x128, .f32⟩
  | 79 => ⟨S128x128, .f32⟩
  | 80 => ⟨S150000x128, .f32⟩
  | 81 => ⟨S150000x128, .f32⟩
  | 82 => ⟨S1x300000, .i32⟩
  | 83 => ⟨S300000, .i32⟩
  | 84 => ⟨S1x300000, .i32⟩
  | 85 => ⟨S300000, .i32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x128, .f32⟩
  | 95 => ⟨S_, .f32⟩
  | 96 => ⟨S150000x128, .f32⟩
  | 97 => ⟨S300000x1, .i32⟩
  | 98 => ⟨S150000x128, .f32⟩
  | 99 => ⟨S_, .f32⟩
  | 100 => ⟨S300000x1, .f32⟩
  | 101 => ⟨S_, .f32⟩
  | 102 => ⟨S150000x1, .f32⟩
  | 103 => ⟨S300000x1, .i32⟩
  | 104 => ⟨S150000x1, .f32⟩
  | 105 => ⟨S_, .f32⟩
  | 106 => ⟨S150000x1, .f32⟩
  | 107 => ⟨S150000x1, .f32⟩
  | 108 => ⟨S150000x128, .f32⟩
  | 109 => ⟨S150000x128, .f32⟩
  | 110 => ⟨S1x128x128, .f32⟩
  | 111 => ⟨S128x128, .f32⟩
  | 112 => ⟨S150000x128, .f32⟩
  | 113 => ⟨S1x128, .f32⟩
  | 114 => ⟨S128, .f32⟩
  | 115 => ⟨S1x128, .f32⟩
  | 116 => ⟨S150000x128, .f32⟩
  | 117 => ⟨S150000x128, .f32⟩
  | 118 => ⟨S1x128x128, .f32⟩
  | 119 => ⟨S128x128, .f32⟩
  | 120 => ⟨S150000x128, .f32⟩
  | 121 => ⟨S150000x128, .f32⟩
  | 122 => ⟨S1x150000x128, .f32⟩
  | 123 => ⟨S1x150000x128, .f32⟩
  | 124 => ⟨S1x150000x128, .f32⟩
  | 125 => ⟨S3x150000x128, .f32⟩
  | 126 => ⟨S_, .f32⟩
  | 127 => ⟨S150000x128, .f32⟩
  | _ => ⟨S300000x64, .f32⟩

abbrev hbmTy0_3 (i : Nat) : BufTy := match i % 128 with
  | 0 => ⟨S_, .f32⟩
  | 1 => ⟨S150000x128, .f32⟩
  | 2 => ⟨S150000x128, .f32⟩
  | 3 => ⟨S_, .f32⟩
  | 4 => ⟨S150000x128, .f32⟩
  | 5 => ⟨S150000x128, .f32⟩
  | 6 => ⟨S_, .f32⟩
  | 7 => ⟨S150000, .f32⟩
  | 8 => ⟨S150000x1, .f32⟩
  | 9 => ⟨S_, .f32⟩
  | 10 => ⟨S150000x1, .f32⟩
  | 11 => ⟨S150000x1, .f32⟩
  | 12 => ⟨S_, .i32⟩
  | 13 => ⟨S_, .f32⟩
  | 14 => ⟨S150000, .f32⟩
  | 15 => ⟨S150000x1, .f32⟩
  | 16 => ⟨S_, .f32⟩
  | 17 => ⟨S150000x1, .f32⟩
  | 18 => ⟨S150000x1, .f32⟩
  | 19 => ⟨S150000x128, .f32⟩
  | 20 => ⟨S150000x128, .f32⟩
  | 21 => ⟨S150000x128, .f32⟩
  | 22 => ⟨S_, .f32⟩
  | 23 => ⟨S_, .f32⟩
  | 24 => ⟨S_, .f32⟩
  | 25 => ⟨S_, .f32⟩
  | 26 => ⟨S150000, .f32⟩
  | 27 => ⟨S150000x1, .f32⟩
  | 28 => ⟨S150000x1, .f32⟩
  | 29 => ⟨S150000x1, .f32⟩
  | 30 => ⟨S_, .f32⟩
  | 31 => ⟨S_, .i1⟩
  | 32 => ⟨S_, .f32⟩
  | 33 => ⟨S_, .f32⟩
  | 34 => ⟨S150000x1, .f32⟩
  | 35 => ⟨S150000x1, .f32⟩
  | 36 => ⟨S150000x128, .f32⟩
  | 37 => ⟨S150000x128, .f32⟩
  | 38 => ⟨S_, .f32⟩
  | 39 => ⟨S150000x1, .f32⟩
  | 40 => ⟨S150000x1, .f32⟩
  | 41 => ⟨S150000x1, .f32⟩
  | 42 => ⟨S150000x128, .f32⟩
  | 43 => ⟨S150000x128, .f32⟩
  | 44 => ⟨S1x128, .f32⟩
  | 45 => ⟨S150000x128, .f32⟩
  | 46 => ⟨S150000x128, .f32⟩
  | 47 => ⟨S1x128, .f32⟩
  | 48 => ⟨S150000x128, .f32⟩
  | 49 => ⟨S150000x128, .f32⟩
  | 50 => ⟨S50000x128, .f32⟩
  | _ => ⟨S300000x64, .f32⟩

abbrev hbmTy (i : Nat) : BufTy := match i / 128 with
  | 0 => hbmTy0_0 i
  | 1 => hbmTy0_1 i
  | 2 => hbmTy0_2 i
  | 3 => hbmTy0_3 i
  | _ => ⟨S300000x64, .f32⟩

abbrev bufTy : (tb : Table) → Fin (tcTables nBuf tb) → BufTy
  | .hbm, ⟨i, _⟩ => hbmTy i
  | _, _ => ⟨S300000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call0_cst : Ref sig .tc := ⟨.hbm, 30, rfl⟩
abbrev main_call0_v0 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_v0 : Ref sig .tc := ⟨.hbm, 69, rfl⟩
abbrev main_call1_cst : Ref sig .tc := ⟨.hbm, 70, rfl⟩
abbrev main_call1_v1 : Ref sig .tc := ⟨.hbm, 71, rfl⟩
abbrev main_call1_v2 : Ref sig .tc := ⟨.hbm, 72, rfl⟩
abbrev main_v43 : Ref sig .tc := ⟨.hbm, 73, rfl⟩
abbrev main_cst_4 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_c_5 : Ref sig .tc := ⟨.hbm, 94, rfl⟩
abbrev main_v61 : Ref sig .tc := ⟨.hbm, 95, rfl⟩
abbrev main_v62 : Ref sig .tc := ⟨.hbm, 96, rfl⟩
abbrev main_c_6 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_7 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_8 : Ref sig .tc := ⟨.hbm, 107, rfl⟩
abbrev main_v71 : Ref sig .tc := ⟨.hbm, 108, rfl⟩
abbrev main_cst_9 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_10 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_v0 : Ref sig .tc := ⟨.hbm, 130, rfl⟩
abbrev main_call3_cst : Ref sig .tc := ⟨.hbm, 131, rfl⟩
abbrev main_call3_v1 : Ref sig .tc := ⟨.hbm, 132, rfl⟩
abbrev main_call3_v2 : Ref sig .tc := ⟨.hbm, 133, rfl⟩
abbrev main_v91 : Ref sig .tc := ⟨.hbm, 134, rfl⟩
abbrev main_cst_11 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call4_cst : Ref sig .tc := ⟨.hbm, 152, rfl⟩
abbrev main_call4_v0 : Ref sig .tc := ⟨.hbm, 153, rfl⟩
abbrev main_v108 : Ref sig .tc := ⟨.hbm, 154, rfl⟩
abbrev main_c_12 : Ref sig .tc := ⟨.hbm, 155, rfl⟩
abbrev main_v109 : Ref sig .tc := ⟨.hbm, 156, rfl⟩
abbrev main_v110 : Ref sig .tc := ⟨.hbm, 157, rfl⟩
abbrev main_c_13 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_14 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_15 : Ref sig .tc := ⟨.hbm, 168, rfl⟩
abbrev main_v119 : Ref sig .tc := ⟨.hbm, 169, rfl⟩
abbrev main_cst_16 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_17 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_call5_v0 : Ref sig .tc := ⟨.hbm, 191, rfl⟩
abbrev main_call5_cst : Ref sig .tc := ⟨.hbm, 192, rfl⟩
abbrev main_call5_v1 : Ref sig .tc := ⟨.hbm, 193, rfl⟩
abbrev main_call5_v2 : Ref sig .tc := ⟨.hbm, 194, rfl⟩
abbrev main_v139 : Ref sig .tc := ⟨.hbm, 195, rfl⟩
abbrev main_cst_18 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_19 : Ref sig .tc := ⟨.hbm, 205, rfl⟩
abbrev main_v148 : Ref sig .tc := ⟨.hbm, 206, rfl⟩
abbrev main_cst_20 : Ref sig .tc := ⟨.hbm, 207, rfl⟩
abbrev main_v149 : Ref sig .tc := ⟨.hbm, 208, rfl⟩
abbrev main_v150 : Ref sig .tc := ⟨.hbm, 209, rfl⟩
abbrev main_call6_cst : Ref sig .tc := ⟨.hbm, 210, rfl⟩
abbrev main_call6_v0 : Ref sig .tc := ⟨.hbm, 211, rfl⟩
abbrev main_v151 : Ref sig .tc := ⟨.hbm, 212, rfl⟩
abbrev main_cst_21 : Ref sig .tc := ⟨.hbm, 213, rfl⟩
abbrev main_v152 : Ref sig .tc := ⟨.hbm, 214, rfl⟩
abbrev main_v153 : Ref sig .tc := ⟨.hbm, 215, rfl⟩
abbrev main_cst_22 : Ref sig .tc := ⟨.hbm, 216, rfl⟩
abbrev main_v154 : Ref sig .tc := ⟨.hbm, 217, rfl⟩
abbrev main_v155 : Ref sig .tc := ⟨.hbm, 218, rfl⟩
abbrev main_c_23 : Ref sig .tc := ⟨.hbm, 219, rfl⟩
abbrev main_call7_cst : Ref sig .tc := ⟨.hbm, 220, rfl⟩
abbrev main_call7_v0 : Ref sig .tc := ⟨.hbm, 221, rfl⟩
abbrev main_call7_v1 : Ref sig .tc := ⟨.hbm, 222, rfl⟩
abbrev main_call7_cst_0 : Ref sig .tc := ⟨.hbm, 223, rfl⟩
abbrev main_call7_v2 : Ref sig .tc := ⟨.hbm, 224, rfl⟩
abbrev main_call7_v3 : Ref sig .tc := ⟨.hbm, 225, rfl⟩
abbrev main_call7_v4 : Ref sig .tc := ⟨.hbm, 226, rfl⟩
abbrev main_call7_v5 : Ref sig .tc := ⟨.hbm, 227, rfl⟩
abbrev main_call7_v6 : Ref sig .tc := ⟨.hbm, 228, rfl⟩
abbrev main_call7_v7 : Ref sig .tc := ⟨.hbm, 229, rfl⟩
abbrev main_call7_cst_1 : Ref sig .tc := ⟨.hbm, 230, rfl⟩
abbrev main_call7_v8 : Ref sig .tc := ⟨.hbm, 231, rfl⟩
abbrev main_call7_cst_2 : Ref sig .tc := ⟨.hbm, 232, rfl⟩
abbrev main_call7_v9 : Ref sig .tc := ⟨.hbm, 233, rfl⟩
abbrev main_call7_v10 : Ref sig .tc := ⟨.hbm, 234, rfl⟩
abbrev main_call7_v11 : Ref sig .tc := ⟨.hbm, 235, rfl⟩
abbrev main_call7_v12 : Ref sig .tc := ⟨.hbm, 236, rfl⟩
abbrev main_call7_cst_3 : Ref sig .tc := ⟨.hbm, 237, rfl⟩
abbrev main_call7_v13 : Ref sig .tc := ⟨.hbm, 238, rfl⟩
abbrev main_call7_cst_4 : Ref sig .tc := ⟨.hbm, 239, rfl⟩
abbrev main_call7_call0_v0 : Ref sig .tc := ⟨.hbm, 240, rfl⟩
abbrev main_call7_call0_v1 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_cst_24 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_c_25 : Ref sig .tc := ⟨.hbm, 262, rfl⟩
abbrev main_v175 : Ref sig .tc := ⟨.hbm, 263, rfl⟩
abbrev main_v176 : Ref sig .tc := ⟨.hbm, 264, rfl⟩
abbrev main_c_26 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_cst_27 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_cst_28 : Ref sig .tc := ⟨.hbm, 275, rfl⟩
abbrev main_v185 : Ref sig .tc := ⟨.hbm, 276, rfl⟩
abbrev main_cst_29 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_30 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_c_31 : Ref sig .tc := ⟨.hbm, 302, rfl⟩
abbrev main_v209 : Ref sig .tc := ⟨.hbm, 303, rfl⟩
abbrev main_v210 : Ref sig .tc := ⟨.hbm, 304, rfl⟩
abbrev main_c_32 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_cst_33 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_cst_34 : Ref sig .tc := ⟨.hbm, 315, rfl⟩
abbrev main_v219 : Ref sig .tc := ⟨.hbm, 316, rfl⟩
abbrev main_cst_35 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_cst_36 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_c_37 : Ref sig .tc := ⟨.hbm, 342, rfl⟩
abbrev main_v243 : Ref sig .tc := ⟨.hbm, 343, rfl⟩
abbrev main_v244 : Ref sig .tc := ⟨.hbm, 344, rfl⟩
abbrev main_c_38 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_v249 : Ref sig .tc := ⟨.hbm, 350, rfl⟩
abbrev main_cst_39 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_cst_40 : Ref sig .tc := ⟨.hbm, 355, rfl⟩
abbrev main_v253 : Ref sig .tc := ⟨.hbm, 356, rfl⟩
abbrev main_cst_41 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_cst_42 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_cst_43 : Ref sig .tc := ⟨.hbm, 382, rfl⟩
abbrev main_v277 : Ref sig .tc := ⟨.hbm, 383, rfl⟩
abbrev main_cst_44 : Ref sig .tc := ⟨.hbm, 384, rfl⟩
abbrev main_v278 : Ref sig .tc := ⟨.hbm, 385, rfl⟩
abbrev main_v279 : Ref sig .tc := ⟨.hbm, 386, rfl⟩
abbrev main_call8_cst : Ref sig .tc := ⟨.hbm, 387, rfl⟩
abbrev main_call8_v0 : Ref sig .tc := ⟨.hbm, 388, rfl⟩
abbrev main_v280 : Ref sig .tc := ⟨.hbm, 389, rfl⟩
abbrev main_cst_45 : Ref sig .tc := ⟨.hbm, 390, rfl⟩
abbrev main_v281 : Ref sig .tc := ⟨.hbm, 391, rfl⟩
abbrev main_v282 : Ref sig .tc := ⟨.hbm, 392, rfl⟩
abbrev main_cst_46 : Ref sig .tc := ⟨.hbm, 393, rfl⟩
abbrev main_v283 : Ref sig .tc := ⟨.hbm, 394, rfl⟩
abbrev main_v284 : Ref sig .tc := ⟨.hbm, 395, rfl⟩
abbrev main_c_47 : Ref sig .tc := ⟨.hbm, 396, rfl⟩
abbrev main_call9_cst : Ref sig .tc := ⟨.hbm, 397, rfl⟩
abbrev main_call9_v0 : Ref sig .tc := ⟨.hbm, 398, rfl⟩
abbrev main_call9_v1 : Ref sig .tc := ⟨.hbm, 399, rfl⟩
abbrev main_call9_cst_0 : Ref sig .tc := ⟨.hbm, 400, rfl⟩
abbrev main_call9_v2 : Ref sig .tc := ⟨.hbm, 401, rfl⟩
abbrev main_call9_v3 : Ref sig .tc := ⟨.hbm, 402, rfl⟩
abbrev main_call9_v4 : Ref sig .tc := ⟨.hbm, 403, rfl⟩
abbrev main_call9_v5 : Ref sig .tc := ⟨.hbm, 404, rfl⟩
abbrev main_call9_v6 : Ref sig .tc := ⟨.hbm, 405, rfl⟩
abbrev main_call9_v7 : Ref sig .tc := ⟨.hbm, 406, rfl⟩
abbrev main_call9_cst_1 : Ref sig .tc := ⟨.hbm, 407, rfl⟩
abbrev main_call9_v8 : Ref sig .tc := ⟨.hbm, 408, rfl⟩
abbrev main_call9_cst_2 : Ref sig .tc := ⟨.hbm, 409, rfl⟩
abbrev main_call9_v9 : Ref sig .tc := ⟨.hbm, 410, rfl⟩
abbrev main_call9_v10 : Ref sig .tc := ⟨.hbm, 411, rfl⟩
abbrev main_call9_v11 : Ref sig .tc := ⟨.hbm, 412, rfl⟩
abbrev main_call9_v12 : Ref sig .tc := ⟨.hbm, 413, rfl⟩
abbrev main_call9_cst_3 : Ref sig .tc := ⟨.hbm, 414, rfl⟩
abbrev main_call9_v13 : Ref sig .tc := ⟨.hbm, 415, rfl⟩
abbrev main_call9_cst_4 : Ref sig .tc := ⟨.hbm, 416, rfl⟩
abbrev main_call9_call0_v0 : Ref sig .tc := ⟨.hbm, 417, rfl⟩
abbrev main_call9_call0_v1 : Ref sig .tc := ⟨.hbm, 418, rfl⟩
abbrev main_v285 : Ref sig .tc := ⟨.hbm, 419, rfl⟩
abbrev main_v286 : Ref sig .tc := ⟨.hbm, 420, rfl⟩
abbrev main_v287 : Ref sig .tc := ⟨.hbm, 421, rfl⟩
abbrev main_cst_48 : Ref sig .tc := ⟨.hbm, 422, rfl⟩
abbrev main_v288 : Ref sig .tc := ⟨.hbm, 423, rfl⟩
abbrev main_v289 : Ref sig .tc := ⟨.hbm, 424, rfl⟩
abbrev main_v290 : Ref sig .tc := ⟨.hbm, 425, rfl⟩
abbrev main_v291 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_v295 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩

abbrev nD : Nat := 1
abbrev τ : Topo := Topo.v7x

variable {F : FTy → Type} [FloatOps F]

class Facts₀ : Prop where
  slices_S2x900000_S1x900000_0_0 : S2x900000.Slices ![0, 0] S1x900000
  shapeCasts_S1x900000_S900000 : S1x900000.ShapeCasts S900000
  slices_S2x900000_S1x900000_1_0 : S2x900000.Slices ![1, 0] S1x900000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S_S900000 : S_.BroadcastsInDim S900000 (![] : Fin 0 → Fin S900000.rank)
  bcast_S900000_S900000x1_0 : S900000.BroadcastsInDim S900000x1 (![0] : Fin 1 → Fin S900000x1.rank)
  bcast_S_S900000x1 : S_.BroadcastsInDim S900000x1 (![] : Fin 0 → Fin S900000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  reducesTo_S300000x128_S300000_d1 : S300000x128.ReducesTo [1] S300000
  h_S_ : 0 < S_.numel
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  slices_S3x64x64_S1x64x64_1_0_0 : S3x64x64.Slices ![1, 0, 0] S1x64x64
  slices_S3x64_S1x64_1_0 : S3x64.Slices ![1, 0] S1x64
  slices_S3x64x128_S1x64x128_1_0_0 : S3x64x128.Slices ![1, 0, 0] S1x64x128
  slices_S3x128_S1x128_1_0 : S3x128.Slices ![1, 0] S1x128
  slices_S3x64x64_S1x64x64_2_0_0 : S3x64x64.Slices ![2, 0, 0] S1x64x64
  slices_S3x64_S1x64_2_0 : S3x64.Slices ![2, 0] S1x64
  slices_S3x64x128_S1x64x128_2_0_0 : S3x64x128.Slices ![2, 0, 0] S1x64x128
  slices_S3x128_S1x128_2_0 : S3x128.Slices ![2, 0] S1x128
  bcast_S300000x128_S1x300000x128_1_2 : S300000x128.BroadcastsInDim S1x300000x128 (![1, 2] : Fin 2 → Fin S1x300000x128.rank)
  concatenates_S1x300000x128_S1x300000x128_S1x300000x128_S3x300000x128_d0 : Shape.Concatenates [S1x300000x128, S1x300000x128, S1x300000x128] S3x300000x128 0
  reducesTo_S3x300000x128_S300000x128_d0 : S3x300000x128.ReducesTo [0] S300000x128
  bcast_S_S300000x128 : S_.BroadcastsInDim S300000x128 (![] : Fin 0 → Fin S300000x128.rank)
  slices_S300000x128_S150000x128_0_0 : S300000x128.Slices ![0, 0] S150000x128
  slices_S2x900000_S1x300000_0_0 : S2x900000.Slices ![0, 0] S1x300000
  shapeCasts_S1x300000_S300000 : S1x300000.ShapeCasts S300000
  slices_S2x900000_S1x300000_1_0 : S2x900000.Slices ![1, 0] S1x300000
  bcast_S_S300000 : S_.BroadcastsInDim S300000 (![] : Fin 0 → Fin S300000.rank)
  bcast_S_S150000x128 : S_.BroadcastsInDim S150000x128 (![] : Fin 0 → Fin S150000x128.rank)
  bcast_S_S150000x1 : S_.BroadcastsInDim S150000x1 (![] : Fin 0 → Fin S150000x1.rank)
  bcast_S150000x1_S150000x128_0_1 : S150000x1.BroadcastsInDim S150000x128 (![0, 1] : Fin 2 → Fin S150000x128.rank)
  slices_S3x128x128_S1x128x128_0_0_0 : S3x128x128.Slices ![0, 0, 0] S1x128x128
  shapeCasts_S1x128x128_S128x128 : S1x128x128.ShapeCasts S128x128
  bcast_S1x128_S150000x128_0_1 : S1x128.BroadcastsInDim S150000x128 (![0, 1] : Fin 2 → Fin S150000x128.rank)
  slices_S3x128x128_S1x128x128_1_0_0 : S3x128x128.Slices ![1, 0, 0] S1x128x128
  slices_S3x128x128_S1x128x128_2_0_0 : S3x128x128.Slices ![2, 0, 0] S1x128x128
  bcast_S150000x128_S1x150000x128_1_2 : S150000x128.BroadcastsInDim S1x150000x128 (![1, 2] : Fin 2 → Fin S1x150000x128.rank)
  concatenates_S1x150000x128_S1x150000x128_S1x150000x128_S3x150000x128_d0 : Shape.Concatenates [S1x150000x128, S1x150000x128, S1x150000x128] S3x150000x128 0
  reducesTo_S3x150000x128_S150000x128_d0 : S3x150000x128.ReducesTo [0] S150000x128
  reducesTo_S150000x128_S150000_d1 : S150000x128.ReducesTo [1] S150000
  bcast_S150000_S150000x1_0 : S150000.BroadcastsInDim S150000x1 (![0] : Fin 1 → Fin S150000x1.rank)
  slices_S150000x128_S50000x128_0_0 : S150000x128.Slices ![0, 0] S50000x128
  dot_S300000x64_S64x64_S300000x64_1_0_0_1_n_n_wf : DotDims.WF S300000x64 S64x64 S300000x64 [1] [0] [0] [1] [] []
  gather_S300000x64_S900000x1_S900000x64_1_0_n_n_0_1_164_wf : GatherDims.WF S300000x64 S900000x1 S900000x64 [1] [0] [] [0] [] 1 ![1, 64]
  scatter_S300000x64_S900000x1_S900000x64_1_0_0_1_wf : ScatterDims.WF S300000x64 S900000x1 S900000x64 [1] [0] [0] 1
  scatter_S300000x1_S900000x1_S900000x1_1_0_0_1_wf : ScatterDims.WF S300000x1 S900000x1 S900000x1 [1] [0] [0] 1
  dot_S300000x64_S64x128_S300000x128_1_0_0_1_n_n_wf : DotDims.WF S300000x64 S64x128 S300000x128 [1] [0] [0] [1] [] []
  gather_S150000x128_S300000x1_S300000x128_1_0_n_n_0_1_1128_wf : GatherDims.WF S150000x128 S300000x1 S300000x128 [1] [0] [] [0] [] 1 ![1, 128]
  scatter_S150000x128_S300000x1_S300000x128_1_0_0_1_wf : ScatterDims.WF S150000x128 S300000x1 S300000x128 [1] [0] [0] 1
  scatter_S150000x1_S300000x1_S300000x1_1_0_0_1_wf : ScatterDims.WF S150000x1 S300000x1 S300000x1 [1] [0] [0] 1
  dot_S150000x128_S128x128_S150000x128_1_0_0_1_n_n_wf : DotDims.WF S150000x128 S128x128 S150000x128 [1] [0] [0] [1] [] []

variable [Facts₀]

def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S300000x64_S900000x1_S900000x64_1_0_n_n_0_1_164 : GatherDims S300000x64 S900000x1 S900000x64 where
  offsetDims := [1]
  collapsedSliceDims := [0]
  operandBatchingDims := []
  startIndicesBatchingDims := []
  startIndexMap := [0]
  indexVectorDim := 1
  sliceSizes := ![1, 64]
  wf := gather_S300000x64_S900000x1_S900000x64_1_0_n_n_0_1_164_wf
def scatter_S300000x64_S900000x1_S900000x64_1_0_0_1 : ScatterDims S300000x64 S900000x1 S900000x64 where
  updateWindowDims := [1]
  insertedWindowDims := [0]
  scatterDimsToOperandDims := [0]
  indexVectorDim := 1
  wf := scatter_S300000x64_S900000x1_S900000x64_1_0_0_1_wf
def scatter_S300000x1_S900000x1_S900000x1_1_0_0_1 : ScatterDims S300000x1 S900000x1 S900000x1 where
  updateWindowDims := [1]
  insertedWindowDims := [0]
  scatterDimsToOperandDims := [0]
  indexVectorDim := 1
  wf := scatter_S300000x1_S900000x1_S900000x1_1_0_0_1_wf
def dot_S300000x64_S64x128_S300000x128_1_0_0_1_n_n : DotDims S300000x64 S64x128 S300000x128 where
  lhsContracting := [1]
  rhsContracting := [0]
  lhsNonContracting := [0]
  rhsNonContracting := [1]
  lhsBatch := []
  rhsBatch := []
  wf := dot_S300000x64_S64x128_S300000x128_1_0_0_1_n_n_wf
def gather_S150000x128_S300000x1_S300000x128_1_0_n_n_0_1_1128 : GatherDims S150000x128 S300000x1 S300000x128 where
  offsetDims := [1]
  collapsedSliceDims := [0]
  operandBatchingDims := []
  startIndicesBatchingDims := []
  startIndexMap := [0]
  indexVectorDim := 1
  sliceSizes := ![1, 128]
  wf := gather_S150000x128_S300000x1_S300000x128_1_0_n_n_0_1_1128_wf
def scatter_S150000x128_S300000x1_S300000x128_1_0_0_1 : ScatterDims S150000x128 S300000x1 S300000x128 where
  updateWindowDims := [1]
  insertedWindowDims := [0]
  scatterDimsToOperandDims := [0]
  indexVectorDim := 1
  wf := scatter_S150000x128_S300000x1_S300000x128_1_0_0_1_wf
def scatter_S150000x1_S300000x1_S300000x1_1_0_0_1 : ScatterDims S150000x1 S300000x1 S300000x1 where
  updateWindowDims := [1]
  insertedWindowDims := [0]
  scatterDimsToOperandDims := [0]
  indexVectorDim := 1
  wf := scatter_S150000x1_S300000x1_S300000x1_1_0_0_1_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf

class Facts : Prop extends Facts₀ where

variable [Facts]
-- ==== Proof.KRegion0.lean ====
import proofs.«421255_j8237747274315_3_alg».proof.Proof.Gen.Kernel.Launch
import proofs.«421255_j8237747274315_3_alg».proof.Proof.Gen.Kernel.Skeleton
import proofs.«421255_j8237747274315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S3x64x64 := Rect.unit (s := S3x64x64) ![0, 0, 0] S1x64x64.size inb_S3x64x64_S1x64x64_0_0_0
abbrev r0_2 : Rect S3x64 := Rect.unit (s := S3x64) ![0, 0] S1x64.size inb_S3x64_S1x64_0_0
abbrev r0_3 : Rect S3x64x64 := Rect.unit (s := S3x64x64) ![1, 0, 0] S1x64x64.size inb_S3x64x64_S1x64x64_1_0_0
abbrev r0_4 : Rect S3x64 := Rect.unit (s := S3x64) ![1, 0] S1x64.size inb_S3x64_S1x64_1_0
abbrev r0_5 : Rect S3x64x64 := Rect.unit (s := S3x64x64) ![2, 0, 0] S1x64x64.size inb_S3x64x64_S1x64x64_2_0_0
abbrev r0_6 : Rect S3x64 := Rect.unit (s := S3x64) ![2, 0] S1x64.size inb_S3x64_S1x64_2_0

def out0_3 (x0 : Vec F S10000x64 .f32) (x1 : Vec F S3x64x64 .f32) (x2 : Vec F S3x64 .f32) : Vec F S10000x64 .bf16 :=
  View.canon [⟨r0_0, k0_pay3 (View.ld x0 r0_0) (View.ld x1 r0_1) (View.ld x2 r0_2)⟩]

def out0_4 (x0 : Vec F S10000x64 .f32) (x1 : Vec F S3x64x64 .f32) (x2 : Vec F S3x64 .f32) : Vec F S10000x64 .bf16 :=
  View.canon [⟨r0_0, k0_pay4 (View.ld x0 r0_0) (View.ld x1 r0_3) (View.ld x2 r0_4)⟩]

def out0_5 (x0 : Vec F S10000x64 .f32) (x1 : Vec F S3x64x64 .f32) (x2 : Vec F S3x64 .f32) : Vec F S10000x64 .bf16 :=
  View.canon [⟨r0_0, k0_pay1 (k0_pay2 (View.ld x0 r0_0)) (k0_pay5 (View.ld x1 r0_5)) (View.ld x2 r0_6)⟩]

theorem cover0_3 (p0 : Vec F S10000x64 .bf16) (y : S10000x64.Idx) :
    ∃ pc ∈ ([⟨r0_0, p0⟩] : List (View.Piece (Elt F) S10000x64 .bf16)), y ∈ pc.1.set :=
  View.cover_of_tiled [⟨r0_0, p0⟩] S10000x64.size (by rfl) y

set_option maxHeartbeats 1000000 in
theorem sound_kernel0 (c : Dev nD) (E : Set ℕ) (i : grid0.Coords)
    (arg0 : Memref sig .tc .vmem S10000x64 .f32) (arg1 : Memref sig .tc .vmem S3x64x64 .f32) (arg2 : Memref sig .tc .vmem S3x64 .f32) (arg3 arg4 arg5 : Memref sig .tc .vmem S10000x64 .bf16)
    (harg0 : arg0.IsWhole) (harg1 : arg1.IsWhole) (harg2 : arg2.IsWhole) (harg3 : arg3.IsWhole) (harg4 : arg4.IsWhole) (harg5 : arg5.IsWhole)
    (x0 : Vec F S10000x64 .f32) (x1 : Vec F S3x64x64 .f32) (x2 : Vec F S3x64 .f32) (d3 d4 d5 : Vec F S10000x64 .bf16) (K : PUnit → sProp 𝕄) :
    iprop(owns c arg0 fullShare x0 ∗ owns c arg1 fullShare x1 ∗ owns c arg2 fullShare x2
        ∗ owns c arg3 fullShare d3 ∗ owns c arg4 fullShare d4 ∗ owns c arg5 fullShare d5
        ∗ (iprop(owns c arg0 fullShare x0 ∗ owns c arg1 fullShare x1 ∗ owns c arg2 fullShare x2
            ∗ owns c arg3 fullShare (out0_3 x0 x1 x2) ∗ owns c arg4 fullShare (out0_4 x0 x1 x2)
            ∗ owns c arg5 fullShare (out0_5 x0 x1 x2)) -∗ K ⟨⟩))
      ⊢ wp frame (wpE (defs₀ (F := F)) Variants.none c none) E (cc0__project_kernel i arg0 harg0 arg1 harg1 arg2 harg2 arg3 harg3 arg4 harg4 arg5 harg5) K := by
  simp only [cc0__project_kernel_eq_skeleton]; unfold cc0__project_kernel_skel
  simp only [k0_part1_eq_skeleton]; unfold k0_part1_skel
  unfold owns
  iintro ⟨⟨%f0, %hf0, H0⟩, ⟨%f1, %hf1, H1⟩, ⟨%f2, %hf2, H2⟩, ⟨%f3, -, H3⟩, ⟨%f4, -, H4⟩, ⟨%f5, -, H5⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]
  · iexists _; iframe H3; ipureintro
    exact View.read_writes_eq_canon _ _ _ (cover0_3 _)
  isplitl [H4]
  · iexists _; iframe H4; ipureintro
    exact View.read_writes_eq_canon _ _ _ (cover0_3 _)
  iexists _; iframe H5; ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0 (c : Dev nD) (t : Fin cfg0.N) : ∀ w : Fin cfg0.W, (cfg0.win w).isOut = false → ∀ d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl) t
  | ⟨3, _⟩, h | ⟨4, _⟩, h | ⟨5, _⟩, h => nomatch h

theorem body_obligation0 (c : Dev nD) : BodyObligation (dat0 (F := F) V c) (defs₀ (F := F)) Variants.none () Set.univ := fun t => by
  rw [bigSep_W0, bigSep_W0]
  simp only [before0 V c t 0 rfl, before0 V c t 1 rfl, before0 V c t 2 rfl]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%_, H0⟩, ⟨%_, H1⟩, ⟨%_, H2⟩, ⟨%_, H3⟩, ⟨%_, H4⟩, ⟨%_, H5⟩⟩
  iapply sound_kernel0
  iframe
  iintro H
  iframe

end Cert.Kernel.Hand

end
-- ==== Proof.KRegion1.lean ====
import proofs.«421255_j8237747274315_3_alg».proof.Proof.Gen.Kernel.Launch
import proofs.«421255_j8237747274315_3_alg».proof.Proof.Gen.Kernel.Skeleton
import proofs.«421255_j8237747274315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x3 := Rect.unit (s := S5000x3) ![0, 0] S5000x3.size inb_S5000x3_S5000x3_0_0
abbrev r1_2 : Rect S3x64x128 := Rect.unit (s := S3x64x128) ![0, 0, 0] S1x64x128.size inb_S3x64x128_S1x64x128_0_0_0
abbrev r1_3 : Rect S3x128 := Rect.unit (s := S3x128) ![0, 0] S1x128.size inb_S3x128_S1x128_0_0
abbrev r1_4 : Rect S3x64x128 := Rect.unit (s := S3x64x128) ![1, 0, 0] S1x64x128.size inb_S3x64x128_S1x64x128_1_0_0
abbrev r1_5 : Rect S3x128 := Rect.unit (s := S3x128) ![1, 0] S1x128.size inb_S3x128_S1x128_1_0
abbrev r1_6 : Rect S3x64x128 := Rect.unit (s := S3x64x128) ![2, 0, 0] S1x64x128.size inb_S3x64x128_S1x64x128_2_0_0
abbrev r1_7 : Rect S3x128 := Rect.unit (s := S3x128) ![2, 0] S1x128.size inb_S3x128_S1x128_2_0
abbrev r1_8 : Rect S128 := Rect.unit (s := S128) ![0] S128.size inb_S128_S128_0
abbrev r1_9 : Rect S5000x128 := Rect.unit (s := S5000x128) ![0, 0] S5000x128.size inb_S5000x128_S5000x128_0_0

def out1_10 (x0 x1 x2 : Vec F S5000x64 .f32) (x3 : Vec F S5000x3 .f32) (x4 : Vec F S5000x64 .f32) (x5 : Vec F S3x64x128 .f32) (x6 : Vec F S3x128 .f32) (x7 : Vec F S3x64x128 .f32) (x8 x9 : Vec F S128 .f32) : Vec F S5000x128 .f32 :=
  View.canon [⟨r1_9, k1_pay1 (k1_pay10 (k1_pay2 (View.ld x4 r1_0)) (k1_pay5 (k1_pay2 (View.ld x4 r1_0)) (k1_pay3 (View.ld x3 r1_1)) (k1_pay4 (View.ld x4 r1_0) (View.ld x3 r1_1) (View.ld x0 r1_0) (View.ld x5 r1_2) (View.ld x7 r1_2) (View.ld x6 r1_3)) (View.ld x1 r1_0) (View.ld x5 r1_4) (View.ld x7 r1_4) (View.ld x6 r1_5)) (k1_pay6 (k1_pay3 (View.ld x3 r1_1)) (View.ld x2 r1_0)) (k1_pay7 (View.ld x5 r1_6)) (View.ld x7 r1_6) (View.ld x6 r1_7)) (k1_pay11 (k1_pay2 (View.ld x4 r1_0)) (k1_pay5 (k1_pay2 (View.ld x4 r1_0)) (k1_pay3 (View.ld x3 r1_1)) (k1_pay4 (View.ld x4 r1_0) (View.ld x3 r1_1) (View.ld x0 r1_0) (View.ld x5 r1_2) (View.ld x7 r1_2) (View.ld x6 r1_3)) (View.ld x1 r1_0) (View.ld x5 r1_4) (View.ld x7 r1_4) (View.ld x6 r1_5)) (k1_pay6 (k1_pay3 (View.ld x3 r1_1)) (View.ld x2 r1_0)) (k1_pay7 (View.ld x5 r1_6)) (View.ld x7 r1_6) (View.ld x6 r1_7)) (View.ld x8 r1_8) (View.ld x9 r1_8)⟩]

set_option maxHeartbeats 4000000 in
theorem sound_kernel1 (c : Dev nD) (E : Set ℕ) (i : grid1.Coords)
    (a0 a1 a2 a4 : Memref sig .tc .vmem S5000x64 .f32) (a3 : Memref sig .tc .vmem S5000x3 .f32) (a5 a7 : Memref sig .tc .vmem S3x64x128 .f32) (a6 : Memref sig .tc .vmem S3x128 .f32) (a8 a9 : Memref sig .tc .vmem S128 .f32) (a10 : Memref sig .tc .vmem S5000x128 .f32)
    (ha0 : a0.IsWhole) (ha1 : a1.IsWhole) (ha2 : a2.IsWhole) (ha3 : a3.IsWhole) (ha4 : a4.IsWhole) (ha5 : a5.IsWhole) (ha6 : a6.IsWhole) (ha7 : a7.IsWhole) (ha8 : a8.IsWhole) (ha9 : a9.IsWhole) (ha10 : a10.IsWhole)
    (x0 x1 x2 x4 : Vec F S5000x64 .f32) (x3 : Vec F S5000x3 .f32) (x5 x7 : Vec F S3x64x128 .f32) (x6 : Vec F S3x128 .f32) (x8 x9 : Vec F S128 .f32) (d10 : Vec F S5000x128 .f32) (K : PUnit → sProp 𝕄) :
    iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare d10
        ∗ (iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare (out1_10 x0 x1 x2 x3 x4 x5 x6 x7 x8 x9)) -∗ K ⟨⟩))
      ⊢ wp frame (wpE (defs₀ (F := F)) Variants.none c none) E (cc1_kernel i a0 ha0 a1 ha1 a2 ha2 a3 ha3 a4 ha4 a5 ha5 a6 ha6 a7 ha7 a8 ha8 a9 ha9 a10 ha10) K := by
  simp only [cc1_kernel_eq_skeleton]; unfold cc1_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, Hk⟩
  subst hf0 hf1 hf2 hf3 hf4 hf5 hf6 hf7 hf8 hf9
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  iexists _; iframe H10; ipureintro
  exact View.read_writes_eq_canon _ _ _ (View.cover_of_tiled _ S5000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1 (c : Dev nD) (t : Fin cfg1.N) : ∀ w : Fin cfg1.W, (cfg1.win w).isOut = false → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ => (dat1 V c).before_in_eq_fetched _ rfl (fun _ => rfl) (fun _ _ _ => rfl) (fun _ => rfl) t
  | ⟨10, _⟩, h => nomatch h

theorem body_obligation1 (c : Dev nD) : BodyObligation (dat1 (F := F) V c) (defs₀ (F := F)) Variants.none () Set.univ := fun t => by
  rw [bigSep_W1, bigSep_W1]
  simp only [before1 V c t 0 rfl, before1 V c t 1 rfl, before1 V c t 2 rfl, before1 V c t 3 rfl, before1 V c t 4 rfl, before1 V c t 5 rfl, before1 V c t 6 rfl, before1 V c t 7 rfl, before1 V c t 8 rfl, before1 V c t 9 rfl]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩⟩
  iapply sound_kernel1
  iframe
  iintro H
  iframe

end Cert.Kernel.Hand

end
-- ==== Proof.KRegion2.lean ====
import proofs.«421255_j8237747274315_3_alg».proof.Proof.Gen.Kernel.Launch
import proofs.«421255_j8237747274315_3_alg».proof.Proof.Gen.Kernel.Skeleton
import proofs.«421255_j8237747274315_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S5000x3 := Rect.unit (s := S5000x3) ![0, 0] S5000x3.size inb_S5000x3_S5000x3_0_0

abbrev r2_2 : Rect S3x128x128 := Rect.unit (s := S3x128x128) ![0, 0, 0] S1x128x128.size inb_S3x128x128_S1x128x128_0_0_0
abbrev r2_3 : Rect S3x128x128 := Rect.unit (s := S3x128x128) ![1, 0, 0] S1x128x128.size inb_S3x128x128_S1x128x128_1_0_0
abbrev r2_4 : Rect S3x128x128 := Rect.unit (s := S3x128x128) ![2, 0, 0] S1x128x128.size inb_S3x128x128_S1x128x128_2_0_0

abbrev r2_5 : Rect S3x128 := Rect.unit (s := S3x128) ![0, 0] S1x128.size inb_S3x128_S1x128_0_0
abbrev r2_6 : Rect S3x128 := Rect.unit (s := S3x128) ![1, 0] S1x128.size inb_S3x128_S1x128_1_0
abbrev r2_7 : Rect S3x128 := Rect.unit (s := S3x128) ![2, 0] S1x128.size inb_S3x128_S1x128_2_0

abbrev r2_8 : Rect S128 := Rect.unit (s := S128) ![0] S128.size inb_S128_S128_0

def out2_10 (x0 x1 x2 : Vec F S5000x128 .f32) (x3 : Vec F S5000x3 .f32) (x4 : Vec F S5000x128 .f32) (x5 : Vec F S3x128x128 .f32)
    (x6 : Vec F S3x128 .f32) (x7 : Vec F S3x128x128 .f32) (x8 x9 : Vec F S128 .f32) : Vec F S5000x128 .f32 :=
  View.canon [⟨r2_0, k2_pay1
    (k2_pay6 (k2_pay2 (View.ld x4 r2_0)) (k2_pay3 (View.ld x3 r2_1))
      (k2_pay4 (View.ld x4 r2_0) (View.ld x3 r2_1) (View.ld x0 r2_0) (View.ld x5 r2_2) (View.ld x7 r2_2) (View.ld x6 r2_5))
      (k2_pay5 (View.ld x3 r2_1) (View.ld x1 r2_0))
      (View.ld x5 r2_3) (View.ld x7 r2_3) (View.ld x6 r2_6) (View.ld x2 r2_0)
      (View.ld x5 r2_4) (View.ld x7 r2_4) (View.ld x6 r2_7))
    (View.ld x8 r2_8) (View.ld x9 r2_8)⟩]

set_option maxHeartbeats 4000000 in
theorem sound_kernel2 (c : Dev nD) (E : Set ℕ) (i : grid2.Coords)
    (arg0 arg1 arg2 arg4 arg10 : Memref sig .tc .vmem S5000x128 .f32) (arg3 : Memref sig .tc .vmem S5000x3 .f32) (arg5 arg7 : Memref sig .tc .vmem S3x128x128 .f32) (arg6 : Memref sig .tc .vmem S3x128 .f32) (arg8 arg9 : Memref sig .tc .vmem S128 .f32)
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole)
    (x0 x1 x2 x4 d10 : Vec F S5000x128 .f32) (x3 : Vec F S5000x3 .f32) (x5 x7 : Vec F S3x128x128 .f32) (x6 : Vec F S3x128 .f32) (x8 x9 : Vec F S128 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare d10
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare (out2_10 x0 x1 x2 x3 x4 x5 x6 x7 x8 x9)) -∗ K ⟨⟩))
      ⊢ wp frame (wpE (defs₀ (F := F)) Variants.none c none) E (cc2_kernel i arg0 harg0 arg1 harg1 arg2 harg2 arg3 harg3 arg4 harg4 arg5 harg5 arg6 harg6 arg7 harg7 arg8 harg8 arg9 harg9 arg10 harg10) K := by
  simp only [cc2_kernel_eq_skeleton]; unfold cc2_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, Hk⟩
  subst hf0 hf1 hf2 hf3 hf4 hf5 hf6 hf7 hf8 hf9
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  iexists _; iframe H10; ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2 (c : Dev nD) (t : Fin cfg2.N) : ∀ w : Fin cfg2.W, (cfg2.win w).isOut = false → ∀ d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ => (dat2 V c).before_in_eq_fetched _ rfl (fun _ => rfl) (fun _ _ _ => rfl) (fun _ => rfl) t
  | ⟨10, _⟩, h => nomatch h

theorem body_obligation2 (c : Dev nD) : BodyObligation (dat2 (F := F) V c) (defs₀ (F := F)) Variants.none () Set.univ := fun t => by
  rw [bigSep_W2, bigSep_W2]
  simp only [before2 V c t 0 rfl, before2 V c t 1 rfl, before2 V c t 2 rfl, before2 V c t 3 rfl, before2 V c t 4 rfl, before2 V c t 5 rfl, before2 V c t 6 rfl, before2 V c t 7 rfl, before2 V c t 8 rfl, before2 V c t 9 rfl]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩⟩
  iapply sound_kernel2
  iframe
  iintro H
  iframe

end Cert.Kernel.Hand

end
-- ==== Proof.KRun.lean ====

import proofs.«421255_j8237747274315_3_alg».proof.Proof.KRegion0
import proofs.«421255_j8237747274315_3_alg».proof.Proof.KRegion1
import proofs.«421255_j8237747274315_3_alg».proof.Proof.KRegion2
import Idealize.ShloMosaic.Lib.Pipeline.RegionsLoop
import Idealize.ShloMosaic.Lib.Pipeline.FrameSuffix

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

abbrev Keeps (cfg : Cfg sig Λ₀) (r : Ref sig .tc) : Prop :=
  ∀ w, Pipeline.arrRef cfg.spec w = r → (cfg.win w).isOut = false

theorem withArrays_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) {r : Ref sig .tc} (h : Keeps cfg r) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    exact (Pipeline.withArrays_arr _ hinj c V _ w).trans ((dat.arrAt_in w (h w rfl) _).trans (hA w))
  · exact Pipeline.withArrays_of_ne _ c V _ r fun w e => hr ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

abbrev hostOps1_W : List (Ref sig .tc) := [main_v1, main_v2, main_v3, main_v4, main_c, main_v5, main_v6, main_c_0, main_v7, main_v8, main_v9, main_v10, main_v11, main_v12, main_cst, main_v13, main_v14, main_v15, main_cst_1, main_v16, main_cst_2, main_v17, main_v18, main_v19, main_v20, main_v21, main_v22, main_v23, main_c_3, main_v24, main_v25, main_c_4, main_v26, main_v27, main_v28, main_v29, main_v30, main_v31, main_cst_5, main_v32, main_v33, main_v34, main_cst_6, main_v35, main_cst_7, main_v36, main_v37, main_v38, main_v39, main_v40, main_v41, main_v42, main_c_8, main_v43, main_v44, main_c_9, main_v45, main_v46, main_v47, main_v48, main_v49, main_v50, main_cst_10, main_v51, main_v52, main_v53, main_cst_11, main_v54, main_cst_12, main_v55, main_v56, main_v57, main_v58, main_v59, main_v60, main_v61, main_v62]

abbrev hostOps2_W : List (Ref sig .tc) := [main_v64, main_v65, main_v66, main_v67, main_c_13, main_v68, main_v69, main_c_14, main_v70, main_v71, main_v72, main_v73, main_v74, main_cst_15, main_v75, main_v76, main_v77, main_cst_16, main_v78, main_cst_17, main_v79, main_v80, main_v81, main_v82, main_v83, main_v84, main_v85, main_c_18, main_v86, main_v87, main_c_19, main_v88, main_v89, main_v90, main_v91, main_v92, main_cst_20, main_v93, main_v94, main_v95, main_cst_21, main_v96, main_cst_22, main_v97, main_v98, main_v99, main_v100, main_v101, main_v102, main_v103, main_c_23, main_v104, main_v105, main_c_24, main_v106, main_v107, main_v108, main_v109, main_v110, main_cst_25, main_v111, main_v112, main_v113, main_cst_26, main_v114, main_cst_27, main_v115, main_v116, main_v117, main_v118, main_v119, main_v120, main_v121, main_v122]
theorem host_writes : ((hostOps1 : List (HloOp τ sig (Elt F))).Forall fun op => op.writes ⊆ (hostOps1_W.map (Proc.devRef (τ := τ) .tc)).toFinset) ∧
    (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

section
variable (c : Dev nD) {k : Ref sig .tc} (hk : k ∈ args)
include hk

theorem W1_arg : W1 m ρ c (Proc.devRef .tc k) = m ((c : Thread nD τ).loc k) :=
  withArrays_keep (dat0 (V0 m ρ) c) launch0.win.arr_inj (W0 m ρ c) (A_eq0 (V0 m ρ) c)
    ((by decide : ∀ k ∈ args, Keeps cfg0 k) k hk)
theorem W2_arg : W2 m ρ c (Proc.devRef .tc k) = m ((c : Thread nD τ).loc k) :=
  (StableHlo.after_of_writes_sub hostOps1 _ host_writes.1 ((by decide : ∀ k ∈ args, k ∉ hostOps1_W) k hk)).trans
    (W1_arg m ρ c hk)
theorem W3_arg : W3 m ρ c (Proc.devRef .tc k) = m ((c : Thread nD τ).loc k) :=
  (withArrays_keep (dat1 (V2 m ρ) c) launch1.win.arr_inj (W2 m ρ c) (A_eq1 (V2 m ρ) c)
    ((by decide : ∀ k ∈ args, Keeps cfg1 k) k hk)).trans (W2_arg m ρ c hk)
theorem W4_arg : W4 m ρ c (Proc.devRef .tc k) = m ((c : Thread nD τ).loc k) :=
  (StableHlo.after_of_writes_sub hostOps2 _ host_writes.2 ((by decide : ∀ k ∈ args, k ∉ hostOps2_W) k hk)).trans
    (W3_arg m ρ c hk)
theorem W5_arg : W5 m ρ c (Proc.devRef .tc k) = m ((c : Thread nD τ).loc k) :=
  (withArrays_keep (dat2 (V4 m ρ) c) launch2.win.arr_inj (W4 m ρ c) (A_eq2 (V4 m ρ) c)
    ((by decide : ∀ k ∈ args, Keeps cfg2 k) k hk)).trans (W4_arg m ρ c hk)

end

theorem W1_v0_0 (c : Dev nD) : W1 m ρ c (Proc.devRef .tc main_v0_0) = (dat0 (V0 m ρ) c).arrAt 3 cfg0.N :=
  Pipeline.withArrays_arr spec0 launch0.win.arr_inj c _ _ 3
theorem W1_v0_1 (c : Dev nD) : W1 m ρ c (Proc.devRef .tc main_v0_1) = (dat0 (V0 m ρ) c).arrAt 4 cfg0.N :=
  Pipeline.withArrays_arr spec0 launch0.win.arr_inj c _ _ 4
theorem W1_v0_2 (c : Dev nD) : W1 m ρ c (Proc.devRef .tc main_v0_2) = (dat0 (V0 m ρ) c).arrAt 5 cfg0.N :=
  Pipeline.withArrays_arr spec0 launch0.win.arr_inj c _ _ 5
theorem W3_v63 (c : Dev nD) : W3 m ρ c (Proc.devRef .tc main_v63) = (dat1 (V2 m ρ) c).arrAt 10 cfg1.N :=
  Pipeline.withArrays_arr spec1 launch1.win.arr_inj c _ _ 10
theorem W5_v123 (c : Dev nD) : W5 m ρ c (Proc.devRef .tc main_v123) = (dat2 (V4 m ρ) c).arrAt 10 cfg2.N :=
  Pipeline.withArrays_arr spec2 launch2.win.arr_inj c _ _ 10

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg (p : Fin 3) (lf : Pipeline.LaunchFacts (nD := nD) (τ := τ) cfgs p) (Vi : Dev nD → Valuation τ sig (Elt F))
    (hbody : ∀ c, BodyObligation (pdats m ρ p c) defs₀ 𝒱₀ () Set.univ)
    (howed : ∀ c t, (pdats m ρ p c).owed t = 0) (hq : ∀ c w, (pdats m ρ p c).q w = fullShare)
    (hA : ∀ c w, (pdats m ρ p c).A w = Vi c (Proc.devRef .tc (Pipeline.arrRef (cfgs p).spec w)))
    (hΦ : ∀ c t, (pdats m ρ p c).Φ t = Pipeline.ΦA (cfgs p).spec c)
    (hrec : ∀ c, (pdats m ρ p c).recorded 0 = Set.univ) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig)
    (Pipeline.withArrays (cfgs p).spec c (Vi c) fun w => (pdats m ρ p c).arrAt w (cfgs p).N) ∗ R c)
  X c := iprop(∃ r, prngReg c r)
  Y c := iprop(∃ r, prngReg c r)
  Z c := Pipeline.unscopedRest (cfgs p).spec c fun b => Vi c (Proc.devRef .tc b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Vi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c (pdats m ρ) ((pdats m ρ p c).share_full (hq c)) (fun b => Vi c (Proc.devRef .tc b))
      (fun b => Pipeline.withArrays (cfgs p).spec c (Vi c) (fun w => (pdats m ρ p c).arrAt w (cfgs p).N) (Proc.devRef .tc b))
      ((pdats m ρ p c).arrAt · (cfgs p).N) (fun w => Eq.symm (Pipeline.withArrays_arr _ lf.win.arr_inj c _ _ w))
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev segs : List (Pipeline.Seg (pcfgs (F := F)) adm (pdats m ρ) () defs₀ 𝒱₀ L lv) :=
  [ .region (reg m ρ 0 launch0 (W0 m ρ) (body_obligation0 (V0 m ρ)) (fun _ _ => rfl) (fun _ _ => rfl) (fun _ _ => rfl)
      (fun _ _ => rfl) fun _ => rfl),
    .host (hseg hostOps1 hostOps1_sub hostOps1_fresh (W1 m ρ)),
    .region (reg m ρ 1 launch1 (W2 m ρ) (body_obligation1 (V2 m ρ)) (fun _ _ => rfl) (fun _ _ => rfl) (fun _ _ => rfl)
      (fun _ _ => rfl) fun _ => rfl),
    .host (hseg hostOps2 hostOps2_sub hostOps2_fresh (W3 m ρ)),
    .region (reg m ρ 2 launch2 (W4 m ρ) (body_obligation2 (V4 m ρ)) (fun _ _ => rfl) (fun _ _ => rfl) (fun _ _ => rfl)
      (fun _ _ => rfl) fun _ => rfl) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

theorem frame : θ_run defs (onTc (τ := τ) (main (F := F))) ⟨m, fun _ => 0, ρ⟩ (fun r => ∀ c : Dev nD,
      args.Forall fun k => r.2.mem ((c.tc : Thread nD τ).loc k) = m ((c.tc : Thread nD τ).loc k)) :=
  (θ_run defs (onTc (τ := τ) (main (F := F))) ⟨m, fun _ => 0, ρ⟩).monotone' (fun r h c =>
    List.forall_iff_forall_mem.2 fun k hk => (h c _ (mem_uc k
      ((by decide : ∀ k ∈ args, ¬ (Proc.devRef .tc k : DevRef τ sig).isScoped) k hk))).trans (W5_arg m ρ c hk))
    (run_main m ρ)

end Cert.Kernel.Hand

end
-- ==== Proof.KIRegion0.lean ====
import proofs.«421255_j8237747274315_3_alg».proof.Proof.Gen.KernelIdeal.Launch
import proofs.«421255_j8237747274315_3_alg».proof.Proof.Gen.KernelIdeal.Skeleton
import proofs.«421255_j8237747274315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S3x64x64 := Rect.unit (s := S3x64x64) ![0, 0, 0] S1x64x64.size inb_S3x64x64_S1x64x64_0_0_0
abbrev r0_2 : Rect S3x64 := Rect.unit (s := S3x64) ![0, 0] S1x64.size inb_S3x64_S1x64_0_0
abbrev r0_3 : Rect S3x64x64 := Rect.unit (s := S3x64x64) ![1, 0, 0] S1x64x64.size inb_S3x64x64_S1x64x64_1_0_0
abbrev r0_4 : Rect S3x64 := Rect.unit (s := S3x64) ![1, 0] S1x64.size inb_S3x64_S1x64_1_0
abbrev r0_5 : Rect S3x64x64 := Rect.unit (s := S3x64x64) ![2, 0, 0] S1x64x64.size inb_S3x64x64_S1x64x64_2_0_0
abbrev r0_6 : Rect S3x64 := Rect.unit (s := S3x64) ![2, 0] S1x64.size inb_S3x64_S1x64_2_0

def out0_3 (x0 : Vec F S10000x64 .f32) (x1 : Vec F S3x64x64 .f32) (x2 : Vec F S3x64 .f32) : Vec F S10000x64 .bf16 :=
  View.canon [⟨r0_0, k0_pay3 (View.ld x0 r0_0) (View.ld x1 r0_1) (View.ld x2 r0_2)⟩]

def out0_4 (x0 : Vec F S10000x64 .f32) (x1 : Vec F S3x64x64 .f32) (x2 : Vec F S3x64 .f32) : Vec F S10000x64 .bf16 :=
  View.canon [⟨r0_0, k0_pay4 (View.ld x0 r0_0) (View.ld x1 r0_3) (View.ld x2 r0_4)⟩]

def out0_5 (x0 : Vec F S10000x64 .f32) (x1 : Vec F S3x64x64 .f32) (x2 : Vec F S3x64 .f32) : Vec F S10000x64 .bf16 :=
  View.canon [⟨r0_0, k0_pay1 (k0_pay2 (View.ld x0 r0_0)) (k0_pay5 (View.ld x1 r0_5)) (View.ld x2 r0_6)⟩]

theorem cover0_3 (p0 : Vec F S10000x64 .bf16) (y : S10000x64.Idx) :
    ∃ pc ∈ ([⟨r0_0, p0⟩] : List (View.Piece (Elt F) S10000x64 .bf16)), y ∈ pc.1.set :=
  View.cover_of_tiled [⟨r0_0, p0⟩] S10000x64.size (by rfl) y

set_option maxHeartbeats 1000000 in
theorem sound_kernel0 (c : Dev nD) (E : Set ℕ) (i : grid0.Coords)
    (arg0 : Memref sig .tc .vmem S10000x64 .f32) (arg1 : Memref sig .tc .vmem S3x64x64 .f32) (arg2 : Memref sig .tc .vmem S3x64 .f32) (arg3 arg4 arg5 : Memref sig .tc .vmem S10000x64 .bf16)
    (harg0 : arg0.IsWhole) (harg1 : arg1.IsWhole) (harg2 : arg2.IsWhole) (harg3 : arg3.IsWhole) (harg4 : arg4.IsWhole) (harg5 : arg5.IsWhole)
    (x0 : Vec F S10000x64 .f32) (x1 : Vec F S3x64x64 .f32) (x2 : Vec F S3x64 .f32) (d3 d4 d5 : Vec F S10000x64 .bf16) (K : PUnit → sProp 𝕄) :
    iprop(owns c arg0 fullShare x0 ∗ owns c arg1 fullShare x1 ∗ owns c arg2 fullShare x2
        ∗ owns c arg3 fullShare d3 ∗ owns c arg4 fullShare d4 ∗ owns c arg5 fullShare d5
        ∗ (iprop(owns c arg0 fullShare x0 ∗ owns c arg1 fullShare x1 ∗ owns c arg2 fullShare x2
            ∗ owns c arg3 fullShare (out0_3 x0 x1 x2) ∗ owns c arg4 fullShare (out0_4 x0 x1 x2)
            ∗ owns c arg5 fullShare (out0_5 x0 x1 x2)) -∗ K ⟨⟩))
      ⊢ wp frame (wpE (defs₀ (F := F)) Variants.none c none) E (cc0__project_kernel i arg0 harg0 arg1 harg1 arg2 harg2 arg3 harg3 arg4 harg4 arg5 harg5) K := by
  simp only [cc0__project_kernel_eq_skeleton]; unfold cc0__project_kernel_skel
  simp only [k0_part1_eq_skeleton]; unfold k0_part1_skel
  unfold owns
  iintro ⟨⟨%f0, %hf0, H0⟩, ⟨%f1, %hf1, H1⟩, ⟨%f2, %hf2, H2⟩, ⟨%f3, -, H3⟩, ⟨%f4, -, H4⟩, ⟨%f5, -, H5⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]
  · iexists _; iframe H3; ipureintro
    exact View.read_writes_eq_canon _ _ _ (cover0_3 _)
  isplitl [H4]
  · iexists _; iframe H4; ipureintro
    exact View.read_writes_eq_canon _ _ _ (cover0_3 _)
  iexists _; iframe H5; ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0 (c : Dev nD) (t : Fin cfg0.N) : ∀ w : Fin cfg0.W, (cfg0.win w).isOut = false → ∀ d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl) t
  | ⟨3, _⟩, h | ⟨4, _⟩, h | ⟨5, _⟩, h => nomatch h

theorem body_obligation0 (c : Dev nD) : BodyObligation (dat0 (F := F) V c) (defs₀ (F := F)) Variants.none () Set.univ := fun t => by
  rw [bigSep_W0, bigSep_W0]
  simp only [before0 V c t 0 rfl, before0 V c t 1 rfl, before0 V c t 2 rfl]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%_, H0⟩, ⟨%_, H1⟩, ⟨%_, H2⟩, ⟨%_, H3⟩, ⟨%_, H4⟩, ⟨%_, H5⟩⟩
  iapply sound_kernel0
  iframe
  iintro H
  iframe

end Cert.KernelIdeal.Hand

end
-- ==== Proof.KIRegion1.lean ====
import proofs.«421255_j8237747274315_3_alg».proof.Proof.Gen.KernelIdeal.Launch
import proofs.«421255_j8237747274315_3_alg».proof.Proof.Gen.KernelIdeal.Skeleton
import proofs.«421255_j8237747274315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x3 := Rect.unit (s := S5000x3) ![0, 0] S5000x3.size inb_S5000x3_S5000x3_0_0
abbrev r1_2 : Rect S3x64x128 := Rect.unit (s := S3x64x128) ![0, 0, 0] S1x64x128.size inb_S3x64x128_S1x64x128_0_0_0
abbrev r1_3 : Rect S3x128 := Rect.unit (s := S3x128) ![0, 0] S1x128.size inb_S3x128_S1x128_0_0
abbrev r1_4 : Rect S3x64x128 := Rect.unit (s := S3x64x128) ![1, 0, 0] S1x64x128.size inb_S3x64x128_S1x64x128_1_0_0
abbrev r1_5 : Rect S3x128 := Rect.unit (s := S3x128) ![1, 0] S1x128.size inb_S3x128_S1x128_1_0
abbrev r1_6 : Rect S3x64x128 := Rect.unit (s := S3x64x128) ![2, 0, 0] S1x64x128.size inb_S3x64x128_S1x64x128_2_0_0
abbrev r1_7 : Rect S3x128 := Rect.unit (s := S3x128) ![2, 0] S1x128.size inb_S3x128_S1x128_2_0
abbrev r1_8 : Rect S128 := Rect.unit (s := S128) ![0] S128.size inb_S128_S128_0
abbrev r1_9 : Rect S5000x128 := Rect.unit (s := S5000x128) ![0, 0] S5000x128.size inb_S5000x128_S5000x128_0_0

def out1_10 (x0 x1 x2 : Vec F S5000x64 .f32) (x3 : Vec F S5000x3 .f32) (x4 : Vec F S5000x64 .f32) (x5 : Vec F S3x64x128 .f32) (x6 : Vec F S3x128 .f32) (x7 : Vec F S3x64x128 .f32) (x8 x9 : Vec F S128 .f32) : Vec F S5000x128 .f32 :=
  View.canon [⟨r1_9, k1_pay1 (k1_pay10 (k1_pay2 (View.ld x4 r1_0)) (k1_pay5 (k1_pay2 (View.ld x4 r1_0)) (k1_pay3 (View.ld x3 r1_1)) (k1_pay4 (View.ld x4 r1_0) (View.ld x3 r1_1) (View.ld x0 r1_0) (View.ld x5 r1_2) (View.ld x7 r1_2) (View.ld x6 r1_3)) (View.ld x1 r1_0) (View.ld x5 r1_4) (View.ld x7 r1_4) (View.ld x6 r1_5)) (k1_pay6 (k1_pay3 (View.ld x3 r1_1)) (View.ld x2 r1_0)) (k1_pay7 (View.ld x5 r1_6)) (View.ld x7 r1_6) (View.ld x6 r1_7)) (k1_pay11 (k1_pay2 (View.ld x4 r1_0)) (k1_pay5 (k1_pay2 (View.ld x4 r1_0)) (k1_pay3 (View.ld x3 r1_1)) (k1_pay4 (View.ld x4 r1_0) (View.ld x3 r1_1) (View.ld x0 r1_0) (View.ld x5 r1_2) (View.ld x7 r1_2) (View.ld x6 r1_3)) (View.ld x1 r1_0) (View.ld x5 r1_4) (View.ld x7 r1_4) (View.ld x6 r1_5)) (k1_pay6 (k1_pay3 (View.ld x3 r1_1)) (View.ld x2 r1_0)) (k1_pay7 (View.ld x5 r1_6)) (View.ld x7 r1_6) (View.ld x6 r1_7)) (View.ld x8 r1_8) (View.ld x9 r1_8)⟩]

set_option maxHeartbeats 4000000 in
theorem sound_kernel1 (c : Dev nD) (E : Set ℕ) (i : grid1.Coords)
    (a0 a1 a2 a4 : Memref sig .tc .vmem S5000x64 .f32) (a3 : Memref sig .tc .vmem S5000x3 .f32) (a5 a7 : Memref sig .tc .vmem S3x64x128 .f32) (a6 : Memref sig .tc .vmem S3x128 .f32) (a8 a9 : Memref sig .tc .vmem S128 .f32) (a10 : Memref sig .tc .vmem S5000x128 .f32)
    (ha0 : a0.IsWhole) (ha1 : a1.IsWhole) (ha2 : a2.IsWhole) (ha3 : a3.IsWhole) (ha4 : a4.IsWhole) (ha5 : a5.IsWhole) (ha6 : a6.IsWhole) (ha7 : a7.IsWhole) (ha8 : a8.IsWhole) (ha9 : a9.IsWhole) (ha10 : a10.IsWhole)
    (x0 x1 x2 x4 : Vec F S5000x64 .f32) (x3 : Vec F S5000x3 .f32) (x5 x7 : Vec F S3x64x128 .f32) (x6 : Vec F S3x128 .f32) (x8 x9 : Vec F S128 .f32) (d10 : Vec F S5000x128 .f32) (K : PUnit → sProp 𝕄) :
    iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare d10
        ∗ (iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare (out1_10 x0 x1 x2 x3 x4 x5 x6 x7 x8 x9)) -∗ K ⟨⟩))
      ⊢ wp frame (wpE (defs₀ (F := F)) Variants.none c none) E (cc1_kernel i a0 ha0 a1 ha1 a2 ha2 a3 ha3 a4 ha4 a5 ha5 a6 ha6 a7 ha7 a8 ha8 a9 ha9 a10 ha10) K := by
  simp only [cc1_kernel_eq_skeleton]; unfold cc1_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, Hk⟩
  subst hf0 hf1 hf2 hf3 hf4 hf5 hf6 hf7 hf8 hf9
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  iexists _; iframe H10; ipureintro
  exact View.read_writes_eq_canon _ _ _ (View.cover_of_tiled _ S5000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1 (c : Dev nD) (t : Fin cfg1.N) : ∀ w : Fin cfg1.W, (cfg1.win w).isOut = false → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ => (dat1 V c).before_in_eq_fetched _ rfl (fun _ => rfl) (fun _ _ _ => rfl) (fun _ => rfl) t
  | ⟨10, _⟩, h => nomatch h

theorem body_obligation1 (c : Dev nD) : BodyObligation (dat1 (F := F) V c) (defs₀ (F := F)) Variants.none () Set.univ := fun t => by
  rw [bigSep_W1, bigSep_W1]
  simp only [before1 V c t 0 rfl, before1 V c t 1 rfl, before1 V c t 2 rfl, before1 V c t 3 rfl, before1 V c t 4 rfl, before1 V c t 5 rfl, before1 V c t 6 rfl, before1 V c t 7 rfl, before1 V c t 8 rfl, before1 V c t 9 rfl]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩⟩
  iapply sound_kernel1
  iframe
  iintro H
  iframe

end Cert.KernelIdeal.Hand

end
-- ==== Proof.KIRegion2.lean ====
import proofs.«421255_j8237747274315_3_alg».proof.Proof.Gen.KernelIdeal.Launch
import proofs.«421255_j8237747274315_3_alg».proof.Proof.Gen.KernelIdeal.Skeleton
import proofs.«421255_j8237747274315_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S5000x3 := Rect.unit (s := S5000x3) ![0, 0] S5000x3.size inb_S5000x3_S5000x3_0_0

abbrev r2_2 : Rect S3x128x128 := Rect.unit (s := S3x128x128) ![0, 0, 0] S1x128x128.size inb_S3x128x128_S1x128x128_0_0_0
abbrev r2_3 : Rect S3x128x128 := Rect.unit (s := S3x128x128) ![1, 0, 0] S1x128x128.size inb_S3x128x128_S1x128x128_1_0_0
abbrev r2_4 : Rect S3x128x128 := Rect.unit (s := S3x128x128) ![2, 0, 0] S1x128x128.size inb_S3x128x128_S1x128x128_2_0_0

abbrev r2_5 : Rect S3x128 := Rect.unit (s := S3x128) ![0, 0] S1x128.size inb_S3x128_S1x128_0_0
abbrev r2_6 : Rect S3x128 := Rect.unit (s := S3x128) ![1, 0] S1x128.size inb_S3x128_S1x128_1_0
abbrev r2_7 : Rect S3x128 := Rect.unit (s := S3x128) ![2, 0] S1x128.size inb_S3x128_S1x128_2_0

abbrev r2_8 : Rect S128 := Rect.unit (s := S128) ![0] S128.size inb_S128_S128_0

def out2_10 (x0 x1 x2 : Vec F S5000x128 .f32) (x3 : Vec F S5000x3 .f32) (x4 : Vec F S5000x128 .f32) (x5 : Vec F S3x128x128 .f32)
    (x6 : Vec F S3x128 .f32) (x7 : Vec F S3x128x128 .f32) (x8 x9 : Vec F S128 .f32) : Vec F S5000x128 .f32 :=
  View.canon [⟨r2_0, k2_pay1
    (k2_pay6 (k2_pay2 (View.ld x4 r2_0)) (k2_pay3 (View.ld x3 r2_1))
      (k2_pay4 (View.ld x4 r2_0) (View.ld x3 r2_1) (View.ld x0 r2_0) (View.ld x5 r2_2) (View.ld x7 r2_2) (View.ld x6 r2_5))
      (k2_pay5 (View.ld x3 r2_1) (View.ld x1 r2_0))
      (View.ld x5 r2_3) (View.ld x7 r2_3) (View.ld x6 r2_6) (View.ld x2 r2_0)
      (View.ld x5 r2_4) (View.ld x7 r2_4) (View.ld x6 r2_7))
    (View.ld x8 r2_8) (View.ld x9 r2_8)⟩]

set_option maxHeartbeats 4000000 in
theorem sound_kernel2 (c : Dev nD) (E : Set ℕ) (i : grid2.Coords)
    (arg0 arg1 arg2 arg4 arg10 : Memref sig .tc .vmem S5000x128 .f32) (arg3 : Memref sig .tc .vmem S5000x3 .f32) (arg5 arg7 : Memref sig .tc .vmem S3x128x128 .f32) (arg6 : Memref sig .tc .vmem S3x128 .f32) (arg8 arg9 : Memref sig .tc .vmem S128 .f32)
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole)
    (x0 x1 x2 x4 d10 : Vec F S5000x128 .f32) (x3 : Vec F S5000x3 .f32) (x5 x7 : Vec F S3x128x128 .f32) (x6 : Vec F S3x128 .f32) (x8 x9 : Vec F S128 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare d10
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare (out2_10 x0 x1 x2 x3 x4 x5 x6 x7 x8 x9)) -∗ K ⟨⟩))
      ⊢ wp frame (wpE (defs₀ (F := F)) Variants.none c none) E (cc2_kernel i arg0 harg0 arg1 harg1 arg2 harg2 arg3 harg3 arg4 harg4 arg5 harg5 arg6 harg6 arg7 harg7 arg8 harg8 arg9 harg9 arg10 harg10) K := by
  simp only [cc2_kernel_eq_skeleton]; unfold cc2_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, Hk⟩
  subst hf0 hf1 hf2 hf3 hf4 hf5 hf6 hf7 hf8 hf9
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  iexists _; iframe H10; ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2 (c : Dev nD) (t : Fin cfg2.N) : ∀ w : Fin cfg2.W, (cfg2.win w).isOut = false → ∀ d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ => (dat2 V c).before_in_eq_fetched _ rfl (fun _ => rfl) (fun _ _ _ => rfl) (fun _ => rfl) t
  | ⟨10, _⟩, h => nomatch h

theorem body_obligation2 (c : Dev nD) : BodyObligation (dat2 (F := F) V c) (defs₀ (F := F)) Variants.none () Set.univ := fun t => by
  rw [bigSep_W2, bigSep_W2]
  simp only [before2 V c t 0 rfl, before2 V c t 1 rfl, before2 V c t 2 rfl, before2 V c t 3 rfl, before2 V c t 4 rfl, before2 V c t 5 rfl, before2 V c t 6 rfl, before2 V c t 7 rfl, before2 V c t 8 rfl, before2 V c t 9 rfl]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩⟩
  iapply sound_kernel2
  iframe
  iintro H
  iframe

end Cert.KernelIdeal.Hand

end
-- ==== Proof.KIRun.lean ====
import proofs.«421255_j8237747274315_3_alg».proof.Proof.KIRegion0
import proofs.«421255_j8237747274315_3_alg».proof.Proof.KIRegion1
import proofs.«421255_j8237747274315_3_alg».proof.Proof.KIRegion2
import Idealize.ShloMosaic.Lib.Pipeline.RegionsLoop
import Idealize.ShloMosaic.Lib.Pipeline.FrameSuffix

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] [Named F]

local notation "𝕄" => MT nD τ sig Unit (Elt F) ℕ (UR sig nD τ) ℕ

abbrev Keeps (cfg : Cfg sig Λ₀) (r : Ref sig .tc) : Prop :=
  ∀ w, Pipeline.arrRef cfg.spec w = r → (cfg.win w).isOut = false

theorem withArrays_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) {r : Ref sig .tc} (h : Keeps cfg r) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    exact (Pipeline.withArrays_arr _ hinj c V _ w).trans ((dat.arrAt_in w (h w rfl) _).trans (hA w))
  · exact Pipeline.withArrays_of_ne _ c V _ r fun w e => hr ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

abbrev hostOps1_W : List (Ref sig .tc) := [main_v1, main_v2, main_v3, main_v4, main_c, main_v5, main_v6, main_c_0, main_v7, main_v8, main_v9, main_v10, main_v11, main_v12, main_cst, main_v13, main_v14, main_v15, main_cst_1, main_v16, main_cst_2, main_v17, main_v18, main_v19, main_v20, main_v21, main_v22, main_v23, main_c_3, main_v24, main_v25, main_c_4, main_v26, main_v27, main_v28, main_v29, main_v30, main_v31, main_cst_5, main_v32, main_v33, main_v34, main_cst_6, main_v35, main_cst_7, main_v36, main_v37, main_v38, main_v39, main_v40, main_v41, main_v42, main_c_8, main_v43, main_v44, main_c_9, main_v45, main_v46, main_v47, main_v48, main_v49, main_v50, main_cst_10, main_v51, main_v52, main_v53, main_cst_11, main_v54, main_cst_12, main_v55, main_v56, main_v57, main_v58, main_v59, main_v60, main_v61, main_v62]

abbrev hostOps2_W : List (Ref sig .tc) := [main_v64, main_v65, main_v66, main_v67, main_c_13, main_v68, main_v69, main_c_14, main_v70, main_v71, main_v72, main_v73, main_v74, main_cst_15, main_v75, main_v76, main_v77, main_cst_16, main_v78, main_cst_17, main_v79, main_v80, main_v81, main_v82, main_v83, main_v84, main_v85, main_c_18, main_v86, main_v87, main_c_19, main_v88, main_v89, main_v90, main_v91, main_v92, main_cst_20, main_v93, main_v94, main_v95, main_cst_21, main_v96, main_cst_22, main_v97, main_v98, main_v99, main_v100, main_v101, main_v102, main_v103, main_c_23, main_v104, main_v105, main_c_24, main_v106, main_v107, main_v108, main_v109, main_v110, main_cst_25, main_v111, main_v112, main_v113, main_cst_26, main_v114, main_cst_27, main_v115, main_v116, main_v117, main_v118, main_v119, main_v120, main_v121, main_v122]
theorem host_writes : ((hostOps1 : List (HloOp τ sig (Elt F))).Forall fun op => op.writes ⊆ (hostOps1_W.map (Proc.devRef (τ := τ) .tc)).toFinset) ∧
    (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

section
variable (c : Dev nD) {k : Ref sig .tc} (hk : k ∈ args)
include hk

theorem W1_arg : W1 m ρ c (Proc.devRef .tc k) = m ((c : Thread nD τ).loc k) :=
  withArrays_keep (dat0 (V0 m ρ) c) launch0.win.arr_inj (W0 m ρ c) (A_eq0 (V0 m ρ) c)
    ((by decide : ∀ k ∈ args, Keeps cfg0 k) k hk)
theorem W2_arg : W2 m ρ c (Proc.devRef .tc k) = m ((c : Thread nD τ).loc k) :=
  (StableHlo.after_of_writes_sub hostOps1 _ host_writes.1 ((by decide : ∀ k ∈ args, k ∉ hostOps1_W) k hk)).trans
    (W1_arg m ρ c hk)
theorem W3_arg : W3 m ρ c (Proc.devRef .tc k) = m ((c : Thread nD τ).loc k) :=
  (withArrays_keep (dat1 (V2 m ρ) c) launch1.win.arr_inj (W2 m ρ c) (A_eq1 (V2 m ρ) c)
    ((by decide : ∀ k ∈ args, Keeps cfg1 k) k hk)).trans (W2_arg m ρ c hk)
theorem W4_arg : W4 m ρ c (Proc.devRef .tc k) = m ((c : Thread nD τ).loc k) :=
  (StableHlo.after_of_writes_sub hostOps2 _ host_writes.2 ((by decide : ∀ k ∈ args, k ∉ hostOps2_W) k hk)).trans
    (W3_arg m ρ c hk)
theorem W5_arg : W5 m ρ c (Proc.devRef .tc k) = m ((c : Thread nD τ).loc k) :=
  (withArrays_keep (dat2 (V4 m ρ) c) launch2.win.arr_inj (W4 m ρ c) (A_eq2 (V4 m ρ) c)
    ((by decide : ∀ k ∈ args, Keeps cfg2 k) k hk)).trans (W4_arg m ρ c hk)

end

theorem W1_v0_0 (c : Dev nD) : W1 m ρ c (Proc.devRef .tc main_v0_0) = (dat0 (V0 m ρ) c).arrAt 3 cfg0.N :=
  Pipeline.withArrays_arr spec0 launch0.win.arr_inj c _ _ 3
theorem W1_v0_1 (c : Dev nD) : W1 m ρ c (Proc.devRef .tc main_v0_1) = (dat0 (V0 m ρ) c).arrAt 4 cfg0.N :=
  Pipeline.withArrays_arr spec0 launch0.win.arr_inj c _ _ 4
theorem W1_v0_2 (c : Dev nD) : W1 m ρ c (Proc.devRef .tc main_v0_2) = (dat0 (V0 m ρ) c).arrAt 5 cfg0.N :=
  Pipeline.withArrays_arr spec0 launch0.win.arr_inj c _ _ 5
theorem W3_v63 (c : Dev nD) : W3 m ρ c (Proc.devRef .tc main_v63) = (dat1 (V2 m ρ) c).arrAt 10 cfg1.N :=
  Pipeline.withArrays_arr spec1 launch1.win.arr_inj c _ _ 10
theorem W5_v123 (c : Dev nD) : W5 m ρ c (Proc.devRef .tc main_v123) = (dat2 (V4 m ρ) c).arrAt 10 cfg2.N :=
  Pipeline.withArrays_arr spec2 launch2.win.arr_inj c _ _ 10

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg (p : Fin 3) (lf : Pipeline.LaunchFacts (nD := nD) (τ := τ) cfgs p) (Vi : Dev nD → Valuation τ sig (Elt F))
    (hbody : ∀ c, BodyObligation (pdats m ρ p c) defs₀ 𝒱₀ () Set.univ)
    (howed : ∀ c t, (pdats m ρ p c).owed t = 0) (hq : ∀ c w, (pdats m ρ p c).q w = fullShare)
    (hA : ∀ c w, (pdats m ρ p c).A w = Vi c (Proc.devRef .tc (Pipeline.arrRef (cfgs p).spec w)))
    (hΦ : ∀ c t, (pdats m ρ p c).Φ t = Pipeline.ΦA (cfgs p).spec c)
    (hrec : ∀ c, (pdats m ρ p c).recorded 0 = Set.univ) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig)
    (Pipeline.withArrays (cfgs p).spec c (Vi c) fun w => (pdats m ρ p c).arrAt w (cfgs p).N) ∗ R c)
  X c := iprop(∃ r, prngReg c r)
  Y c := iprop(∃ r, prngReg c r)
  Z c := Pipeline.unscopedRest (cfgs p).spec c fun b => Vi c (Proc.devRef .tc b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Vi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm lf.win lf.arr_whole c (pdats m ρ) ((pdats m ρ p c).share_full (hq c)) (fun b => Vi c (Proc.devRef .tc b))
      (fun b => Pipeline.withArrays (cfgs p).spec c (Vi c) (fun w => (pdats m ρ p c).arrAt w (cfgs p).N) (Proc.devRef .tc b))
      ((pdats m ρ p c).arrAt · (cfgs p).N) (fun w => Eq.symm (Pipeline.withArrays_arr _ lf.win.arr_inj c _ _ w))
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev segs : List (Pipeline.Seg (pcfgs (F := F)) adm (pdats m ρ) () defs₀ 𝒱₀ L lv) :=
  [ .region (reg m ρ 0 launch0 (W0 m ρ) (body_obligation0 (V0 m ρ)) (fun _ _ => rfl) (fun _ _ => rfl) (fun _ _ => rfl)
      (fun _ _ => rfl) fun _ => rfl),
    .host (hseg hostOps1 hostOps1_sub hostOps1_fresh (W1 m ρ)),
    .region (reg m ρ 1 launch1 (W2 m ρ) (body_obligation1 (V2 m ρ)) (fun _ _ => rfl) (fun _ _ => rfl) (fun _ _ => rfl)
      (fun _ _ => rfl) fun _ => rfl),
    .host (hseg hostOps2 hostOps2_sub hostOps2_fresh (W3 m ρ)),
    .region (reg m ρ 2 launch2 (W4 m ρ) (body_obligation2 (V4 m ρ)) (fun _ _ => rfl) (fun _ _ => rfl) (fun _ _ => rfl)
      (fun _ _ => rfl) fun _ => rfl) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

theorem frame : θ_run defs (onTc (τ := τ) (main (F := F))) ⟨m, fun _ => 0, ρ⟩ (fun r => ∀ c : Dev nD,
      args.Forall fun k => r.2.mem ((c.tc : Thread nD τ).loc k) = m ((c.tc : Thread nD τ).loc k)) :=
  (θ_run defs (onTc (τ := τ) (main (F := F))) ⟨m, fun _ => 0, ρ⟩).monotone' (fun r h c =>
    List.forall_iff_forall_mem.2 fun k hk => (h c _ (mem_uc k
      ((by decide : ∀ k ∈ args, ¬ (Proc.devRef .tc k : DevRef τ sig).isScoped) k hk))).trans (W5_arg m ρ c hk))
    (run_main m ρ)

end Cert.KernelIdeal.Hand

end
-- ==== Proof.Spec.lean ====
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

abbrev I1 (a : Nat) : Type := (⟨1, ![a]⟩ : Shape).Idx
abbrev I2 (a b : Nat) : Type := (⟨2, ![a, b]⟩ : Shape).Idx
abbrev I3 (a b c : Nat) : Type := (⟨3, ![a, b, c]⟩ : Shape).Idx

def zeroW : EReal := Ideal.ofBits .f32 0x00000000#32
def oneW : EReal := Ideal.ofBits .f32 0x3F800000#32
def epsNorm : EReal := Ideal.ofBits .f32 0x2B8CBCCC#32
def c128 : EReal := Ideal.ofBits .f32 0x43000000#32
def epsVar : EReal := Ideal.ofBits .f32 0x3727C5AC#32
def third : EReal := ((1 / 3 : ℝ) : EReal)

def normIdx (N : Nat) (b : BitVec 32) : BitVec 32 :=
  if b.toInt < 0 then b + BitVec.ofNat 32 N else b

def clampRow (N : Nat) (hN : 0 < N) (b : BitVec 32) : Fin N := ⟨min b.toInt.toNat (N - 1), by omega⟩

def segSum {M C : Nat} (dst : Fin M → BitVec 32) (msg : Fin M → Fin C → EReal) (r : Nat) (k : Fin C) : EReal :=
  ∑ e ∈ Finset.univ.filter (fun e : Fin M => (dst e).toInt = (r : Int)), msg e k

def segCnt {M : Nat} (dst : Fin M → BitVec 32) (r : Nat) : EReal :=
  ∑ _e ∈ Finset.univ.filter (fun e : Fin M => (dst e).toInt = (r : Int)), oneW

def lin {n : Nat} (s : Fin n → EReal) (cnt : EReal) (root : Fin n → EReal) (Wl Wr : Fin n → Fin 128 → EReal)
    (bl : Fin 128 → EReal) (q : Fin 128) : EReal :=
  (∑ k, Ideal.div (s k) (max cnt oneW) * Wl k q) + bl q + ∑ k, root k * Wr k q

def l2n (o : Fin 128 → EReal) (q : Fin 128) : EReal :=
  Ideal.div (o q) (max (Ideal.sqrt (∑ j, o j * o j)) epsNorm)

def meanRelu (a b c : Fin 128 → EReal) (q : Fin 128) : EReal := max ((a q + b q + c q) * third) zeroW

def layerNorm (h g b : Fin 128 → EReal) (q : Fin 128) : EReal :=
  (h q - Ideal.div (∑ j, h j) c128)
    * Ideal.rsqrt (Ideal.div (∑ j, (h j - Ideal.div (∑ i, h i) c128) * (h j - Ideal.div (∑ i, h i) c128)) c128 + epsVar)
    * g q + b q

def combine0 (s0 s1 s2 : Fin 64 → EReal) (c0 c1 c2 : EReal) (root : Fin 64 → EReal)
    (Wl Wr : Fin 3 → Fin 64 → Fin 128 → EReal) (bl : Fin 3 → Fin 128 → EReal) (g b : Fin 128 → EReal) : Fin 128 → EReal :=
  layerNorm (meanRelu (l2n (lin s0 c0 root (Wl 0) (Wr 0) (bl 0))) (l2n (lin s1 c1 root (Wl 1) (Wr 1) (bl 1)))
    (l2n (lin s2 c2 root (Wl 2) (Wr 2) (bl 2)))) g b

def combine1 (s0 s1 s2 : Fin 128 → EReal) (c0 c1 c2 : EReal) (root : Fin 128 → EReal)
    (Wl Wr : Fin 3 → Fin 128 → Fin 128 → EReal) (bl : Fin 3 → Fin 128 → EReal) (g b : Fin 128 → EReal) : Fin 128 → EReal :=
  layerNorm (meanRelu (lin s0 c0 root (Wl 0) (Wr 0) (bl 0)) (lin s1 c1 root (Wl 1) (Wr 1) (bl 1))
    (lin s2 c2 root (Wl 2) (Wr 2) (bl 2))) g b

section Layers

variable (X : I2 300000 64 → EReal) (ei : Fin 3 → I2 2 900000 → BitVec 32)
  (Wp : I3 3 64 64 → EReal) (bp : I2 3 64 → EReal)
  (Wl : I3 3 64 128 → EReal) (bl : I2 3 128 → EReal) (Wr : I3 3 64 128 → EReal)
  (Wl2 : I3 3 128 128 → EReal) (bl2 : I2 3 128 → EReal) (Wr2 : I3 3 128 128 → EReal)
  (g0 b0 g1 b1 : I1 128 → EReal)

def proj (t : Fin 3) (r : Fin 300000) (j : Fin 64) : EReal :=
  max ((∑ k : Fin 64, X (ix2 r k) * Wp (ix3 t k j)) + bp (ix2 t j)) zeroW

def msg0 (t : Fin 3) (e : Fin 900000) (j : Fin 64) : EReal :=
  proj X Wp bp t (clampRow 300000 (by decide) (normIdx 300000 (ei t (ix2 0 e)))) j

def agg0 (t : Fin 3) (r : Nat) (j : Fin 64) : EReal := segSum (fun e : Fin 900000 => ei t (ix2 1 e)) (msg0 X ei Wp bp t) r j
def cnt0 (t : Fin 3) (r : Nat) : EReal := segCnt (fun e : Fin 900000 => ei t (ix2 1 e)) r

def h0 (r : Fin 300000) : Fin 128 → EReal :=
  combine0 (agg0 X ei Wp bp 0 r.val) (agg0 X ei Wp bp 1 r.val) (agg0 X ei Wp bp 2 r.val) (cnt0 ei 0 r.val) (cnt0 ei 1 r.val) (cnt0 ei 2 r.val)
    (fun k => X (ix2 r k)) (fun t k q => Wl (ix3 t k q)) (fun t k q => Wr (ix3 t k q)) (fun t q => bl (ix2 t q))
    (fun q => g0 (ix1 q)) (fun q => b0 (ix1 q))

def h1 (r : Fin 150000) : Fin 128 → EReal := h0 X ei Wp bp Wl bl Wr g0 b0 (Fin.castLE (by decide) r)

def msg1 (t : Fin 3) (e : Fin 300000) (q : Fin 128) : EReal :=
  h1 X ei Wp bp Wl bl Wr g0 b0 (clampRow 150000 (by decide) (normIdx 150000 (ei t (ix2 0 (Fin.castLE (by decide) e))))) q

def agg1 (t : Fin 3) (r : Nat) (q : Fin 128) : EReal :=
  segSum (fun e : Fin 300000 => ei t (ix2 1 (Fin.castLE (by decide) e))) (msg1 X ei Wp bp Wl bl Wr g0 b0 t) r q
def cnt1 (t : Fin 3) (r : Nat) : EReal := segCnt (fun e : Fin 300000 => ei t (ix2 1 (Fin.castLE (by decide) e))) r

def out (r : Fin 50000) : Fin 128 → EReal :=
  combine1 (agg1 X ei Wp bp Wl bl Wr g0 b0 0 r.val) (agg1 X ei Wp bp Wl bl Wr g0 b0 1 r.val) (agg1 X ei Wp bp Wl bl Wr g0 b0 2 r.val)
    (cnt1 ei 0 r.val) (cnt1 ei 1 r.val) (cnt1 ei 2 r.val)
    (h1 X ei Wp bp Wl bl Wr g0 b0 (Fin.castLE (by decide) r))
    (fun t k q => Wl2 (ix3 t k q)) (fun t k q => Wr2 (ix3 t k q)) (fun t q => bl2 (ix2 t q))
    (fun q => g1 (ix1 q)) (fun q => b1 (ix1 q))

end Layers

/-- The argument arrays the result depends on, as one bundle. -/
structure Args where
  X : I2 300000 64 → EReal
  ei : Fin 3 → I2 2 900000 → BitVec 32
  Wp : I3 3 64 64 → EReal
  bp : I2 3 64 → EReal
  Wl : I3 3 64 128 → EReal
  bl : I2 3 128 → EReal
  Wr : I3 3 64 128 → EReal
  Wl2 : I3 3 128 128 → EReal
  bl2 : I2 3 128 → EReal
  Wr2 : I3 3 128 128 → EReal
  g0 : I1 128 → EReal
  b0 : I1 128 → EReal
  g1 : I1 128 → EReal
  b1 : I1 128 → EReal

namespace Args

variable (a : Args)

abbrev proj := Spec.proj a.X a.Wp a.bp
abbrev agg0 := Spec.agg0 a.X a.ei a.Wp a.bp
abbrev h0 := Spec.h0 a.X a.ei a.Wp a.bp a.Wl a.bl a.Wr a.g0 a.b0
abbrev h1 := Spec.h1 a.X a.ei a.Wp a.bp a.Wl a.bl a.Wr a.g0 a.b0
abbrev agg1 := Spec.agg1 a.X a.ei a.Wp a.bp a.Wl a.bl a.Wr a.g0 a.b0
abbrev out := Spec.out a.X a.ei a.Wp a.bp a.Wl a.bl a.Wr a.Wl2 a.bl2 a.Wr2 a.g0 a.b0 a.g1 a.b1

end Args

end Cert.Spec

end
-- ==== Proof.KIVal0.lean ====
import proofs.«421255_j8237747274315_3_alg».proof.Proof.KIRegion0
import proofs.«421255_j8237747274315_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem kv0_zero_off : (![0, 0] : Fin 2 → Nat) = fun _ => 0 := funext fun a => by fin_cases a <;> rfl

-- Entry (p, q) of a row block times a square matrix, added to zeros, is the sum over the shared coordinate.
theorem kv0_matmul_apply (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S10000x64_S64x64_S10000x64_1_0_0_1_n_n 64 rfl rfl).symm]
  refine Finset.sum_congr rfl fun k _ => ?_
  have ck := contrEquiv1_symm_val dot_S10000x64_S64x64_S10000x64_1_0_0_1_n_n 64 rfl rfl k
  congr 2 <;> apply Shape.idx_ext₂ <;> simp [DotDims.lhsIdx, DotDims.rhsIdx, dot_S10000x64_S64x64_S10000x64_1_0_0_1_n_n] <;>
    first | rfl | exact ck

-- On extended reals the changes of format are the identity, so an entry is the row times the matrix plus the bias, clipped at zero.
theorem kv0_pay_apply (x0 : Vec Ideal S10000x64 .f32) (w : Vec Ideal S1x64x64 .f32) (b : Vec Ideal S1x64 .f32) (p : Fin 10000) (q : Fin 64) :
    k0_pay3 x0 w b (ix2 p q)
      = max ((∑ k : Fin 64, x0 (ix2 p k) * w (ix3 (0 : Fin 1) k q)) + b (ix2 (0 : Fin 1) q)) (Ideal.ofBits .f32 0x00000000#32) := by
  unfold k0_pay3 k0_pay2
  dsimp only
  rw [truncf_apply, maximumf_apply, addf_apply, broadcast_apply, kv0_matmul_apply, broadcastTo_1b_ab_apply, shapeCast_a_1a_apply,
    shapeCast_1a_a_apply]
  refine congrArg (fun s => max (s + b (ix2 (0 : Fin 1) q)) _) (Finset.sum_congr rfl fun k _ => ?_)
  rw [truncf_apply, truncf_apply, shapeCast_1ab_ab_apply]

theorem kv0_idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

abbrev kv0_G (e : Fin 3) (X : S300000x64.Idx → EReal) (Wp : S3x64x64.Idx → EReal) (bp : S3x64.Idx → EReal) :
    S300000x64.Idx → EReal :=
  fun i => Cert.Spec.proj X Wp bp e (i 0) (i 1)

-- Row p of the block at point t is row 10000 t + p of the features, and matrix e and bias row e are read whole, so the entry is the projection at its place in the array.
theorem kv0_blk (e : Fin 3) (ow : Fin 3 → Nat) (ob : Fin 2 → Nat) (iw : ∀ a, ow a + S1x64x64.size a ≤ S3x64x64.size a)
    (ib : ∀ a, ob a + S1x64.size a ≤ S3x64.size a) (hw : ow = ![e.val, 0, 0]) (hb : ob = ![e.val, 0])
    (c : Dev nD) (t : Fin cfg0.N) (y : S10000x64.Idx) (i : S300000x64.Idx)
    (h0 : (i 0).val = t.val * 10000 + (y 0).val) (h1 : (i 1).val = (y 1).val) :
    k0_pay3 (iblk0 (F := Ideal) V c 0 t) (View.ld (iblk0 (F := Ideal) V c 1 t) (Rect.unit (s := S3x64x64) ow S1x64x64.size iw))
        (View.ld (iblk0 (F := Ideal) V c 2 t) (Rect.unit (s := S3x64) ob S1x64.size ib)) y
      = kv0_G e (V c main_arg0) (V c main_arg6) (V c main_arg7) i := by
  have f := kv0_idx_facts t
  obtain ⟨p, q, rfl⟩ : ∃ (p : Fin 10000) (q : Fin 64), y = ix2 p q := ⟨y 0, y 1, eq_ix2 y⟩
  replace h0 : (i 0).val = t.val * 10000 + p.val := h0
  obtain rfl : i 1 = q := Fin.ext h1
  subst hw hb
  refine (kv0_pay_apply _ _ _ p (i 1)).trans ?_
  show _ = Cert.Spec.proj _ _ _ e (i 0) (i 1)
  unfold Cert.Spec.proj Cert.Spec.zeroW
  refine congrArg₂ (fun s b => max (s + b) _) (Finset.sum_congr rfl fun k _ => congrArg₂ (· * ·) ?_ ?_) ?_
  · exact congrArg (V c main_arg0) (Shape.idx_ext₂ (by show win0_0.index t (0 : Fin 2) * 10000 + 1 * p.val = (i 0).val; omega)
      (by show win0_0.index t (1 : Fin 2) * 64 + 1 * k.val = k.val; omega))
  · refine congrArg (V c main_arg6) (funext fun a => Fin.ext ?_)
    match a with
    | ⟨0, _⟩ => show win0_1.index t (0 : Fin 3) * 3 + 1 * (e.val + 1 * 0) = e.val; omega
    | ⟨1, _⟩ => show win0_1.index t (1 : Fin 3) * 64 + 1 * (0 + 1 * k.val) = k.val; omega
    | ⟨2, _⟩ => show win0_1.index t (2 : Fin 3) * 64 + 1 * (0 + 1 * (i 1).val) = (i 1).val; omega
  · exact congrArg (V c main_arg7) (Shape.idx_ext₂ (by show win0_2.index t (0 : Fin 2) * 3 + 1 * (e.val + 1 * 0) = e.val; omega)
      (by show win0_2.index t (1 : Fin 2) * 64 + 1 * (0 + 1 * (i 1).val) = (i 1).val; omega))

theorem kv0_pt (i : Fin 300000) : ∃ t : Fin cfg0.N, t.val = i.val / 10000 :=
  ⟨⟨i.val / 10000, by have := N_0; have := i.isLt; show _ < grid0.N; omega⟩, rfl⟩

-- The thirty row blocks tile the array and each is written once with the projection by one matrix.
theorem arr0_3 (c : Dev nD) (r : Fin 300000) (j : Fin 64) :
    (dat0 (F := Ideal) V c).arrAt 3 cfg0.N (ix2 r j)
      = Cert.Spec.proj (V c main_arg0) (V c main_arg6) (V c main_arg7) 0 r j := by
  refine congrFun ((dat0 (F := Ideal) V c).arrAt_eq_of_cover 3 (kv0_G 0 (V c main_arg0) (V c main_arg6) (V c main_arg7))
    (fun t _ => ?_) fun i => ?_) (ix2 r j)
  · have f := kv0_idx_facts t
    show (cfg0.win 3).cut (grid0.coords t) ((dat0 (F := Ideal) V c).after 3 t) = _
    rw [after0_3]
    unfold out0_3
    rw [View.canon_unit_zero kv0_zero_off]
    simp only [View.ld_unit_zero (S := S10000x64) kv0_zero_off]
    exact funext fun y => kv0_blk V 0 _ _ _ _ rfl rfl c t y (((cfg0.win 3).blk t).view.emb y)
      (by show win0_3.index t (0 : Fin 2) * 10000 + 1 * (y 0).val = _; omega)
      (by show win0_3.index t (1 : Fin 2) * 64 + 1 * (y 1).val = _; omega)
  · obtain ⟨t, ht⟩ := kv0_pt (i 0)
    have f := kv0_idx_facts t
    have hi1 : (i 1).val < 64 := (i 1).isLt
    refine ⟨t, flush0_3 t, ?_⟩
    show i ∈ ((View.whole main_v0_0).slice (win0_3.rect t)).set
    rw [View.set_slice_whole, Rect.mem_set_unit]
    intro a
    match a with
    | ⟨0, _⟩ => show win0_3.index t (0 : Fin 2) * 10000 ≤ (i 0).val ∧ (i 0).val < win0_3.index t (0 : Fin 2) * 10000 + 10000; omega
    | ⟨1, _⟩ => show win0_3.index t (1 : Fin 2) * 64 ≤ (i 1).val ∧ (i 1).val < win0_3.index t (1 : Fin 2) * 64 + 64; omega

theorem arr0_4 (c : Dev nD) (r : Fin 300000) (j : Fin 64) :
    (dat0 (F := Ideal) V c).arrAt 4 cfg0.N (ix2 r j)
      = Cert.Spec.proj (V c main_arg0) (V c main_arg6) (V c main_arg7) 1 r j := by
  refine congrFun ((dat0 (F := Ideal) V c).arrAt_eq_of_cover 4 (kv0_G 1 (V c main_arg0) (V c main_arg6) (V c main_arg7))
    (fun t _ => ?_) fun i => ?_) (ix2 r j)
  · have f := kv0_idx_facts t
    show (cfg0.win 4).cut (grid0.coords t) ((dat0 (F := Ideal) V c).after 4 t) = _
    rw [after0_4]
    unfold out0_4
    rw [View.canon_unit_zero kv0_zero_off]
    simp only [View.ld_unit_zero (S := S10000x64) kv0_zero_off]
    exact funext fun y => kv0_blk V 1 _ _ _ _ rfl rfl c t y (((cfg0.win 4).blk t).view.emb y)
      (by show win0_4.index t (0 : Fin 2) * 10000 + 1 * (y 0).val = _; omega)
      (by show win0_4.index t (1 : Fin 2) * 64 + 1 * (y 1).val = _; omega)
  · obtain ⟨t, ht⟩ := kv0_pt (i 0)
    have f := kv0_idx_facts t
    have hi1 : (i 1).val < 64 := (i 1).isLt
    refine ⟨t, flush0_4 t, ?_⟩
    show i ∈ ((View.whole main_v0_1).slice (win0_4.rect t)).set
    rw [View.set_slice_whole, Rect.mem_set_unit]
    intro a
    match a with
    | ⟨0, _⟩ => show win0_4.index t (0 : Fin 2) * 10000 ≤ (i 0).val ∧ (i 0).val < win0_4.index t (0 : Fin 2) * 10000 + 10000; omega
    | ⟨1, _⟩ => show win0_4.index t (1 : Fin 2) * 64 ≤ (i 1).val ∧ (i 1).val < win0_4.index t (1 : Fin 2) * 64 + 64; omega

theorem arr0_5 (c : Dev nD) (r : Fin 300000) (j : Fin 64) :
    (dat0 (F := Ideal) V c).arrAt 5 cfg0.N (ix2 r j)
      = Cert.Spec.proj (V c main_arg0) (V c main_arg6) (V c main_arg7) 2 r j := by
  refine congrFun ((dat0 (F := Ideal) V c).arrAt_eq_of_cover 5 (kv0_G 2 (V c main_arg0) (V c main_arg6) (V c main_arg7))
    (fun t _ => ?_) fun i => ?_) (ix2 r j)
  · have f := kv0_idx_facts t
    show (cfg0.win 5).cut (grid0.coords t) ((dat0 (F := Ideal) V c).after 5 t) = _
    rw [after0_5]
    unfold out0_5
    rw [View.canon_unit_zero kv0_zero_off]
    simp only [View.ld_unit_zero (S := S10000x64) kv0_zero_off]
    exact funext fun y => kv0_blk V 2 _ _ _ _ rfl rfl c t y (((cfg0.win 5).blk t).view.emb y)
      (by show win0_5.index t (0 : Fin 2) * 10000 + 1 * (y 0).val = _; omega)
      (by show win0_5.index t (1 : Fin 2) * 64 + 1 * (y 1).val = _; omega)
  · obtain ⟨t, ht⟩ := kv0_pt (i 0)
    have f := kv0_idx_facts t
    have hi1 : (i 1).val < 64 := (i 1).isLt
    refine ⟨t, flush0_5 t, ?_⟩
    show i ∈ ((View.whole main_v0_2).slice (win0_5.rect t)).set
    rw [View.set_slice_whole, Rect.mem_set_unit]
    intro a
    match a with
    | ⟨0, _⟩ => show win0_5.index t (0 : Fin 2) * 10000 ≤ (i 0).val ∧ (i 0).val < win0_5.index t (0 : Fin 2) * 10000 + 10000; omega
    | ⟨1, _⟩ => show win0_5.index t (1 : Fin 2) * 64 ≤ (i 1).val ∧ (i 1).val < win0_5.index t (1 : Fin 2) * 64 + 64; omega

end Cert.KernelIdeal.Hand

end
-- ==== Proof.KIVal2a.lean ====
import proofs.«421255_j8237747274315_3_alg».proof.Proof.Gen.KernelIdeal.Skeleton
import proofs.«421255_j8237747274315_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen Cert.Spec
open Idealize.ShloMosaic Idealize.ShloMosaic.ValueIdx

theorem kv2_hz2 : (![0, 0] : Fin 2 → Nat) = fun _ => 0 := funext fun a => by fin_cases a <;> rfl
theorem kv2_hz1 : (![0] : Fin 1 → Nat) = fun _ => 0 := funext fun a => by fin_cases a <;> rfl

-- Column e of the three counts, read as a one-column block.
theorem kv2a_cnt (x : FVec Ideal S5000x3 .f32) (off : Fin 2 → Nat) (e : Fin 3) (h : S5000x3.Slices off S5000x1) (he : off = ![0, e.val])
    (p : Fin 5000) (u : Fin 1) : extractStridedSlice S5000x1 off x h (ix2 p u) = x (ix2 p e) := by
  subst he
  have hu : u.val = 0 := by omega
  refine extractStridedSlice_apply _ x _ (ix2 p u) (ix2 p e) fun a => ?_
  match a with
  | ⟨0, _⟩ => show p.val = 0 + p.val; omega
  | ⟨1, _⟩ => show e.val = e.val + u.val; omega

-- Bias row e, read out of the three.
theorem kv2a_ldb (x : Vec Ideal S3x128 .f32) (off : Fin 2 → Nat) (e : Fin 3) (inb : ∀ a, off a + S1x128.size a ≤ S3x128.size a)
    (he : off = ![e.val, 0]) (q : Fin 128) :
    View.ld x (Rect.unit (s := S3x128) off S1x128.size inb) (ix2 (0 : Fin 1) q) = x (ix2 e q) := by
  subst he
  exact congrArg x (Shape.idx_ext₂ (by show e.val + 1 * 0 = e.val; omega) (by show 0 + 1 * q.val = q.val; omega))

theorem kv2a_lane_sum_apply (x : FVec Ideal S5000x128 .f32) (h : S5000x128.Reduces [1] S5000)
    (hφ : FTy.f32 = FTy.f32 ∨ FTy.f32 = FTy.bf16) (hacc : (0x00000000#32 : BitVec FTy.f32.bits) = 0x00000000#32) (p : Fin 5000) :
    multiReduction (F := Ideal) .add [1] S5000 x 0x00000000#32 h hφ hacc (ix1 p) = ∑ k : Fin 128, x (ix2 p k) :=
  (Ideal.multiReduction_add_single x 0x00000000#32 h hφ hacc (ix1 p)).trans
    (Finset.sum_congr rfl fun k _ => congrArg x (funext fun a => Fin.ext (by
      match a with
      | ⟨0, _⟩ => rfl
      | ⟨1, _⟩ => rfl)))

theorem kv2a_column_apply {α : Type} (y : S5000.Idx → α) (h : S5000.ShapeCasts S5000x1) (p : Fin 5000) (u : Fin 1) :
    shapeCast S5000x1 y h (ix2 p u) = y (ix1 p) :=
  shapeCast_apply y h _ _ (by
    have hu : u.val = 0 := by omega
    rw [Shape.rowMajor_val_two, Shape.rowMajor_val_one]
    show p.val = p.val * 1 + u.val
    rw [hu, Nat.mul_one, Nat.add_zero])

theorem kv2a_column_spread_apply {α : Type} (y : S5000x1.Idx → α) (h : S5000x1.Broadcasts S5000x128) (p : Fin 5000) (q : Fin 128) :
    broadcastTo S5000x128 y h (ix2 p q) = y (ix2 p (0 : Fin 1)) := by
  refine broadcastTo_apply y h (ix2 p q) (ix2 p (0 : Fin 1)) fun ax => ?_
  match ax with
  | ⟨0, _⟩ => rfl
  | ⟨1, _⟩ => rfl

theorem kv2a_lanes_spread_apply {α : Type} (g : S128.Idx → α) (hc : S128.ShapeCasts S1x128) (hb : S1x128.Broadcasts S5000x128)
    (p : Fin 5000) (q : Fin 128) :
    broadcastTo S5000x128 (shapeCast S1x128 g hc) hb (ix2 p q) = g (ix1 q) :=
  (broadcastTo_1b_ab_apply _ hb p q).trans (shapeCast_a_1a_apply g hc 0 q)

theorem kv2a_third : Named.named (F := Ideal) Cert.KernelIdeal.κ "inv_3" (φ := .f32) 0x3EAAAAAB#32 = Cert.Spec.third :=
  IdealRules.named_const.ideal_named_scalar _ _ _ _ rfl

theorem kv2a_rsqrt_apply {s : Shape} {φ : FTy} (a : FVec Ideal s φ) (i : s.Idx) : rsqrt a i = Ideal.rsqrt (a i) := rfl

-- Every step is pointwise or a sum along the row, so the entry is the row's normalisation of the clipped mean.
theorem kv2_ln_tail_apply (v : FVec Ideal S5000x128 .f32) (g b : Vec Ideal S128 .f32) (p : Fin 5000) (q : Fin 128) :
    k2_pay1 (F := Ideal) v g b (ix2 p q)
      = Cert.Spec.layerNorm (fun j => max (v (ix2 p j) * Cert.Spec.third) Cert.Spec.zeroW) (fun j => g (ix1 j)) (fun j => b (ix1 j)) q := by
  unfold k2_pay1 Cert.Spec.layerNorm
  simp only [addf_apply, mulf_apply, subf_apply, divf_apply, maximumf_apply, broadcast_apply, kv2a_rsqrt_apply,
    kv2a_lanes_spread_apply, kv2a_column_spread_apply, kv2a_column_apply, kv2a_third]
  rw [kv2a_lane_sum_apply, kv2a_lane_sum_apply]
  simp only [addf_apply, mulf_apply, subf_apply, divf_apply, maximumf_apply, broadcast_apply,
    kv2a_column_spread_apply, kv2a_column_apply, kv2a_third]
  rw [kv2a_lane_sum_apply]
  simp only [maximumf_apply, mulf_apply, broadcast_apply]
  rfl

end Cert.KernelIdeal.Hand

end
-- ==== Proof.KIVal1.lean ====
import proofs.«421255_j8237747274315_3_alg».proof.Proof.KIRegion1
import proofs.«421255_j8237747274315_3_alg».proof.Proof.KIVal2a
import proofs.«421255_j8237747274315_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window cellOf)

theorem v1_mm_at (A : FVec Ideal S5000x64 .bf16) (B : FVec Ideal S64x128 .bf16) (p : Fin 5000) (q : Fin 128) :
    matmul dot_S5000x64_S64x128_S5000x128_1_0_0_1_n_n none A B (constant (F := Ideal) S5000x128 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S5000x64_S64x128_S5000x128_1_0_0_1_n_n 64 rfl rfl).symm]
  refine Finset.sum_congr rfl fun c _ => ?_
  have c2 := contrEquiv1_symm_val dot_S5000x64_S64x128_S5000x128_1_0_0_1_n_n 64 rfl rfl c
  congr 2 <;> apply Shape.idx_ext₂ <;> simp [DotDims.lhsIdx, DotDims.rhsIdx, dot_S5000x64_S64x128_S5000x128_1_0_0_1_n_n] <;>
    first | rfl | exact c2

theorem v1_col64_at (v : FVec Ideal S5000x1 .f32) (p : Fin 5000) (k : Fin 64) :
    broadcastTo S5000x64 v broadcasts_S5000x1_S5000x64 (ix2 p k) = v (ix2 p 0) := by
  refine broadcastTo_apply v _ (ix2 p k) (ix2 p 0) fun ax => ?_
  match ax with
  | ⟨0, _⟩ => rfl
  | ⟨1, _⟩ => rfl

theorem v1_mat_at (W : Vec Ideal S1x64x128 .f32) (k : Fin 64) (q : Fin 128) :
    shapeCast S64x128 W shapeCasts_S1x64x128_S64x128 (ix2 k q) = W (ix3 0 k q) :=
  shapeCast_1ab_ab_apply W shapeCasts_S1x64x128_S64x128 k q
theorem v1_bias_at (b : Vec Ideal S1x128 .f32) (q : Fin 128) :
    shapeCast S128 b shapeCasts_S1x128_S128 (ix1 q) = b (ix2 0 q) :=
  shapeCast_1a_a_apply b shapeCasts_S1x128_S128 q

def v1_mean (s : FVec Ideal S5000x64 .f32) (c : FVec Ideal S5000x1 .f32) : FVec Ideal S5000x64 .bf16 :=
  truncf .bf16 (divf s (broadcastTo S5000x64 (maximumf c (broadcast S5000x1 (Scalar.ofBits (F := Ideal) .f32 0x3F800000#32)))
    broadcasts_S5000x1_S5000x64)) bitsLt_bf16_f32

theorem v1_mean_at (s : FVec Ideal S5000x64 .f32) (c : FVec Ideal S5000x1 .f32) (p : Fin 5000) (k : Fin 64) :
    v1_mean s c (ix2 p k) = Ideal.div (s (ix2 p k)) (max (c (ix2 p 0)) oneW) := by
  unfold v1_mean
  rw [truncf_apply, divf_apply, v1_col64_at]
  rfl

def v1_lin (mean root : FVec Ideal S5000x64 .bf16) (wl wr : FVec Ideal S64x128 .bf16) (b : FVec Ideal S128 .f32) :
    FVec Ideal S5000x128 .f32 :=
  addf (addf (matmul dot_S5000x64_S64x128_S5000x128_1_0_0_1_n_n none mean wl (constant (F := Ideal) S5000x128 .f32 0x00000000#32))
      (broadcastTo S5000x128 (shapeCast S1x128 b shapeCasts_S128_S1x128) broadcasts_S1x128_S5000x128))
    (matmul dot_S5000x64_S64x128_S5000x128_1_0_0_1_n_n none root wr (constant (F := Ideal) S5000x128 .f32 0x00000000#32))

theorem v1_lin_at (mean root : FVec Ideal S5000x64 .bf16) (wl wr : FVec Ideal S64x128 .bf16) (b : FVec Ideal S128 .f32)
    (p : Fin 5000) (q : Fin 128) :
    v1_lin mean root wl wr b (ix2 p q)
      = (∑ k : Fin 64, mean (ix2 p k) * wl (ix2 k q)) + b (ix1 q) + ∑ k : Fin 64, root (ix2 p k) * wr (ix2 k q) := by
  unfold v1_lin
  rw [addf_apply, addf_apply, v1_mm_at, v1_mm_at, kv2a_lanes_spread_apply]

def v1_norm (o : FVec Ideal S5000x128 .f32) : FVec Ideal S5000x128 .f32 :=
  divf o (broadcastTo S5000x128
    (maximumf (sqrt (shapeCast S5000x1 (multiReduction (F := Ideal) .add [1] S5000 (mulf o o) 0x00000000#32 reduces_S5000x128_S5000 (.inl rfl) rfl)
        shapeCasts_S5000_S5000x1))
      (broadcast S5000x1 (Scalar.ofBits (F := Ideal) .f32 0x2B8CBCCC#32)))
    broadcasts_S5000x1_S5000x128)

theorem v1_norm_at (o : FVec Ideal S5000x128 .f32) (p : Fin 5000) (q : Fin 128) :
    v1_norm o (ix2 p q) = l2n (fun j => o (ix2 p j)) q := by
  unfold v1_norm
  rw [divf_apply, kv2a_column_spread_apply]
  show Ideal.div _ (max (Ideal.sqrt (shapeCast S5000x1 _ _ _)) _) = _
  rw [kv2a_column_apply, kv2a_lane_sum_apply]
  rfl

-- The row of one edge type: both products are sums along row p, and the division by the row's length reads the row's sum of squares.
theorem v1_edge_at (s : FVec Ideal S5000x64 .f32) (root : FVec Ideal S5000x64 .bf16) (c : FVec Ideal S5000x1 .f32) (Wl Wr : Vec Ideal S1x64x128 .f32)
    (bl : Vec Ideal S1x128 .f32) (p : Fin 5000) (q : Fin 128) :
    v1_norm (v1_lin (v1_mean s c) root
        (truncf .bf16 (shapeCast S64x128 Wl shapeCasts_S1x64x128_S64x128) bitsLt_bf16_f32)
        (truncf .bf16 (shapeCast S64x128 Wr shapeCasts_S1x64x128_S64x128) bitsLt_bf16_f32)
        (shapeCast S128 bl shapeCasts_S1x128_S128)) (ix2 p q)
      = l2n (lin (fun k => s (ix2 p k)) (c (ix2 p 0)) (fun k => root (ix2 p k)) (fun k j => Wl (ix3 0 k j))
          (fun k j => Wr (ix3 0 k j)) (fun j => bl (ix2 0 j))) q := by
  rw [v1_norm_at]
  refine congrArg (fun o => l2n o q) (funext fun j => ?_)
  rw [v1_lin_at, v1_bias_at]
  unfold lin
  refine congrArg₂ (· + ·) (congrArg (· + _) (Finset.sum_congr rfl fun k _ => ?_)) (Finset.sum_congr rfl fun k _ => ?_)
  · show v1_mean s c (ix2 p k) * shapeCast S64x128 Wl shapeCasts_S1x64x128_S64x128 (ix2 k j) = _
    rw [v1_mean_at, v1_mat_at]
  · show root (ix2 p k) * shapeCast S64x128 Wr shapeCasts_S1x64x128_S64x128 (ix2 k j) = _
    rw [v1_mat_at]

theorem v1_pay2_at (v0 : Vec Ideal S5000x64 .f32) (p : Fin 5000) (k : Fin 64) : k1_pay2 v0 (ix2 p k) = v0 (ix2 p k) := by
  unfold k1_pay2
  simp only [shapeCast_self]
  rfl

theorem v1_pay4_at (v0 : Vec Ideal S5000x64 .f32) (v3 : Vec Ideal S5000x3 .f32) (v6 : Vec Ideal S5000x64 .f32)
    (v14 v17 : Vec Ideal S1x64x128 .f32) (v20 : Vec Ideal S1x128 .f32) (p : Fin 5000) (q : Fin 128) :
    k1_pay4 v0 v3 v6 v14 v17 v20 (ix2 p q)
      = l2n (lin (fun k => v6 (ix2 p k)) (v3 (ix2 p 0)) (fun k => v0 (ix2 p k)) (fun k j => v14 (ix3 0 k j))
          (fun k j => v17 (ix3 0 k j)) (fun j => v20 (ix2 0 j))) q := by
  show Ideal.ofBits .f32 0x00000000#32 + v1_norm (v1_lin (v1_mean _ _) _ (truncf .bf16 (shapeCast S64x128 _ _) _) (truncf .bf16 (shapeCast S64x128 _ _) _) (shapeCast S128 _ _)) (ix2 p q) = _
  rw [Ideal.ofBits_zero_f32, zero_add, v1_edge_at]
  unfold k1_pay3
  simp only [shapeCast_self, kv2a_cnt _ ![0, 0] 0 _ rfl, v1_pay2_at]

theorem v1_pay5_at (v2 : FVec Ideal S5000x64 .bf16) (v4 : FVec Ideal S5000x3 .f32) (v36 : FVec Ideal S5000x128 .f32)
    (v37 : Vec Ideal S5000x64 .f32) (v45 v48 : Vec Ideal S1x64x128 .f32) (v51 : Vec Ideal S1x128 .f32) (p : Fin 5000) (q : Fin 128) :
    k1_pay5 v2 v4 v36 v37 v45 v48 v51 (ix2 p q)
      = v36 (ix2 p q) + l2n (lin (fun k => v37 (ix2 p k)) (v4 (ix2 p 1)) (fun k => v2 (ix2 p k)) (fun k j => v45 (ix3 0 k j))
          (fun k j => v48 (ix3 0 k j)) (fun j => v51 (ix2 0 j))) q := by
  show v36 (ix2 p q) + v1_norm (v1_lin (v1_mean _ _) _ (truncf .bf16 (shapeCast S64x128 _ _) _) (truncf .bf16 (shapeCast S64x128 _ _) _) (shapeCast S128 _ _)) (ix2 p q) = _
  rw [v1_edge_at]
  simp only [shapeCast_self, kv2a_cnt _ ![0, 1] 1 _ rfl]

theorem v1_pay8_at (v2 : FVec Ideal S5000x64 .bf16) (v67 : FVec Ideal S5000x128 .f32) (v4 : FVec Ideal S5000x3 .f32)
    (v68 : Vec Ideal S5000x64 .f32) (v76 v79 : Vec Ideal S1x64x128 .f32) (v82 : Vec Ideal S1x128 .f32) (p : Fin 5000) (q : Fin 128) :
    k1_pay8 v2 v67 (k1_pay6 v4 v68) (k1_pay7 v76) v79 v82 (ix2 p q)
      = max ((v67 (ix2 p q) + l2n (lin (fun k => v68 (ix2 p k)) (v4 (ix2 p 2)) (fun k => v2 (ix2 p k)) (fun k j => v76 (ix3 0 k j))
          (fun k j => v79 (ix3 0 k j)) (fun j => v82 (ix2 0 j))) q) * third) zeroW := by
  show max ((v67 (ix2 p q) + v1_norm (v1_lin (v1_mean _ _) _ (truncf .bf16 (shapeCast S64x128 _ _) _) (truncf .bf16 (shapeCast S64x128 _ _) _) (shapeCast S128 _ _)) (ix2 p q)) * Named.named (F := Ideal) κ "inv_3" (φ := .f32) 0x3EAAAAAB#32) (Ideal.ofBits .f32 0x00000000#32) = _
  rw [v1_edge_at, kv2a_third]
  simp only [shapeCast_self, kv2a_cnt _ ![0, 2] 2 _ rfl]
  rfl

theorem v1_ln_at (v2 : FVec Ideal S5000x64 .bf16) (v67 : FVec Ideal S5000x128 .f32) (v75 : FVec Ideal S5000x64 .bf16)
    (v77 : FVec Ideal S64x128 .f32) (v79 : Vec Ideal S1x64x128 .f32) (v82 : Vec Ideal S1x128 .f32) (g b : Vec Ideal S128 .f32)
    (p : Fin 5000) (q : Fin 128) :
    k1_pay1 (k1_pay10 v2 v67 v75 v77 v79 v82) (k1_pay11 v2 v67 v75 v77 v79 v82) g b (ix2 p q)
      = layerNorm (fun j => k1_pay8 v2 v67 v75 v77 v79 v82 (ix2 p j)) (fun j => g (ix1 j)) (fun j => b (ix1 j)) q := by
  unfold k1_pay1 k1_pay10 k1_pay11 k1_pay9 layerNorm
  generalize k1_pay8 v2 v67 v75 v77 v79 v82 = h
  simp only [addf_apply, mulf_apply, subf_apply, divf_apply, broadcast_apply, kv2a_rsqrt_apply,
    kv2a_lanes_spread_apply, kv2a_column_spread_apply, kv2a_column_apply]
  rw [kv2a_lane_sum_apply, kv2a_lane_sum_apply]
  simp only [mulf_apply, subf_apply, divf_apply, broadcast_apply, kv2a_column_spread_apply, kv2a_column_apply]
  rw [kv2a_lane_sum_apply]
  rfl

theorem v1_ldW (x : Vec Ideal S3x64x128 .f32) (off : Fin 3 → Nat) (e : Fin 3) (inb : ∀ a, off a + S1x64x128.size a ≤ S3x64x128.size a)
    (he : off = ![e.val, 0, 0]) :
    (fun (k : Fin 64) (j : Fin 128) => View.ld x (Rect.unit (s := S3x64x128) off S1x64x128.size inb) (ix3 0 k j)) = fun k j => x (ix3 e k j) := by
  subst he
  funext k j
  refine congrArg x (funext fun a => Fin.ext ?_)
  match a with
  | ⟨0, _⟩ => show e.val + 1 * 0 = e.val; omega
  | ⟨1, _⟩ => show 0 + 1 * k.val = k.val; omega
  | ⟨2, _⟩ => show 0 + 1 * j.val = j.val; omega

theorem v1_ldB (x : Vec Ideal S3x128 .f32) (off : Fin 2 → Nat) (e : Fin 3) (inb : ∀ a, off a + S1x128.size a ≤ S3x128.size a)
    (he : off = ![e.val, 0]) :
    (fun (j : Fin 128) => View.ld x (Rect.unit (s := S3x128) off S1x128.size inb) (ix2 0 j)) = fun j => x (ix2 e j) :=
  funext fun j => kv2a_ldb x off e inb he j

theorem v1_out_at (x0 x1 x2 : Vec Ideal S5000x64 .f32) (x3 : Vec Ideal S5000x3 .f32) (x4 : Vec Ideal S5000x64 .f32)
    (x5 : Vec Ideal S3x64x128 .f32) (x6 : Vec Ideal S3x128 .f32) (x7 : Vec Ideal S3x64x128 .f32) (x8 x9 : Vec Ideal S128 .f32)
    (p : Fin 5000) (q : Fin 128) :
    out1_10 x0 x1 x2 x3 x4 x5 x6 x7 x8 x9 (ix2 p q)
      = combine0 (fun k => x0 (ix2 p k)) (fun k => x1 (ix2 p k)) (fun k => x2 (ix2 p k)) (x3 (ix2 p 0)) (x3 (ix2 p 1))
          (x3 (ix2 p 2)) (fun k => x4 (ix2 p k)) (fun t k j => x5 (ix3 t k j)) (fun t k j => x7 (ix3 t k j))
          (fun t j => x6 (ix2 t j)) (fun j => x8 (ix1 j)) (fun j => x9 (ix1 j)) q := by
  unfold out1_10
  rw [View.canon_unit_zero kv2_hz2]
  simp only [View.ld_unit_zero (S := S5000x64) kv2_hz2, View.ld_unit_zero (S := S5000x3) kv2_hz2,
    View.ld_unit_zero (S := S128) kv2_hz1]
  rw [v1_ln_at]
  unfold combine0
  refine congrArg (fun h => layerNorm h _ _ q) (funext fun j => ?_)
  rw [v1_pay8_at, v1_pay5_at, v1_pay4_at]
  unfold meanRelu k1_pay3
  simp only [shapeCast_self, v1_pay2_at]
  rw [v1_ldW x5 ![0, 0, 0] 0 _ rfl, v1_ldW x7 ![0, 0, 0] 0 _ rfl, v1_ldB x6 ![0, 0] 0 _ rfl, v1_ldW x5 ![1, 0, 0] 1 _ rfl, v1_ldW x7 ![1, 0, 0] 1 _ rfl,
    v1_ldB x6 ![1, 0] 1 _ rfl, v1_ldW x5 ![2, 0, 0] 2 _ rfl, v1_ldW x7 ![2, 0, 0] 2 _ rfl, v1_ldB x6 ![2, 0] 2 _ rfl]

section Blocks

variable (V : (c : Dev nD) → (b : Ref sig .tc) → Buf (Elt Ideal) ((c : Thread nD τ).loc b))

theorem v1_idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 3) = 0 ∧ win1_5.index t (1 : Fin 3) = 0 ∧ win1_5.index t (2 : Fin 3) = 0)
    ∧ (win1_6.index t (0 : Fin 2) = 0 ∧ win1_6.index t (1 : Fin 2) = 0)
    ∧ (win1_7.index t (0 : Fin 3) = 0 ∧ win1_7.index t (1 : Fin 3) = 0 ∧ win1_7.index t (2 : Fin 3) = 0)
    ∧ win1_8.index t (0 : Fin 1) = 0
    ∧ win1_9.index t (0 : Fin 1) = 0
    ∧ (win1_10.index t (0 : Fin 2) = t.val ∧ win1_10.index t (1 : Fin 2) = 0) :=
  (by decide +kernel : ∀ t : Fin grid1.N, _)

-- The row blocks at point t start at row 5000 t of their arrays; the weights' blocks are the whole arrays.
theorem v1_blks (c : Dev nD) (t : Fin cfg1.N) (p : Fin 5000) (r : Fin 150000) (hr : r.val = t.val * 5000 + p.val) :
    (∀ k, (iblk1 V c 0 t : Vec Ideal S5000x64 .f32) (ix2 p k) = (V c main_v15 : S150000x64.Idx → EReal) (ix2 r k))
    ∧ (∀ k, (iblk1 V c 1 t : Vec Ideal S5000x64 .f32) (ix2 p k) = (V c main_v34 : S150000x64.Idx → EReal) (ix2 r k))
    ∧ (∀ k, (iblk1 V c 2 t : Vec Ideal S5000x64 .f32) (ix2 p k) = (V c main_v53 : S150000x64.Idx → EReal) (ix2 r k))
    ∧ (∀ k, (iblk1 V c 3 t : Vec Ideal S5000x3 .f32) (ix2 p k) = (V c main_v61 : S150000x3.Idx → EReal) (ix2 r k))
    ∧ (∀ k, (iblk1 V c 4 t : Vec Ideal S5000x64 .f32) (ix2 p k) = (V c main_v62 : S150000x64.Idx → EReal) (ix2 r k))
    ∧ (∀ a k j, (iblk1 V c 5 t : Vec Ideal S3x64x128 .f32) (ix3 a k j) = (V c main_arg8 : S3x64x128.Idx → EReal) (ix3 a k j))
    ∧ (∀ a j, (iblk1 V c 6 t : Vec Ideal S3x128 .f32) (ix2 a j) = (V c main_arg9 : S3x128.Idx → EReal) (ix2 a j))
    ∧ (∀ a k j, (iblk1 V c 7 t : Vec Ideal S3x64x128 .f32) (ix3 a k j) = (V c main_arg10 : S3x64x128.Idx → EReal) (ix3 a k j))
    ∧ (∀ j, (iblk1 V c 8 t : Vec Ideal S128 .f32) (ix1 j) = (V c main_arg14 : S128.Idx → EReal) (ix1 j))
    ∧ ∀ j, (iblk1 V c 9 t : Vec Ideal S128 .f32) (ix1 j) = (V c main_arg15 : S128.Idx → EReal) (ix1 j) := by
  have f := v1_idx_facts t
  refine ⟨fun k => congrArg (V c main_v15) (Shape.idx_ext₂ ?_ ?_), fun k => congrArg (V c main_v34) (Shape.idx_ext₂ ?_ ?_),
    fun k => congrArg (V c main_v53) (Shape.idx_ext₂ ?_ ?_), fun k => congrArg (V c main_v61) (Shape.idx_ext₂ ?_ ?_),
    fun k => congrArg (V c main_v62) (Shape.idx_ext₂ ?_ ?_), fun a k j => congrArg (V c main_arg8) (funext fun x => Fin.ext ?_),
    fun a j => congrArg (V c main_arg9) (Shape.idx_ext₂ ?_ ?_), fun a k j => congrArg (V c main_arg10) (funext fun x => Fin.ext ?_),
    fun j => congrArg (V c main_arg14) (funext fun x => Fin.ext ?_), fun j => congrArg (V c main_arg15) (funext fun x => Fin.ext ?_)⟩
  · show win1_0.index t (0 : Fin 2) * 5000 + 1 * p.val = r.val; omega
  · show win1_0.index t (1 : Fin 2) * 64 + 1 * k.val = k.val; omega
  · show win1_1.index t (0 : Fin 2) * 5000 + 1 * p.val = r.val; omega
  · show win1_1.index t (1 : Fin 2) * 64 + 1 * k.val = k.val; omega
  · show win1_2.index t (0 : Fin 2) * 5000 + 1 * p.val = r.val; omega
  · show win1_2.index t (1 : Fin 2) * 64 + 1 * k.val = k.val; omega
  · show win1_3.index t (0 : Fin 2) * 5000 + 1 * p.val = r.val; omega
  · show win1_3.index t (1 : Fin 2) * 3 + 1 * k.val = k.val; omega
  · show win1_4.index t (0 : Fin 2) * 5000 + 1 * p.val = r.val; omega
  · show win1_4.index t (1 : Fin 2) * 64 + 1 * k.val = k.val; omega
  · match x with
    | ⟨0, _⟩ => show win1_5.index t (0 : Fin 3) * 3 + 1 * a.val = a.val; omega
    | ⟨1, _⟩ => show win1_5.index t (1 : Fin 3) * 64 + 1 * k.val = k.val; omega
    | ⟨2, _⟩ => show win1_5.index t (2 : Fin 3) * 128 + 1 * j.val = j.val; omega
  · show win1_6.index t (0 : Fin 2) * 3 + 1 * a.val = a.val; omega
  · show win1_6.index t (1 : Fin 2) * 128 + 1 * j.val = j.val; omega
  · match x with
    | ⟨0, _⟩ => show win1_7.index t (0 : Fin 3) * 3 + 1 * a.val = a.val; omega
    | ⟨1, _⟩ => show win1_7.index t (1 : Fin 3) * 64 + 1 * k.val = k.val; omega
    | ⟨2, _⟩ => show win1_7.index t (2 : Fin 3) * 128 + 1 * j.val = j.val; omega
  · match x with
    | ⟨0, _⟩ => show win1_8.index t (0 : Fin 1) * 128 + 1 * j.val = j.val; omega
  · match x with
    | ⟨0, _⟩ => show win1_9.index t (0 : Fin 1) * 128 + 1 * j.val = j.val; omega

abbrev v1_row (c : Dev nD) (r : Fin 150000) (q : Fin 128) : EReal :=
  Cert.Spec.combine0 (fun k => V c main_v15 (ix2 r k)) (fun k => V c main_v34 (ix2 r k)) (fun k => V c main_v53 (ix2 r k))
    (V c main_v61 (ix2 r 0)) (V c main_v61 (ix2 r 1)) (V c main_v61 (ix2 r 2)) (fun k => V c main_v62 (ix2 r k))
    (fun t k q => V c main_arg8 (ix3 t k q)) (fun t k q => V c main_arg10 (ix3 t k q)) (fun t q => V c main_arg9 (ix2 t q))
    (fun q => V c main_arg14 (ix1 q)) (fun q => V c main_arg15 (ix1 q)) q

def v1_G (c : Dev nD) : S150000x128.Idx → EReal := fun i => v1_row V c (i 0) (i 1)

-- The thirty row blocks tile the array and block t holds rows 5000 t to 5000 t + 4999 of the first layer.
theorem v1_final (c : Dev nD) : (dat1 (F := Ideal) V c).arrAt 10 cfg1.N = v1_G V c := by
  have hN : cfg1.N = 30 := N_1
  refine (dat1 (F := Ideal) V c).arrAt_eq_of_cover 10 (v1_G V c) (fun t _ => ?_) fun i => ?_
  · have f := v1_idx_facts t
    show (cfg1.win 10).cut (grid1.coords t) ((dat1 (F := Ideal) V c).after 10 t) = _
    rw [after1_10]
    funext y
    obtain ⟨p, q, rfl⟩ : ∃ (p : Fin 5000) (q : Fin 128), y = ix2 p q := ⟨y 0, y 1, eq_ix2 y⟩
    have h0 : (((cfg1.win 10).blk t).view.emb (ix2 p q) 0).val = t.val * 5000 + p.val := by
      show win1_10.index t (0 : Fin 2) * 5000 + 1 * p.val = _; omega
    have h1 : ((cfg1.win 10).blk t).view.emb (ix2 p q) 1 = q :=
      Fin.ext (by show win1_10.index t (1 : Fin 2) * 128 + 1 * q.val = q.val; omega)
    obtain ⟨b0, b1, b2, b3, b4, b5, b6, b7, b8, b9⟩ := v1_blks V c t p _ h0
    refine (v1_out_at _ _ _ _ _ _ _ _ _ _ p q).trans ?_
    simp only [b0, b1, b2, b3, b4, b5, b6, b7, b8, b9]
    show v1_row V c _ q = v1_row V c _ (((cfg1.win 10).blk t).view.emb (ix2 p q) 1)
    rw [h1]
  · have hi0 : (i 0).val < 150000 := (i 0).isLt
    have hi1 : (i 1).val < 128 := (i 1).isLt
    obtain ⟨t, ht⟩ : ∃ t : Fin cfg1.N, t.val = (i 0).val / 5000 := ⟨⟨(i 0).val / 5000, by rw [hN]; omega⟩, rfl⟩
    have f := v1_idx_facts t
    refine ⟨t, flush1_10 t, ?_⟩
    show i ∈ ((View.whole main_v63).slice (win1_10.rect t)).set
    rw [View.set_slice_whole, Rect.mem_set_unit]
    intro a
    match a with
    | ⟨0, _⟩ => show win1_10.index t (0 : Fin 2) * 5000 ≤ (i 0).val ∧ (i 0).val < win1_10.index t (0 : Fin 2) * 5000 + 5000; omega
    | ⟨1, _⟩ => show win1_10.index t (1 : Fin 2) * 128 ≤ (i 1).val ∧ (i 1).val < win1_10.index t (1 : Fin 2) * 128 + 128; omega

end Blocks

theorem arr1_10 (V : (c : Dev nD) → (b : Ref sig .tc) → Buf (Elt Ideal) ((c : Thread nD τ).loc b)) (c : Dev nD)
    (r : Fin 150000) (q : Fin 128) :
    (dat1 (F := Ideal) V c).arrAt 10 cfg1.N (ix2 r q) =
      Cert.Spec.combine0 (fun k => V c main_v15 (ix2 r k)) (fun k => V c main_v34 (ix2 r k)) (fun k => V c main_v53 (ix2 r k))
        (V c main_v61 (ix2 r 0)) (V c main_v61 (ix2 r 1)) (V c main_v61 (ix2 r 2)) (fun k => V c main_v62 (ix2 r k))
        (fun t k q => V c main_arg8 (ix3 t k q)) (fun t k q => V c main_arg10 (ix3 t k q)) (fun t q => V c main_arg9 (ix2 t q))
        (fun q => V c main_arg14 (ix1 q)) (fun q => V c main_arg15 (ix1 q)) q :=
  congrFun (v1_final V c) (ix2 r q)

end Cert.KernelIdeal.Hand

end
-- ==== Proof.KIVal2.lean ====
import proofs.«421255_j8237747274315_3_alg».proof.Proof.KIRegion2
import proofs.«421255_j8237747274315_3_alg».proof.Proof.KIVal2a
import proofs.«421255_j8237747274315_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window cellOf)

theorem kv2_mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  congr 2 <;> apply Shape.idx_ext₂ <;> simp [DotDims.lhsIdx, DotDims.rhsIdx, dot_S5000x128_S128x128_S5000x128_1_0_0_1_n_n] <;>
    first | rfl | exact ck

-- At (p, q) both products are sums along row p, and the count and the bias are read at p and q.
theorem kv2_lin_row (agg own : FVec Ideal S5000x128 .f32) (cnt1 : FVec Ideal S5000x1 .f32) (Wl Wr : Vec Ideal S1x128x128 .f32)
    (bl : Vec Ideal S1x128 .f32) (p : Fin 5000) (q : Fin 128) :
    addf (addf (matmul dot_S5000x128_S128x128_S5000x128_1_0_0_1_n_n none
            (truncf .bf16 (divf agg (broadcastTo S5000x128 (maximumf cnt1 (broadcast S5000x1 (Scalar.ofBits (F := Ideal) .f32 0x3F800000#32))) broadcasts_S5000x1_S5000x128)) bitsLt_bf16_f32)
            (truncf .bf16 (shapeCast S128x128 Wl shapeCasts_S1x128x128_S128x128) bitsLt_bf16_f32) (constant (F := Ideal) S5000x128 .f32 0x00000000#32))
          (broadcastTo S5000x128 (shapeCast S1x128 (shapeCast S128 bl shapeCasts_S1x128_S128) shapeCasts_S128_S1x128) broadcasts_S1x128_S5000x128))
        (matmul dot_S5000x128_S128x128_S5000x128_1_0_0_1_n_n none (truncf .bf16 own bitsLt_bf16_f32)
          (truncf .bf16 (shapeCast S128x128 Wr shapeCasts_S1x128x128_S128x128) bitsLt_bf16_f32) (constant (F := Ideal) S5000x128 .f32 0x00000000#32)) (ix2 p q)
      = Cert.Spec.lin (fun k => agg (ix2 p k)) (cnt1 (ix2 p (0 : Fin 1))) (fun k => own (ix2 p k)) (fun k q => Wl (ix3 (0 : Fin 1) k q))
          (fun k q => Wr (ix3 (0 : Fin 1) k q)) (fun q => bl (ix2 (0 : Fin 1) q)) q := by
  simp only [addf_apply, kv2_mm_apply, kv2a_lanes_spread_apply, shapeCast_1a_a_apply, truncf_apply, divf_apply, kv2a_column_spread_apply, maximumf_apply,
    broadcast_apply, shapeCast_1ab_ab_apply]
  rfl

theorem kv2_acc_apply (x0 x1 x2 : Vec Ideal S5000x128 .f32) (x3 : Vec Ideal S5000x3 .f32) (x4 : Vec Ideal S5000x128 .f32)
    (Wl0 Wr0 Wl1 Wr1 Wl2 Wr2 : Vec Ideal S1x128x128 .f32) (bl0 bl1 bl2 : Vec Ideal S1x128 .f32) (p : Fin 5000) (q : Fin 128) :
    k2_pay6 (F := Ideal) (k2_pay2 x4) (k2_pay3 x3) (k2_pay4 x4 x3 x0 Wl0 Wr0 bl0) (k2_pay5 x3 x1) Wl1 Wr1 bl1 x2 Wl2 Wr2 bl2 (ix2 p q)
      = Cert.Spec.lin (fun k => x0 (ix2 p k)) (x3 (ix2 p (0 : Fin 3))) (fun k => x4 (ix2 p k)) (fun k q => Wl0 (ix3 (0 : Fin 1) k q))
            (fun k q => Wr0 (ix3 (0 : Fin 1) k q)) (fun q => bl0 (ix2 (0 : Fin 1) q)) q
        + Cert.Spec.lin (fun k => x1 (ix2 p k)) (x3 (ix2 p (1 : Fin 3))) (fun k => x4 (ix2 p k)) (fun k q => Wl1 (ix3 (0 : Fin 1) k q))
            (fun k q => Wr1 (ix3 (0 : Fin 1) k q)) (fun q => bl1 (ix2 (0 : Fin 1) q)) q
        + Cert.Spec.lin (fun k => x2 (ix2 p k)) (x3 (ix2 p (2 : Fin 3))) (fun k => x4 (ix2 p k)) (fun k q => Wl2 (ix3 (0 : Fin 1) k q))
            (fun k q => Wr2 (ix3 (0 : Fin 1) k q)) (fun q => bl2 (ix2 (0 : Fin 1) q)) q := by
  unfold k2_pay6 k2_pay5 k2_pay4 k2_pay3 k2_pay2
  simp only [shapeCast_self]
  rw [addf_apply, addf_apply, addf_apply, kv2_lin_row, kv2_lin_row, kv2_lin_row, broadcast_apply, kv2a_cnt _ ![0, 0] 0 _ rfl, kv2a_cnt _ ![0, 1] 1 _ rfl, kv2a_cnt _ ![0, 2] 2 _ rfl]
  show Ideal.ofBits .f32 0x00000000#32 + _ + _ + _ = _
  rw [Ideal.ofBits_zero_f32, zero_add]

theorem kv2_ldW (x : Vec Ideal S3x128x128 .f32) (off : Fin 3 → Nat) (e : Fin 3) (inb : ∀ a, off a + S1x128x128.size a ≤ S3x128x128.size a)
    (he : off = ![e.val, 0, 0]) (k q : Fin 128) :
    View.ld x (Rect.unit (s := S3x128x128) off S1x128x128.size inb) (ix3 (0 : Fin 1) k q) = x (ix3 e k q) := by
  subst he
  refine congrArg x (funext fun a => Fin.ext ?_)
  match a with
  | ⟨0, _⟩ => show e.val + 1 * 0 = e.val; omega
  | ⟨1, _⟩ => show 0 + 1 * k.val = k.val; omega
  | ⟨2, _⟩ => show 0 + 1 * q.val = q.val; omega

theorem kv2_pay_row (x0 x1 x2 : Vec Ideal S5000x128 .f32) (x3 : Vec Ideal S5000x3 .f32) (x4 : Vec Ideal S5000x128 .f32)
    (x5 : Vec Ideal S3x128x128 .f32) (x6 : Vec Ideal S3x128 .f32) (x7 : Vec Ideal S3x128x128 .f32) (x8 x9 : Vec Ideal S128 .f32)
    (p : Fin 5000) (q : Fin 128) (s0 s1 s2 : Fin 128 → EReal) (c0 c1 c2 : EReal) (root : Fin 128 → EReal)
    (Wl Wr : Fin 3 → Fin 128 → Fin 128 → EReal) (bl : Fin 3 → Fin 128 → EReal) (g b : Fin 128 → EReal)
    (h0 : ∀ k, x0 (ix2 p k) = s0 k) (h1 : ∀ k, x1 (ix2 p k) = s1 k) (h2 : ∀ k, x2 (ix2 p k) = s2 k)
    (h30 : x3 (ix2 p (0 : Fin 3)) = c0) (h31 : x3 (ix2 p (1 : Fin 3)) = c1) (h32 : x3 (ix2 p (2 : Fin 3)) = c2)
    (h4 : ∀ k, x4 (ix2 p k) = root k) (h5 : ∀ e k q, x5 (ix3 e k q) = Wl e k q) (h6 : ∀ e q, x6 (ix2 e q) = bl e q)
    (h7 : ∀ e k q, x7 (ix3 e k q) = Wr e k q) (h8 : ∀ q, x8 (ix1 q) = g q) (h9 : ∀ q, x9 (ix1 q) = b q) :
    k2_pay1 (F := Ideal)
        (k2_pay6 (k2_pay2 x4) (k2_pay3 x3) (k2_pay4 x4 x3 x0 (View.ld x5 r2_2) (View.ld x7 r2_2) (View.ld x6 r2_5)) (k2_pay5 x3 x1)
          (View.ld x5 r2_3) (View.ld x7 r2_3) (View.ld x6 r2_6) x2 (View.ld x5 r2_4) (View.ld x7 r2_4) (View.ld x6 r2_7))
        x8 x9 (ix2 p q)
      = Cert.Spec.combine1 s0 s1 s2 c0 c1 c2 root Wl Wr bl g b q := by
  rw [kv2_ln_tail_apply]
  unfold Cert.Spec.combine1
  have key : ∀ (h h' g g' b b' : Fin 128 → EReal), h = h' → g = g' → b = b' →
      Cert.Spec.layerNorm h g b q = Cert.Spec.layerNorm h' g' b' q := by
    intro h h' g g' b b' e1 e2 e3; rw [e1, e2, e3]
  refine key _ _ _ _ _ _ (funext fun j => ?_) (funext h8) (funext h9)
  rw [kv2_acc_apply]
  have e50 : ∀ k q, View.ld x5 r2_2 (ix3 (0 : Fin 1) k q) = Wl 0 k q := fun k q => (kv2_ldW x5 _ 0 _ rfl k q).trans (h5 0 k q)
  have e51 : ∀ k q, View.ld x5 r2_3 (ix3 (0 : Fin 1) k q) = Wl 1 k q := fun k q => (kv2_ldW x5 _ 1 _ rfl k q).trans (h5 1 k q)
  have e52 : ∀ k q, View.ld x5 r2_4 (ix3 (0 : Fin 1) k q) = Wl 2 k q := fun k q => (kv2_ldW x5 _ 2 _ rfl k q).trans (h5 2 k q)
  have e70 : ∀ k q, View.ld x7 r2_2 (ix3 (0 : Fin 1) k q) = Wr 0 k q := fun k q => (kv2_ldW x7 _ 0 _ rfl k q).trans (h7 0 k q)
  have e71 : ∀ k q, View.ld x7 r2_3 (ix3 (0 : Fin 1) k q) = Wr 1 k q := fun k q => (kv2_ldW x7 _ 1 _ rfl k q).trans (h7 1 k q)
  have e72 : ∀ k q, View.ld x7 r2_4 (ix3 (0 : Fin 1) k q) = Wr 2 k q := fun k q => (kv2_ldW x7 _ 2 _ rfl k q).trans (h7 2 k q)
  have e60 : ∀ q, View.ld x6 r2_5 (ix2 (0 : Fin 1) q) = bl 0 q := fun q => (kv2a_ldb x6 _ 0 _ rfl q).trans (h6 0 q)
  have e61 : ∀ q, View.ld x6 r2_6 (ix2 (0 : Fin 1) q) = bl 1 q := fun q => (kv2a_ldb x6 _ 1 _ rfl q).trans (h6 1 q)
  have e62 : ∀ q, View.ld x6 r2_7 (ix2 (0 : Fin 1) q) = bl 2 q := fun q => (kv2a_ldb x6 _ 2 _ rfl q).trans (h6 2 q)
  simp only [e50, e51, e52, e70, e71, e72, e60, e61, e62, h0, h1, h2, h30, h31, h32, h4]
  rfl

section Blocks

variable (V : (c : Dev nD) → (b : Ref sig .tc) → Buf (Elt Ideal) ((c : Thread nD τ).loc b))

def kv2_row (c : Dev nD) (r : Fin 50000) : Fin 128 → EReal :=
  Cert.Spec.combine1 (fun k => V c main_v77 (ix2 r k)) (fun k => V c main_v95 (ix2 r k)) (fun k => V c main_v113 (ix2 r k))
    (V c main_v121 (ix2 r 0)) (V c main_v121 (ix2 r 1)) (V c main_v121 (ix2 r 2)) (fun k => V c main_v122 (ix2 r k))
    (fun t k q => V c main_arg11 (ix3 t k q)) (fun t k q => V c main_arg13 (ix3 t k q)) (fun t q => V c main_arg12 (ix2 t q))
    (fun q => V c main_arg16 (ix1 q)) (fun q => V c main_arg17 (ix1 q))

def kv2_G (c : Dev nD) : S50000x128.Idx → Elt Ideal .f32 := fun i => kv2_row V c (i 0) (i 1)

theorem kv2_idx_facts : ∀ t : Fin cfg2.N,
    win2_10.index t (0 : Fin 2) = t.val ∧ win2_10.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 3) = 0 ∧ win2_5.index t (1 : Fin 3) = 0 ∧ win2_5.index t (2 : Fin 3) = 0
    ∧ win2_6.index t (0 : Fin 2) = 0 ∧ win2_6.index t (1 : Fin 2) = 0
    ∧ win2_7.index t (0 : Fin 3) = 0 ∧ win2_7.index t (1 : Fin 3) = 0 ∧ win2_7.index t (2 : Fin 3) = 0
    ∧ win2_8.index t (0 : Fin 1) = 0 ∧ win2_9.index t (0 : Fin 1) = 0 :=
  (by decide +kernel : ∀ t : Fin grid2.N, _)

-- The row blocks at point t start at row 5000 t of their arrays; the weights' blocks are the whole arrays.
theorem kv2_blks (c : Dev nD) (t : Fin cfg2.N) (p : Fin 5000) (r : Fin 50000) (hr : r.val = t.val * 5000 + p.val) :
    (∀ k, (iblk2 V c 0 t : Vec Ideal S5000x128 .f32) (ix2 p k) = V c main_v77 (ix2 r k))
    ∧ (∀ k, (iblk2 V c 1 t : Vec Ideal S5000x128 .f32) (ix2 p k) = V c main_v95 (ix2 r k))
    ∧ (∀ k, (iblk2 V c 2 t : Vec Ideal S5000x128 .f32) (ix2 p k) = V c main_v113 (ix2 r k))
    ∧ (∀ k, (iblk2 V c 3 t : Vec Ideal S5000x3 .f32) (ix2 p k) = V c main_v121 (ix2 r k))
    ∧ (∀ k, (iblk2 V c 4 t : Vec Ideal S5000x128 .f32) (ix2 p k) = V c main_v122 (ix2 r k))
    ∧ (∀ e k q, (iblk2 V c 5 t : Vec Ideal S3x128x128 .f32) (ix3 e k q) = V c main_arg11 (ix3 e k q))
    ∧ (∀ e q, (iblk2 V c 6 t : Vec Ideal S3x128 .f32) (ix2 e q) = V c main_arg12 (ix2 e q))
    ∧ (∀ e k q, (iblk2 V c 7 t : Vec Ideal S3x128x128 .f32) (ix3 e k q) = V c main_arg13 (ix3 e k q))
    ∧ (∀ q, (iblk2 V c 8 t : Vec Ideal S128 .f32) (ix1 q) = V c main_arg16 (ix1 q))
    ∧ ∀ q, (iblk2 V c 9 t : Vec Ideal S128 .f32) (ix1 q) = V c main_arg17 (ix1 q) := by
  have f := kv2_idx_facts t
  refine ⟨fun k => congrArg (V c main_v77) (Shape.idx_ext₂ ?_ ?_), fun k => congrArg (V c main_v95) (Shape.idx_ext₂ ?_ ?_),
    fun k => congrArg (V c main_v113) (Shape.idx_ext₂ ?_ ?_), fun k => congrArg (V c main_v121) (Shape.idx_ext₂ ?_ ?_),
    fun k => congrArg (V c main_v122) (Shape.idx_ext₂ ?_ ?_), fun e k q => congrArg (V c main_arg11) (funext fun a => Fin.ext ?_),
    fun e q => congrArg (V c main_arg12) (Shape.idx_ext₂ ?_ ?_), fun e k q => congrArg (V c main_arg13) (funext fun a => Fin.ext ?_),
    fun q => congrArg (V c main_arg16) (funext fun a => Fin.ext ?_), fun q => congrArg (V c main_arg17) (funext fun a => Fin.ext ?_)⟩
  · show win2_0.index t (0 : Fin 2) * 5000 + 1 * p.val = r.val; omega
  · show win2_0.index t (1 : Fin 2) * 128 + 1 * k.val = k.val; omega
  · show win2_1.index t (0 : Fin 2) * 5000 + 1 * p.val = r.val; omega
  · show win2_1.index t (1 : Fin 2) * 128 + 1 * k.val = k.val; omega
  · show win2_2.index t (0 : Fin 2) * 5000 + 1 * p.val = r.val; omega
  · show win2_2.index t (1 : Fin 2) * 128 + 1 * k.val = k.val; omega
  · show win2_3.index t (0 : Fin 2) * 5000 + 1 * p.val = r.val; omega
  · show win2_3.index t (1 : Fin 2) * 3 + 1 * k.val = k.val; omega
  · show win2_4.index t (0 : Fin 2) * 5000 + 1 * p.val = r.val; omega
  · show win2_4.index t (1 : Fin 2) * 128 + 1 * k.val = k.val; omega
  · match a with
    | ⟨0, _⟩ => show win2_5.index t (0 : Fin 3) * 3 + 1 * e.val = e.val; omega
    | ⟨1, _⟩ => show win2_5.index t (1 : Fin 3) * 128 + 1 * k.val = k.val; omega
    | ⟨2, _⟩ => show win2_5.index t (2 : Fin 3) * 128 + 1 * q.val = q.val; omega
  · show win2_6.index t (0 : Fin 2) * 3 + 1 * e.val = e.val; omega
  · show win2_6.index t (1 : Fin 2) * 128 + 1 * q.val = q.val; omega
  · match a with
    | ⟨0, _⟩ => show win2_7.index t (0 : Fin 3) * 3 + 1 * e.val = e.val; omega
    | ⟨1, _⟩ => show win2_7.index t (1 : Fin 3) * 128 + 1 * k.val = k.val; omega
    | ⟨2, _⟩ => show win2_7.index t (2 : Fin 3) * 128 + 1 * q.val = q.val; omega
  · match a with
    | ⟨0, _⟩ => show win2_8.index t (0 : Fin 1) * 128 + 1 * q.val = q.val; omega
  · match a with
    | ⟨0, _⟩ => show win2_9.index t (0 : Fin 1) * 128 + 1 * q.val = q.val; omega

-- The ten row blocks tile the array and block t holds rows 5000 t to 5000 t + 4999 of the second layer.
theorem kv2_final (c : Dev nD) : (dat2 (F := Ideal) V c).arrAt 10 cfg2.N = kv2_G V c := by
  have hN : cfg2.N = 10 := N_2
  refine (dat2 (F := Ideal) V c).arrAt_eq_of_cover 10 (kv2_G V c) (fun t _ => ?_) fun i => ?_
  · have f := kv2_idx_facts t
    show (cfg2.win 10).cut (grid2.coords t) ((dat2 (F := Ideal) V c).after 10 t) = _
    rw [after2_10]
    unfold out2_10
    rw [View.canon_unit_zero kv2_hz2]
    simp only [View.ld_unit_zero (S := S5000x128) kv2_hz2, View.ld_unit_zero (S := S5000x3) kv2_hz2, View.ld_unit_zero (S := S128) kv2_hz1]
    funext j
    obtain ⟨p, q, rfl⟩ : ∃ (p : Fin 5000) (q : Fin 128), j = ix2 p q := ⟨j 0, j 1, eq_ix2 j⟩
    have h0 : (((cfg2.win 10).blk t).view.emb (ix2 p q) 0).val = t.val * 5000 + p.val := by
      show win2_10.index t (0 : Fin 2) * 5000 + 1 * p.val = _; omega
    have h1 : ((cfg2.win 10).blk t).view.emb (ix2 p q) 1 = q :=
      Fin.ext (by show win2_10.index t (1 : Fin 2) * 128 + 1 * q.val = q.val; omega)
    obtain ⟨b0, b1, b2, b3, b4, b5, b6, b7, b8, b9⟩ := kv2_blks V c t p _ h0
    refine (kv2_pay_row _ _ _ _ _ _ _ _ _ _ p q _ _ _ _ _ _ _ _ _ _ _ _ b0 b1 b2 (b3 0) (b3 1) (b3 2) b4 b5 b6 b7 b8 b9).trans ?_
    show kv2_row V c _ q = kv2_row V c _ (((cfg2.win 10).blk t).view.emb (ix2 p q) 1)
    rw [h1]
  · have hi0 : (i 0).val < 50000 := (i 0).isLt
    have hi1 : (i 1).val < 128 := (i 1).isLt
    obtain ⟨t, ht⟩ : ∃ t : Fin cfg2.N, t.val = (i 0).val / 5000 := ⟨⟨(i 0).val / 5000, by rw [hN]; omega⟩, rfl⟩
    have f := kv2_idx_facts t
    refine ⟨t, flush2_10 t, ?_⟩
    show i ∈ ((View.whole main_v123).slice (win2_10.rect t)).set
    rw [View.set_slice_whole, Rect.mem_set_unit]
    intro a
    match a with
    | ⟨0, _⟩ => show win2_10.index t (0 : Fin 2) * 5000 ≤ (i 0).val ∧ (i 0).val < win2_10.index t (0 : Fin 2) * 5000 + 5000; omega
    | ⟨1, _⟩ => show win2_10.index t (1 : Fin 2) * 128 ≤ (i 1).val ∧ (i 1).val < win2_10.index t (1 : Fin 2) * 128 + 128; omega

end Blocks

theorem arr2_10 (V : (c : Dev nD) → (b : Ref sig .tc) → Buf (Elt Ideal) ((c : Thread nD τ).loc b)) (c : Dev nD) (r : Fin 50000) (q : Fin 128) :
    (dat2 (F := Ideal) V c).arrAt 10 cfg2.N (ix2 r q) =
      Cert.Spec.combine1 (fun k => V c main_v77 (ix2 r k)) (fun k => V c main_v95 (ix2 r k)) (fun k => V c main_v113 (ix2 r k))
        (V c main_v121 (ix2 r 0)) (V c main_v121 (ix2 r 1)) (V c main_v121 (ix2 r 2)) (fun k => V c main_v122 (ix2 r k))
        (fun t k q => V c main_arg11 (ix3 t k q)) (fun t k q => V c main_arg13 (ix3 t k q)) (fun t q => V c main_arg12 (ix2 t q))
        (fun q => V c main_arg16 (ix1 q)) (fun q => V c main_arg17 (ix1 q)) q :=
  congrFun (kv2_final V c) (ix2 r q)

end Cert.KernelIdeal.Hand

end
-- ==== Proof.IdxRead.lean ====
import Idealize.ShloMosaic.PureOps.Ideal
import Idealize.ShloMosaic.Lib.ValueIdx
import Mathlib.Algebra.BigOperators.Group.Finset.Basic
import proofs.«421255_j8237747274315_3_alg».proof.Proof.Spec

noncomputable section

namespace Cert.Spec

open Idealize.ShloMosaic Idealize.ShloMosaic.ValueIdx

theorem gather_rows_apply {N M C : Nat} (hN : 0 < N) {α : Type} (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : I2 N C → α) (idx : IVec ⟨2, ![M, 1]⟩ 32) (e : Fin M) (k : Fin C) :
    Host.gather d x idx (ix2 e k) = x (ix2 (clampRow N hN (idx (ix2 e 0))) k) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![M, 1]⟩ ⟨2, ![M, C]⟩) (ix2 e k)
        ⟨List.idxOf (0 : Fin 2) [0], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    have hst : GatherDims.start (⟨[1], [0], [], [], [0], 1, ![1, C], wf⟩ : GatherDims ⟨2, ![N, C]⟩ ⟨2, ![M, 1]⟩ ⟨2, ![M, C]⟩) (ix2 e k) idx 1 = 0 := by
      unfold GatherDims.start
      rw [dif_neg (show (1 : Fin 2) ∉ ([0] : List (Fin 2)) from by decide)]
    rw [hst]
    unfold GatherDims.offCoord
    rw [dif_pos ((GatherDims.mem_sKept _ _).mpr ⟨show (1 : Fin 2) ∉ ([0] : List (Fin 2)) from by decide, List.not_mem_nil⟩)]
    simp only [Nat.add_zero, Nat.zero_add]
    rfl

/-- The dimension numbers of a scatter of rows into a matrix, and of entries into a vector. -/
private abbrev rowsD {N M C : Nat} (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ := ⟨[1], [0], [0], 1, wf⟩
private abbrev vecD {N M : Nat} (wf : ScatterDims.WF ⟨1, ![N]⟩ ⟨2, ![M, 1]⟩ ⟨1, ![M]⟩ [] [0] [0] 1) :
    ScatterDims ⟨1, ![N]⟩ ⟨2, ![M, 1]⟩ ⟨1, ![M]⟩ := ⟨[], [0], [0], 1, wf⟩

private theorem resultIdx?_rows {N M C : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ 32) (e : Fin M) (c : Fin C) (r : Fin N) (k : Fin C) :
    d.resultIdx? (ix2 e c) idx = some (ix2 r k) ↔ (idx (ix2 e 0)).toInt = (r.val : Int) ∧ c = k := by
  obtain ⟨uw, iw, sd, iv, wf⟩ := d
  simp only at h1 h2 h3 h4
  subst h1 h2 h3 h4
  have hs0 : ScatterDims.start (rowsD wf) (ix2 e c) idx 0 = (idx (ix2 e 0)).toInt := by
    unfold ScatterDims.start
    rw [dif_pos (List.mem_singleton.mpr rfl)]
    congr 2
    funext b; refine Fin.ext ?_
    match b with
    | ⟨0, _⟩ => rfl
    | ⟨1, _⟩ => rfl
  have hs1 : ScatterDims.start (rowsD wf) (ix2 e c) idx 1 = 0 := by
    unfold ScatterDims.start
    rw [dif_neg (show (1 : Fin 2) ∉ ([0] : List (Fin 2)) from by decide)]
  have hw0 : ScatterDims.window (rowsD wf) (ix2 e c) 0 = 0 := by
    unfold ScatterDims.window
    have hk : (0 : Fin 2) ∉ ScatterDims.sKept (rowsD wf) := by
      show (0 : Fin 2) ∉ (List.finRange 2).filter (· ∉ ([0] : List (Fin 2)))
      decide
    rw [dif_neg hk]
  have hw1 : ScatterDims.window (rowsD wf) (ix2 e c) 1 = c.val := by
    unfold ScatterDims.window
    have hk : (1 : Fin 2) ∈ ScatterDims.sKept (rowsD wf) := by
      show (1 : Fin 2) ∈ (List.finRange 2).filter (· ∉ ([0] : List (Fin 2)))
      decide
    rw [dif_pos hk]
    rfl
  unfold ScatterDims.resultIdx?
  constructor
  · intro h
    split at h
    · rename_i hall
      have hf := Option.some.inj h
      have h0 := congrArg Fin.val (congrFun hf 0)
      have h1 := congrArg Fin.val (congrFun hf 1)
      have ha0 := hall 0
      rw [hs0, hw0] at ha0
      change (ScatterDims.start (rowsD wf) (ix2 e c) idx 0 + ((ScatterDims.window (rowsD wf) (ix2 e c) 0 : Nat) : Int)).toNat = r.val at h0
      change (ScatterDims.start (rowsD wf) (ix2 e c) idx 1 + ((ScatterDims.window (rowsD wf) (ix2 e c) 1 : Nat) : Int)).toNat = k.val at h1
      rw [hs0, hw0] at h0
      rw [hs1, hw1] at h1
      refine ⟨?_, Fin.ext ?_⟩
      · omega
      · omega
    · exact absurd h (by simp)
  · rintro ⟨he, rfl⟩
    have hall : ∀ a : Fin 2, 0 ≤ ScatterDims.start (rowsD wf) (ix2 e c) idx a + ScatterDims.window (rowsD wf) (ix2 e c) a ∧
        ScatterDims.start (rowsD wf) (ix2 e c) idx a + ScatterDims.window (rowsD wf) (ix2 e c) a
          < (⟨2, ![N, C]⟩ : Shape).size a := by
      intro a
      match a with
      | ⟨0, _⟩ =>
        show 0 ≤ ScatterDims.start (rowsD wf) (ix2 e c) idx 0 + ((ScatterDims.window (rowsD wf) (ix2 e c) 0 : Nat) : Int) ∧
          ScatterDims.start (rowsD wf) (ix2 e c) idx 0 + ((ScatterDims.window (rowsD wf) (ix2 e c) 0 : Nat) : Int) < (N : Int)
        rw [hs0, hw0, he]
        have := r.isLt
        omega
      | ⟨1, _⟩ =>
        show 0 ≤ ScatterDims.start (rowsD wf) (ix2 e c) idx 1 + ((ScatterDims.window (rowsD wf) (ix2 e c) 1 : Nat) : Int) ∧
          ScatterDims.start (rowsD wf) (ix2 e c) idx 1 + ((ScatterDims.window (rowsD wf) (ix2 e c) 1 : Nat) : Int) < (C : Int)
        rw [hs1, hw1]
        have := c.isLt
        omega
    rw [dif_pos hall]
    congr 1
    funext a
    refine Fin.ext ?_
    match a with
    | ⟨0, _⟩ =>
      show (ScatterDims.start (rowsD wf) (ix2 e c) idx 0 + ((ScatterDims.window (rowsD wf) (ix2 e c) 0 : Nat) : Int)).toNat = r.val
      rw [hs0, hw0, he]; omega
    | ⟨1, _⟩ =>
      show (ScatterDims.start (rowsD wf) (ix2 e c) idx 1 + ((ScatterDims.window (rowsD wf) (ix2 e c) 1 : Nat) : Int)).toNat = c.val
      rw [hs1, hw1]; omega

theorem scatterAdd_rows_apply {N M C : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (x : I2 N C → EReal) (idx : IVec ⟨2, ![M, 1]⟩ 32) (upd : I2 M C → EReal) (r : Fin N) (k : Fin C) :
    Ideal.hostScatterAdd d x idx upd (ix2 r k)
      = x (ix2 r k) + segSum (fun e : Fin M => idx (ix2 e 0)) (fun e k => upd (ix2 e k)) r.val k := by
  unfold Ideal.hostScatterAdd segSum
  congr 1
  have key := resultIdx?_rows d h1 h2 h3 h4 idx
  refine Finset.sum_nbij' (fun j => j 0) (fun e => ix2 e k) ?_ ?_ ?_ ?_ ?_
  · intro j hj
    obtain ⟨a, b, rfl⟩ : ∃ (a : Fin M) (b : Fin C), j = ix2 a b := ⟨j 0, j 1, eq_ix2 j⟩
    have h := (key a b r k).mp (Finset.mem_filter.mp hj).2
    exact Finset.mem_filter.mpr ⟨Finset.mem_univ _, h.1⟩
  · intro e he
    exact Finset.mem_filter.mpr ⟨Finset.mem_univ _, (key e k r k).mpr ⟨(Finset.mem_filter.mp he).2, rfl⟩⟩
  · intro j hj
    obtain ⟨a, b, rfl⟩ : ∃ (a : Fin M) (b : Fin C), j = ix2 a b := ⟨j 0, j 1, eq_ix2 j⟩
    have h := (key a b r k).mp (Finset.mem_filter.mp hj).2
    show ix2 a k = ix2 a b
    rw [h.2]
  · intro e _; rfl
  · intro j hj
    obtain ⟨a, b, rfl⟩ : ∃ (a : Fin M) (b : Fin C), j = ix2 a b := ⟨j 0, j 1, eq_ix2 j⟩
    have h := (key a b r k).mp (Finset.mem_filter.mp hj).2
    show upd (ix2 a b) = upd (ix2 a k)
    rw [h.2]

private theorem resultIdx?_vec {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ 32) (e : Fin M) (r : Fin N) :
    d.resultIdx? (ix1 e) idx = some (ix1 r) ↔ (idx (ix2 e 0)).toInt = (r.val : Int) := by
  obtain ⟨uw, iw, sd, iv, wf⟩ := d
  simp only at h1 h2 h3 h4
  subst h1 h2 h3 h4
  have hs0 : ScatterDims.start (vecD wf) (ix1 e) idx 0
      = (idx (ix2 e 0)).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (vecD wf) (ix1 e) 0 = 0 := by
    unfold ScatterDims.window
    have hk : (0 : Fin 1) ∉ ScatterDims.sKept (vecD wf) := by
      show (0 : Fin 1) ∉ (List.finRange 1).filter (· ∉ ([0] : List (Fin 1)))
      decide
    rw [dif_neg hk]
  unfold ScatterDims.resultIdx?
  constructor
  · intro h
    split at h
    · rename_i hall
      have hf := Option.some.inj h
      have h0 := congrArg Fin.val (congrFun hf 0)
      have ha0 := hall 0
      rw [hs0, hw0] at ha0
      change (ScatterDims.start (vecD wf) (ix1 e) idx 0
        + ((ScatterDims.window (vecD wf) (ix1 e) 0 : Nat) : Int)).toNat = r.val at h0
      rw [hs0, hw0] at h0
      omega
    · exact absurd h (by simp)
  · intro he
    have hall : ∀ a : Fin 1, 0 ≤ ScatterDims.start (vecD wf) (ix1 e) idx a
          + ScatterDims.window (vecD wf) (ix1 e) a ∧
        ScatterDims.start (vecD wf) (ix1 e) idx a
          + ScatterDims.window (vecD wf) (ix1 e) a
          < (⟨1, ![N]⟩ : Shape).size a := by
      intro a
      obtain rfl : a = 0 := Subsingleton.elim _ _
      rw [hs0, hw0, he]
      have := r.isLt
      change 0 ≤ (r.val : Int) + ((0 : Nat) : Int) ∧ (r.val : Int) + ((0 : Nat) : Int) < (N : Int)
      omega
    rw [dif_pos hall]
    congr 1
    funext a
    obtain rfl : a = 0 := Subsingleton.elim _ _
    refine Fin.ext ?_
    show (ScatterDims.start (vecD wf) (ix1 e) idx 0
      + ((ScatterDims.window (vecD wf) (ix1 e) 0 : Nat) : Int)).toNat = r.val
    rw [hs0, hw0, he]; omega

theorem scatterAdd_vec_apply {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : I1 N → EReal) (idx : IVec ⟨2, ![M, 1]⟩ 32) (upd : I1 M → EReal) (r : Fin N) :
    Ideal.hostScatterAdd d x idx upd (ix1 r)
      = x (ix1 r) + ∑ e ∈ Finset.univ.filter (fun e : Fin M => (idx (ix2 e 0)).toInt = (r.val : Int)), upd (ix1 e) := by
  unfold Ideal.hostScatterAdd
  congr 1
  have key := resultIdx?_vec d h1 h2 h3 h4 idx
  refine Finset.sum_nbij' (fun j => j 0) (fun e => ix1 e) ?_ ?_ ?_ ?_ ?_
  · intro j hj
    obtain ⟨a, rfl⟩ : ∃ a : Fin M, j = ix1 a := ⟨j 0, eq_ix1 j⟩
    exact Finset.mem_filter.mpr ⟨Finset.mem_univ _, (key a r).mp (Finset.mem_filter.mp hj).2⟩
  · intro e he
    exact Finset.mem_filter.mpr ⟨Finset.mem_univ _, (key e r).mpr (Finset.mem_filter.mp he).2⟩
  · intro j _; exact (eq_ix1 j).symm
  · intro e _; rfl
  · intro j _
    obtain ⟨a, rfl⟩ : ∃ a : Fin M, j = ix1 a := ⟨j 0, eq_ix1 j⟩
    rfl

theorem normIdx_eq (N : Nat) (b : BitVec 32) :
    Scalar.select (IntOp.cmpi .slt b 0#32) (IntOp.addi b (BitVec.ofNat 32 N)) b = normIdx N b := by
  unfold Scalar.select IntOp.cmpi IntOp.addi normIdx
  by_cases h : b.toInt < 0
  · have : b.slt 0#32 = true := by simp [BitVec.slt, h]
    simp [this, h]
  · have : b.slt 0#32 = false := by simp [BitVec.slt, h]
    simp [this, h]

end Cert.Spec
end
-- ==== Proof.KIHost1.lean ====
import proofs.«421255_j8237747274315_3_alg».proof.Proof.Gen.KernelIdeal.Launch
import proofs.«421255_j8237747274315_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import proofs.«421255_j8237747274315_3_alg».proof.Proof.IdxRead

set_option maxRecDepth 16384

noncomputable section

namespace Cert.KernelIdeal.Hand

open Cert.KernelIdeal Cert.KernelIdeal.Gen Cert.Spec
open Idealize.ShloMosaic Idealize.ShloMosaic.ValueIdx Idealize.ShloMosaic.StableHlo

variable (W : Valuation τ sig (Elt Ideal))

private abbrev dr (b : Ref sig .tc) : DevRef τ sig := Proc.devRef (τ := τ) .tc b

private theorem kh1_dst (X : IVec S2x900000 32) (e : Fin 900000) :
    broadcastInDim S900000x1 ![0] bcast_S900000_S900000x1_0
        (fun i => shapeCast S900000 (extractStridedSlice S1x900000 ![1, 0] X slices_S2x900000_S1x900000_1_0)
          shapeCasts_S1x900000_S900000 i)
        (ix2 e 0) = X (ix2 1 e) := by
  refine Eq.trans (broadcastInDim_apply _ _ _ (ix2 e 0) (ix1 e) (fun a => match a with | ⟨0, _⟩ => rfl)) ?_
  show shapeCast S900000 (extractStridedSlice S1x900000 ![1, 0] X slices_S2x900000_S1x900000_1_0)
    shapeCasts_S1x900000_S900000 (ix1 e) = _
  rw [shapeCast_1a_a_apply]
  exact slice2_axis0_apply 1 _ _ 0 e 1 rfl

private theorem kh1_row0 (X : IVec S2x900000 32) (e : Fin 900000) :
    shapeCast S900000 (extractStridedSlice S1x900000 ![0, 0] X slices_S2x900000_S1x900000_0_0)
      shapeCasts_S1x900000_S900000 (ix1 e) = X (ix2 0 e) := by
  rw [shapeCast_1a_a_apply]
  exact slice2_axis0_apply 0 _ _ 0 e 0 rfl

private theorem kh1_src (X : IVec S2x900000 32) (e : Fin 900000) :
    broadcastInDim S900000x1 ![0] bcast_S900000_S900000x1_0
      (select
        (cmpi CmpIPredicate.slt
          (fun i => shapeCast S900000 (extractStridedSlice S1x900000 ![0, 0] X slices_S2x900000_S1x900000_0_0)
            shapeCasts_S1x900000_S900000 i)
          (broadcastInDim S900000 ![] bcast_S_S900000 (constantI S_ 32 0#32)))
        (addi
          (fun i => shapeCast S900000 (extractStridedSlice S1x900000 ![0, 0] X slices_S2x900000_S1x900000_0_0)
            shapeCasts_S1x900000_S900000 i)
          (broadcastInDim S900000 ![] bcast_S_S900000 (constantI S_ 32 300000#32)))
        (fun i => shapeCast S900000 (extractStridedSlice S1x900000 ![0, 0] X slices_S2x900000_S1x900000_0_0)
          shapeCasts_S1x900000_S900000 i))
      (ix2 e 0) = normIdx 300000 (X (ix2 0 e)) := by
  refine Eq.trans (broadcastInDim_apply _ _ _ (ix2 e 0) (ix1 e) (fun a => match a with | ⟨0, _⟩ => rfl)) ?_
  show Scalar.select
      (IntOp.cmpi CmpIPredicate.slt
        (shapeCast S900000 (extractStridedSlice S1x900000 ![0, 0] X slices_S2x900000_S1x900000_0_0)
          shapeCasts_S1x900000_S900000 (ix1 e))
        (broadcastInDim S900000 ![] bcast_S_S900000 (constantI S_ 32 0#32) (ix1 e)))
      (IntOp.addi
        (shapeCast S900000 (extractStridedSlice S1x900000 ![0, 0] X slices_S2x900000_S1x900000_0_0)
          shapeCasts_S1x900000_S900000 (ix1 e))
        (broadcastInDim S900000 ![] bcast_S_S900000 (constantI S_ 32 300000#32) (ix1 e)))
      (shapeCast S900000 (extractStridedSlice S1x900000 ![0, 0] X slices_S2x900000_S1x900000_0_0)
        shapeCasts_S1x900000_S900000 (ix1 e)) = _
  rw [kh1_row0, broadcastInDim_scalar_apply, broadcastInDim_scalar_apply, constantI_apply, constantI_apply]
  exact normIdx_eq 300000 _

private theorem kh1_scat (x : FVec Ideal S150000x64 .f32) (idx : IVec S900000x1 32) (upd : FVec Ideal S900000x64 .f32)
    (r : Fin 150000) (k : Fin 64) :
    Host.scatterAdd scatter_S150000x64_S900000x1_S900000x64_1_0_0_1 x idx upd (ix2 r k)
      = x (ix2 r k) + segSum (fun e : Fin 900000 => idx (ix2 e 0)) (fun e k => upd (ix2 e k)) r.val k :=
  scatterAdd_rows_apply scatter_S150000x64_S900000x1_S900000x64_1_0_0_1 rfl rfl rfl rfl x idx upd r k

private theorem kh1_scatv (x : FVec Ideal S150000 .f32) (idx : IVec S900000x1 32) (upd : FVec Ideal S900000 .f32)
    (r : Fin 150000) :
    Host.scatterAdd scatter_S150000_S900000x1_S900000_n_0_0_1 x idx upd (ix1 r)
      = x (ix1 r) + ∑ e ∈ Finset.univ.filter (fun e : Fin 900000 => (idx (ix2 e 0)).toInt = (r.val : Int)), upd (ix1 e) :=
  scatterAdd_vec_apply scatter_S150000_S900000x1_S900000_n_0_0_1 rfl rfl rfl rfl x idx upd r

private theorem kh1_gath (P : FVec Ideal S300000x64 .bf16) (idx : IVec S900000x1 32) (e : Fin 900000) (k : Fin 64) :
    extf FTy.f32 (Host.gather gather_S300000x64_S900000x1_S900000x64_1_0_n_n_0_1_164 P idx) bitsLt_bf16_f32 (ix2 e k)
      = P (ix2 (clampRow 300000 (by decide) (idx (ix2 e 0))) k) :=
  gather_rows_apply (by decide) gather_S300000x64_S900000x1_S900000x64_1_0_n_n_0_1_164 rfl rfl rfl rfl rfl rfl rfl P idx e k

private theorem kh1_sum (X : IVec S2x900000 32) (P : FVec Ideal S300000x64 .bf16) (dst src : IVec S900000x1 32)
    (hd : ∀ e, dst (ix2 e 0) = X (ix2 1 e)) (hs : ∀ e, src (ix2 e 0) = normIdx 300000 (X (ix2 0 e)))
    (r : Fin 150000) (k : Fin 64) :
    Host.scatterAdd scatter_S150000x64_S900000x1_S900000x64_1_0_0_1
      (broadcastInDim S150000x64 ![] bcast_S_S150000x64 (constant (F := Ideal) S_ FTy.f32 0x00000000#32)) dst
      (extf FTy.f32 (Host.gather gather_S300000x64_S900000x1_S900000x64_1_0_n_n_0_1_164 P src) bitsLt_bf16_f32) (ix2 r k)
    = segSum (fun e : Fin 900000 => X (ix2 1 e))
        (fun e k => P (ix2 (clampRow 300000 (by decide) (normIdx 300000 (X (ix2 0 e)))) k)) r.val k := by
  rw [kh1_scat, broadcastInDim_scalar_apply, constant_apply, Ideal.ofBits_zero_f32, zero_add]
  exact congrArg₂ (fun a b => segSum a b r.val k) (funext hd)
    (funext fun e => funext fun k => (kh1_gath P src e k).trans (by rw [hs]))

private theorem kh1_cnt (X : IVec S2x900000 32) (r : Fin 150000) :
    Host.scatterAdd scatter_S150000_S900000x1_S900000_n_0_0_1
      (broadcastInDim S150000 ![] bcast_S_S150000 (constant (F := Ideal) S_ FTy.f32 0x00000000#32))
      (broadcastInDim S900000x1 ![0] bcast_S900000_S900000x1_0
        (fun i => shapeCast S900000 (extractStridedSlice S1x900000 ![1, 0] X slices_S2x900000_S1x900000_1_0)
          shapeCasts_S1x900000_S900000 i))
      (broadcastInDim S900000 ![] bcast_S_S900000 (constant (F := Ideal) S_ FTy.f32 0x3F800000#32))
      (ix1 r)
    = segCnt (fun e : Fin 900000 => X (ix2 1 e)) r.val := by
  rw [kh1_scatv, broadcastInDim_scalar_apply, constant_apply, Ideal.ofBits_zero_f32, zero_add]
  unfold segCnt
  refine Finset.sum_congr (Finset.filter_congr fun e _ => by rw [kh1_dst]) (fun e _ => ?_)
  rw [broadcastInDim_scalar_apply, constant_apply]
  rfl

private theorem kh1_col (u : FVec Ideal S150000 .f32) (r : Fin 150000) :
    broadcastInDim S150000x1 ![0] bcast_S150000_S150000x1_0 u (ix2 r 0) = u (ix1 r) :=
  broadcastInDim_apply _ _ _ (ix2 r 0) (ix1 r) (fun a => match a with | ⟨0, _⟩ => rfl)

private theorem kh1_cat0 (u0 u1 u2 : FVec Ideal S150000x1 .f32) (r : Fin 150000) :
    concatenate S150000x3 1 [⟨S150000x1, u0⟩, ⟨S150000x1, u1⟩, ⟨S150000x1, u2⟩]
      concatenates_S150000x1_S150000x1_S150000x1_S150000x3_d1 (ix2 r 0) = u0 (ix2 r 0) :=
  concatenate_apply_piece (t := S150000x3) 1 [⟨S150000x1, u0⟩, ⟨S150000x1, u1⟩, ⟨S150000x1, u2⟩]
    concatenates_S150000x1_S150000x1_S150000x1_S150000x3_d1 (ix2 r 0) 0 (by show (0 : ℕ) < 3; decide) S150000x1 u0 rfl rfl 0 rfl (ix2 r 0)
    (fun b hb => match b with | ⟨0, _⟩ => rfl | ⟨1, _⟩ => absurd rfl hb) rfl

private theorem kh1_cat1 (u0 u1 u2 : FVec Ideal S150000x1 .f32) (r : Fin 150000) :
    concatenate S150000x3 1 [⟨S150000x1, u0⟩, ⟨S150000x1, u1⟩, ⟨S150000x1, u2⟩]
      concatenates_S150000x1_S150000x1_S150000x1_S150000x3_d1 (ix2 r 1) = u1 (ix2 r 0) :=
  concatenate_apply_piece (t := S150000x3) 1 [⟨S150000x1, u0⟩, ⟨S150000x1, u1⟩, ⟨S150000x1, u2⟩]
    concatenates_S150000x1_S150000x1_S150000x1_S150000x3_d1 (ix2 r 1) 1 (by show (1 : ℕ) < 3; decide) S150000x1 u1 rfl rfl 1 rfl (ix2 r 0)
    (fun b hb => match b with | ⟨0, _⟩ => rfl | ⟨1, _⟩ => absurd rfl hb) rfl

private theorem kh1_cat2 (u0 u1 u2 : FVec Ideal S150000x1 .f32) (r : Fin 150000) :
    concatenate S150000x3 1 [⟨S150000x1, u0⟩, ⟨S150000x1, u1⟩, ⟨S150000x1, u2⟩]
      concatenates_S150000x1_S150000x1_S150000x1_S150000x3_d1 (ix2 r 2) = u2 (ix2 r 0) :=
  concatenate_apply_piece (t := S150000x3) 1 [⟨S150000x1, u0⟩, ⟨S150000x1, u1⟩, ⟨S150000x1, u2⟩]
    concatenates_S150000x1_S150000x1_S150000x1_S150000x3_d1 (ix2 r 2) 2 (by show (2 : ℕ) < 3; decide) S150000x1 u2 rfl rfl 2 rfl (ix2 r 0)
    (fun b hb => match b with | ⟨0, _⟩ => rfl | ⟨1, _⟩ => absurd rfl hb) rfl

private theorem kh1_v61_result (hxs hy) (F : Valuation τ sig (Elt Ideal)) :
    (StableHlo.nary (τ := τ) ![main_v58, main_v59, main_v60] main_v61
        (fun u => concatenate S150000x3 1 [⟨S150000x1, u 0⟩, ⟨S150000x1, u 1⟩, ⟨S150000x1, u 2⟩] concatenates_S150000x1_S150000x1_S150000x1_S150000x3_d1)
        hxs hy).result F (no_index (Proc.devRef .tc main_v61))
      = concatenate S150000x3 1
          [⟨S150000x1, F (Proc.devRef .tc main_v58)⟩, ⟨S150000x1, F (Proc.devRef .tc main_v59)⟩,
            ⟨S150000x1, F (Proc.devRef .tc main_v60)⟩] concatenates_S150000x1_S150000x1_S150000x1_S150000x3_d1 := by
  rw [nary_result]
  rfl

set_option maxHeartbeats 4000000 in
theorem host1_v15 (r : Fin 150000) (k : Fin 64) :
    after hostOps1 W (dr main_v15) (ix2 r k)
      = segSum (fun e : Fin 900000 => W (dr main_arg1) (ix2 1 e))
          (fun e k => W (dr main_v0_0) (ix2 (clampRow 300000 (by decide) (normIdx 300000 (W (dr main_arg1) (ix2 0 e)))) k)) r.val k := by
  simp only [dr]
  after_results_simp
  exact kh1_sum _ _ _ _ (kh1_dst _) (kh1_src _) r k

set_option maxHeartbeats 4000000 in
theorem host1_v34 (r : Fin 150000) (k : Fin 64) :
    after hostOps1 W (dr main_v34) (ix2 r k)
      = segSum (fun e : Fin 900000 => W (dr main_arg2) (ix2 1 e))
          (fun e k => W (dr main_v0_1) (ix2 (clampRow 300000 (by decide) (normIdx 300000 (W (dr main_arg2) (ix2 0 e)))) k)) r.val k := by
  simp only [dr]
  after_results_simp
  exact kh1_sum _ _ _ _ (kh1_dst _) (kh1_src _) r k

set_option maxHeartbeats 4000000 in
theorem host1_v53 (r : Fin 150000) (k : Fin 64) :
    after hostOps1 W (dr main_v53) (ix2 r k)
      = segSum (fun e : Fin 900000 => W (dr main_arg3) (ix2 1 e))
          (fun e k => W (dr main_v0_2) (ix2 (clampRow 300000 (by decide) (normIdx 300000 (W (dr main_arg3) (ix2 0 e)))) k)) r.val k := by
  simp only [dr]
  after_results_simp
  exact kh1_sum _ _ _ _ (kh1_dst _) (kh1_src _) r k

set_option maxHeartbeats 4000000 in
theorem host1_v61_0 (r : Fin 150000) :
    after hostOps1 W (dr main_v61) (ix2 r 0) = segCnt (fun e : Fin 900000 => W (dr main_arg1) (ix2 1 e)) r.val := by
  simp only [dr]
  simp (disch := decide) only [after_cons, after_nil, nullary_result', unary_result', binary_result', ternary_result',
    reshape_result', kh1_v61_result, nullary_result_ne', unary_result_ne', binary_result_ne', ternary_result_ne',
    reshape_result_ne', nary_result_ne']
  rw [kh1_cat0, kh1_col]
  exact kh1_cnt _ r

set_option maxHeartbeats 4000000 in
theorem host1_v61_1 (r : Fin 150000) :
    after hostOps1 W (dr main_v61) (ix2 r 1) = segCnt (fun e : Fin 900000 => W (dr main_arg2) (ix2 1 e)) r.val := by
  simp only [dr]
  simp (disch := decide) only [after_cons, after_nil, nullary_result', unary_result', binary_result', ternary_result',
    reshape_result', kh1_v61_result, nullary_result_ne', unary_result_ne', binary_result_ne', ternary_result_ne',
    reshape_result_ne', nary_result_ne']
  rw [kh1_cat1, kh1_col]
  exact kh1_cnt _ r

set_option maxHeartbeats 4000000 in
theorem host1_v61_2 (r : Fin 150000) :
    after hostOps1 W (dr main_v61) (ix2 r 2) = segCnt (fun e : Fin 900000 => W (dr main_arg3) (ix2 1 e)) r.val := by
  simp only [dr]
  simp (disch := decide) only [after_cons, after_nil, nullary_result', unary_result', binary_result', ternary_result',
    reshape_result', kh1_v61_result, nullary_result_ne', unary_result_ne', binary_result_ne', ternary_result_ne',
    reshape_result_ne', nary_result_ne']
  rw [kh1_cat2, kh1_col]
  exact kh1_cnt _ r

set_option maxHeartbeats 4000000 in
theorem host1_v62 (r : Fin 150000) (k : Fin 64) :
    after hostOps1 W (dr main_v62) (ix2 r k) = W (dr main_arg0) (ix2 (Fin.castLE (by decide) r) k) := by
  simp only [dr]
  after_results_simp
  exact slice2_axis0_apply 0 _ _ r k (Fin.castLE (by decide) r) (Nat.zero_add _).symm

end Cert.KernelIdeal.Hand

end
-- ==== Proof.KIHost2.lean ====
import proofs.«421255_j8237747274315_3_alg».proof.Proof.Gen.KernelIdeal.Launch
import proofs.«421255_j8237747274315_3_alg».proof.Proof.Spec
import proofs.«421255_j8237747274315_3_alg».proof.Proof.IdxRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.ValueIdx Idealize.ShloMosaic.StableHlo

variable (W : Valuation τ sig (Elt Ideal))

local notation "dr" => Proc.devRef (τ := τ) Proc.tc

private theorem host2_row_read {α : Type} (o : Nat) (k : Fin 2) (hk : k.val = o)
    (X : (⟨2, ![2, 900000]⟩ : Shape).Idx → α)
    (h : (⟨2, ![2, 900000]⟩ : Shape).Slices ![o, 0] ⟨2, ![1, 300000]⟩)
    (hc : (⟨2, ![1, 300000]⟩ : Shape).ShapeCasts ⟨1, ![300000]⟩) (e : Fin 300000) :
    shapeCast ⟨1, ![300000]⟩ (extractStridedSlice ⟨2, ![1, 300000]⟩ ![o, 0] X h) hc (ix1 e)
      = X (ix2 k (Fin.castLE (by decide) e)) := by
  rw [shapeCast_1a_a_apply]
  exact extractStridedSlice_apply _ _ _ _ _ (fun ax => by
    match ax with
    | ⟨0, _⟩ => exact hk.trans (Nat.add_zero _).symm
    | ⟨1, _⟩ => exact (Nat.zero_add _).symm)

private theorem host2_col_read {α : Type} {n : Nat} (x : (⟨1, ![n]⟩ : Shape).Idx → α) (hn : n ≠ 1)
    (h : (⟨1, ![n]⟩ : Shape).BroadcastsInDim ⟨2, ![n, 1]⟩ ![0]) (e : Fin n) (u : Fin 1) :
    broadcastInDim ⟨2, ![n, 1]⟩ ![0] h x (ix2 e u) = x (ix1 e) :=
  broadcastInDim_apply _ h x _ _ (fun a => by
    match a with
    | ⟨0, _⟩ => exact (if_neg hn).symm)

private theorem host2_zero_add (a b : EReal) (h : a = 0) : a + b = b := by rw [h, zero_add]

private theorem host2_scalar_read {α : Type} {t : Shape} (x : (⟨0, ![]⟩ : Shape).Idx → α)
    (h : (⟨0, ![]⟩ : Shape).BroadcastsInDim t ![]) (j : t.Idx) : broadcastInDim t ![] h x j = x ix0 :=
  broadcastInDim_apply _ h x j ix0 (fun a => a.elim0)

private theorem host2_zero_read {t : Shape} (h : S_.BroadcastsInDim t ![]) (j : t.Idx) :
    broadcastInDim t ![] h (constant (F := Ideal) S_ FTy.f32 0#32) j = 0 :=
  (host2_scalar_read _ h j).trans
    ((constant_apply (s := S_) (φ := FTy.f32) 0#32 ix0).trans Ideal.ofBits_zero_f32)

private theorem host2_one_read {t : Shape} (h : S_.BroadcastsInDim t ![]) (j : t.Idx) :
    broadcastInDim t ![] h (constant (F := Ideal) S_ FTy.f32 1065353216#32) j = oneW :=
  (host2_scalar_read _ h j).trans (constant_apply (s := S_) (φ := FTy.f32) 1065353216#32 ix0)

private theorem host2_word_read {t : Shape} (h : S_.BroadcastsInDim t ![]) (b : BitVec 32) (j : t.Idx) :
    broadcastInDim t ![] h (constantI S_ 32 b) j = b :=
  host2_scalar_read _ h j

private theorem host2_dst_read (X : IVec S2x900000 32) (e : Fin 300000) :
    broadcastInDim S300000x1 ![0] bcast_S300000_S300000x1_0 (fun i =>
        shapeCast S300000 (extractStridedSlice S1x300000 ![1, 0] X slices_S2x900000_S1x300000_1_0)
          shapeCasts_S1x300000_S300000 i) (ix2 e 0)
      = X (ix2 1 (Fin.castLE (by decide) e)) :=
  (host2_col_read _ (by decide) _ e 0).trans (host2_row_read 1 1 rfl X _ _ e)

private theorem host2_src_read (A Z C : IVec S300000 32) (e : Fin 300000) (b : BitVec 32)
    (hA : A (ix1 e) = b) (hZ : Z (ix1 e) = 0#32) (hC : C (ix1 e) = 150000#32) :
    broadcastInDim S300000x1 ![0] bcast_S300000_S300000x1_0 (select (cmpi .slt A Z) (addi A C) A) (ix2 e 0)
      = normIdx 150000 b := by
  refine (host2_col_read _ (by decide) _ e 0).trans ?_
  show Scalar.select (IntOp.cmpi .slt (A (ix1 e)) (Z (ix1 e))) (IntOp.addi (A (ix1 e)) (C (ix1 e))) (A (ix1 e)) = _
  rw [hA, hZ, hC]
  exact normIdx_eq 150000 b

private theorem host2_cat_read (u0 u1 u2 : S50000x1.Idx → EReal) (r : Fin 50000) (k : Fin 3) :
    concatenate S50000x3 1 [⟨S50000x1, u0⟩, ⟨S50000x1, u1⟩, ⟨S50000x1, u2⟩]
        concatenates_S50000x1_S50000x1_S50000x1_S50000x3_d1 (ix2 r k)
      = (![u0, u1, u2] k) (ix2 r 0) := by
  have hi : ∀ b : Fin S50000x1.rank, b.cast (rfl : S50000x1.rank = S50000x3.rank) ≠ (1 : Fin S50000x3.rank) →
      ((ix2 r (0 : Fin 1) : S50000x1.Idx) b).val = ((ix2 r k : S50000x3.Idx) (b.cast rfl)).val := fun b hb => by
    match b with
    | ⟨0, _⟩ => rfl
    | ⟨1, _⟩ => exact absurd rfl hb
  match k with
  | ⟨0, _⟩ =>
    exact concatenate_apply_piece (t := S50000x3) (1 : Fin 2) _ _ _ 0 (by simp) S50000x1 u0 rfl rfl 0 rfl
      (ix2 r (0 : Fin 1)) hi rfl
  | ⟨1, _⟩ =>
    exact concatenate_apply_piece (t := S50000x3) (1 : Fin 2) _ _ _ 1 (by simp) S50000x1 u1 rfl rfl 1 rfl
      (ix2 r (0 : Fin 1)) hi rfl
  | ⟨2, _⟩ =>
    exact concatenate_apply_piece (t := S50000x3) (1 : Fin 2) _ _ _ 2 (by simp) S50000x1 u2 rfl rfl 2 rfl
      (ix2 r (0 : Fin 1)) hi rfl

private theorem host2_agg_read (X : IVec S2x900000 32) (Y : S150000x128.Idx → EReal) (r : Fin 50000) (q : Fin 128) :
    Host.scatterAdd (F := Ideal) (φ := .f32) scatter_S50000x128_S300000x1_S300000x128_1_0_0_1
      (broadcastInDim S50000x128 ![] bcast_S_S50000x128 (constant (F := Ideal) S_ FTy.f32 0#32))
      (broadcastInDim S300000x1 ![0] bcast_S300000_S300000x1_0 fun i =>
        shapeCast S300000 (extractStridedSlice S1x300000 ![1, 0] X slices_S2x900000_S1x300000_1_0)
          shapeCasts_S1x300000_S300000 i)
      (Host.gather gather_S150000x128_S300000x1_S300000x128_1_0_n_n_0_1_1128 Y
        (broadcastInDim S300000x1 ![0] bcast_S300000_S300000x1_0
          (select
            (cmpi CmpIPredicate.slt
              (fun i => shapeCast S300000 (extractStridedSlice S1x300000 ![0, 0] X slices_S2x900000_S1x300000_0_0)
                shapeCasts_S1x300000_S300000 i)
              (broadcastInDim S300000 ![] bcast_S_S300000 (constantI S_ 32 0#32)))
            (addi
              (fun i => shapeCast S300000 (extractStridedSlice S1x300000 ![0, 0] X slices_S2x900000_S1x300000_0_0)
                shapeCasts_S1x300000_S300000 i)
              (broadcastInDim S300000 ![] bcast_S_S300000 (constantI S_ 32 150000#32)))
            fun i => shapeCast S300000 (extractStridedSlice S1x300000 ![0, 0] X slices_S2x900000_S1x300000_0_0)
              shapeCasts_S1x300000_S300000 i)))
      (ix2 r q)
    = segSum (fun e : Fin 300000 => X (ix2 1 (Fin.castLE (by decide) e)))
        (fun e q => Y (ix2 (clampRow 150000 (by decide)
          (normIdx 150000 (X (ix2 0 (Fin.castLE (by decide) e))))) q)) r.val q := by
  unfold Host.scatterAdd
  rw [Ideal.hostScatterAdd_def]
  refine (scatterAdd_rows_apply scatter_S50000x128_S300000x1_S300000x128_1_0_0_1 rfl rfl rfl rfl _ _ _ r q).trans ?_
  refine (host2_zero_add _ _ (host2_zero_read _ _)).trans ?_
  refine congrArg₂ (fun a b => segSum a b r.val q) (funext fun e => ?_) (funext fun e => funext fun k => ?_)
  · exact host2_dst_read X e
  · refine (gather_rows_apply (by decide) gather_S150000x128_S300000x1_S300000x128_1_0_n_n_0_1_1128
      rfl rfl rfl rfl rfl rfl rfl _ _ e k).trans ?_
    refine congrArg (fun b => Y (ix2 (clampRow 150000 (by decide) b) k)) ?_
    exact host2_src_read _ _ _ e _ (host2_row_read 0 0 rfl X _ _ e) (host2_word_read _ _ _) (host2_word_read _ _ _)

private theorem host2_cnt_read (X : IVec S2x900000 32) (r : Fin 50000) :
    Host.scatterAdd (F := Ideal) (φ := .f32) scatter_S50000_S300000x1_S300000_n_0_0_1
      (broadcastInDim S50000 ![] bcast_S_S50000 (constant (F := Ideal) S_ FTy.f32 0#32))
      (broadcastInDim S300000x1 ![0] bcast_S300000_S300000x1_0 fun i =>
        shapeCast S300000 (extractStridedSlice S1x300000 ![1, 0] X slices_S2x900000_S1x300000_1_0)
          shapeCasts_S1x300000_S300000 i)
      (broadcastInDim S300000 ![] bcast_S_S300000 (constant (F := Ideal) S_ FTy.f32 1065353216#32)) (ix1 r)
    = segCnt (fun e : Fin 300000 => X (ix2 1 (Fin.castLE (by decide) e))) r.val := by
  unfold Host.scatterAdd segCnt
  rw [Ideal.hostScatterAdd_def]
  refine (scatterAdd_vec_apply scatter_S50000_S300000x1_S300000_n_0_0_1 rfl rfl rfl rfl _ _ _ r).trans ?_
  refine (host2_zero_add _ _ (host2_zero_read _ _)).trans ?_
  refine Finset.sum_congr (Finset.filter_congr fun e _ => ?_) (fun e _ => host2_one_read _ _)
  rw [host2_dst_read X e]

set_option maxHeartbeats 4000000 in
theorem host2_v77 (r : Fin 50000) (q : Fin 128) :
    after hostOps2 W (dr main_v77) (ix2 r q)
      = segSum (fun e : Fin 300000 => W (dr main_arg1) (ix2 1 (Fin.castLE (by decide) e)))
          (fun e q => W (dr main_v63) (ix2 (clampRow 150000 (by decide)
            (normIdx 150000 (W (dr main_arg1) (ix2 0 (Fin.castLE (by decide) e))))) q)) r.val q := by
  unfold hostOps2
  after_results_simp
  exact host2_agg_read _ _ r q

set_option maxHeartbeats 4000000 in
theorem host2_v95 (r : Fin 50000) (q : Fin 128) :
    after hostOps2 W (dr main_v95) (ix2 r q)
      = segSum (fun e : Fin 300000 => W (dr main_arg2) (ix2 1 (Fin.castLE (by decide) e)))
          (fun e q => W (dr main_v63) (ix2 (clampRow 150000 (by decide)
            (normIdx 150000 (W (dr main_arg2) (ix2 0 (Fin.castLE (by decide) e))))) q)) r.val q := by
  unfold hostOps2
  after_results_simp
  exact host2_agg_read _ _ r q

set_option maxHeartbeats 4000000 in
theorem host2_v113 (r : Fin 50000) (q : Fin 128) :
    after hostOps2 W (dr main_v113) (ix2 r q)
      = segSum (fun e : Fin 300000 => W (dr main_arg3) (ix2 1 (Fin.castLE (by decide) e)))
          (fun e q => W (dr main_v63) (ix2 (clampRow 150000 (by decide)
            (normIdx 150000 (W (dr main_arg3) (ix2 0 (Fin.castLE (by decide) e))))) q)) r.val q := by
  unfold hostOps2
  after_results_simp
  exact host2_agg_read _ _ r q

set_option maxHeartbeats 4000000 in
theorem host2_v121_0 (r : Fin 50000) :
    after hostOps2 W (dr main_v121) (ix2 r 0)
      = segCnt (fun e : Fin 300000 => W (dr main_arg1) (ix2 1 (Fin.castLE (by decide) e))) r.val := by
  unfold hostOps2
  after_results_simp
  simp only [Matrix.cons_val]
  after_results_simp
  refine (host2_cat_read _ _ _ r 0).trans ?_
  simp only [Matrix.cons_val]
  exact (host2_col_read _ (by decide) _ r 0).trans (host2_cnt_read _ r)

set_option maxHeartbeats 4000000 in
theorem host2_v121_1 (r : Fin 50000) :
    after hostOps2 W (dr main_v121) (ix2 r 1)
      = segCnt (fun e : Fin 300000 => W (dr main_arg2) (ix2 1 (Fin.castLE (by decide) e))) r.val := by
  unfold hostOps2
  after_results_simp
  simp only [Matrix.cons_val]
  after_results_simp
  refine (host2_cat_read _ _ _ r 1).trans ?_
  simp only [Matrix.cons_val]
  exact (host2_col_read _ (by decide) _ r 0).trans (host2_cnt_read _ r)

set_option maxHeartbeats 4000000 in
theorem host2_v121_2 (r : Fin 50000) :
    after hostOps2 W (dr main_v121) (ix2 r 2)
      = segCnt (fun e : Fin 300000 => W (dr main_arg3) (ix2 1 (Fin.castLE (by decide) e))) r.val := by
  unfold hostOps2
  after_results_simp
  simp only [Matrix.cons_val]
  after_results_simp
  refine (host2_cat_read _ _ _ r 2).trans ?_
  simp only [Matrix.cons_val]
  exact (host2_col_read _ (by decide) _ r 0).trans (host2_cnt_read _ r)

set_option maxHeartbeats 4000000 in
theorem host2_v122 (r : Fin 50000) (q : Fin 128) :
    after hostOps2 W (dr main_v122) (ix2 r q) = W (dr main_v63) (ix2 (Fin.castLE (by decide) r) q) := by
  unfold hostOps2
  after_results_simp
  exact slice2_axis0_apply 0 _ _ r q (Fin.castLE (by decide) r) (Nat.zero_add _).symm

end Cert.KernelIdeal.Hand

end
-- ==== Proof.KIAsm.lean ====
import proofs.«421255_j8237747274315_3_alg».proof.Proof.KIRun
import proofs.«421255_j8237747274315_3_alg».proof.Proof.KIVal0
import proofs.«421255_j8237747274315_3_alg».proof.Proof.KIVal1
import proofs.«421255_j8237747274315_3_alg».proof.Proof.KIVal2
import proofs.«421255_j8237747274315_3_alg».proof.Proof.KIHost1
import proofs.«421255_j8237747274315_3_alg».proof.Proof.KIHost2
import proofs.«421255_j8237747274315_3_alg».proof.Proof.Spec
import Idealize.ShloMosaic.Lib.ValueIdx

set_option maxRecDepth 65536

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem

local notation "dr" => Proc.devRef (τ := τ) Proc.tc

theorem segSum_ext {M C : Nat} {dst dst' : Fin M → BitVec 32} {msg msg' : Fin M → Fin C → EReal}
    (hd : ∀ e, dst e = dst' e) (hm : ∀ e k, msg e k = msg' e k) (r : Nat) (k : Fin C) :
    segSum dst msg r k = segSum dst' msg' r k := by
  rw [show dst = dst' from funext hd, show msg = msg' from funext fun e => funext (hm e)]

theorem segCnt_ext {M : Nat} {dst dst' : Fin M → BitVec 32} (hd : ∀ e, dst e = dst' e) (r : Nat) :
    segCnt dst r = segCnt dst' r := by
  rw [show dst = dst' from funext hd]

variable (m : (ℓ : Loc nD τ sig) → Buf (Elt Ideal) ℓ) (ρ : Dev nD → PrngReg) (c : Dev nD)

def eiOf : Fin 3 → I2 2 900000 → BitVec 32
  | 0 => m ((c : Thread nD τ).loc main_arg1)
  | 1 => m ((c : Thread nD τ).loc main_arg2)
  | 2 => m ((c : Thread nD τ).loc main_arg3)

/-- The launch contents of the arguments, bundled. -/
noncomputable def argsOf : Args :=
  ⟨m ((c : Thread nD τ).loc main_arg0), eiOf m c, m ((c : Thread nD τ).loc main_arg6),
    m ((c : Thread nD τ).loc main_arg7),
    m ((c : Thread nD τ).loc main_arg8),
    m ((c : Thread nD τ).loc main_arg9),
    m ((c : Thread nD τ).loc main_arg10),
    m ((c : Thread nD τ).loc main_arg11),
    m ((c : Thread nD τ).loc main_arg12),
    m ((c : Thread nD τ).loc main_arg13),
    m ((c : Thread nD τ).loc main_arg14),
    m ((c : Thread nD τ).loc main_arg15),
    m ((c : Thread nD τ).loc main_arg16),
    m ((c : Thread nD τ).loc main_arg17)⟩

theorem W1_proj0 (row : Fin 300000) (j : Fin 64) : W1 m ρ c (dr main_v0_0) (ix2 row j) = (argsOf m c).proj 0 row j := by
  rw [W1_v0_0 m ρ c]; exact arr0_3 (V0 m ρ) c row j
theorem W1_proj1 (row : Fin 300000) (j : Fin 64) : W1 m ρ c (dr main_v0_1) (ix2 row j) = (argsOf m c).proj 1 row j := by
  rw [W1_v0_1 m ρ c]; exact arr0_4 (V0 m ρ) c row j
theorem W1_proj2 (row : Fin 300000) (j : Fin 64) : W1 m ρ c (dr main_v0_2) (ix2 row j) = (argsOf m c).proj 2 row j := by
  rw [W1_v0_2 m ρ c]; exact arr0_5 (V0 m ρ) c row j

theorem W2_v15 (r : Fin 150000) (k : Fin 64) : W2 m ρ c (dr main_v15) (ix2 r k) = (argsOf m c).agg0 0 r.val k := by
  show StableHlo.after hostOps1 (W1 m ρ c) (dr main_v15) (ix2 r k) = _
  rw [host1_v15 (W1 m ρ c) r k, W1_arg m ρ c (k := main_arg1) (by decide)]
  exact segSum_ext (fun e => rfl) (fun e j => W1_proj0 m ρ c _ j) r.val k
theorem W2_v34 (r : Fin 150000) (k : Fin 64) : W2 m ρ c (dr main_v34) (ix2 r k) = (argsOf m c).agg0 1 r.val k := by
  show StableHlo.after hostOps1 (W1 m ρ c) (dr main_v34) (ix2 r k) = _
  rw [host1_v34 (W1 m ρ c) r k, W1_arg m ρ c (k := main_arg2) (by decide)]
  exact segSum_ext (fun e => rfl) (fun e j => W1_proj1 m ρ c _ j) r.val k
theorem W2_v53 (r : Fin 150000) (k : Fin 64) : W2 m ρ c (dr main_v53) (ix2 r k) = (argsOf m c).agg0 2 r.val k := by
  show StableHlo.after hostOps1 (W1 m ρ c) (dr main_v53) (ix2 r k) = _
  rw [host1_v53 (W1 m ρ c) r k, W1_arg m ρ c (k := main_arg3) (by decide)]
  exact segSum_ext (fun e => rfl) (fun e j => W1_proj2 m ρ c _ j) r.val k

theorem W2_v61_0 (r : Fin 150000) : W2 m ρ c (dr main_v61) (ix2 r 0) = cnt0 (eiOf m c) 0 r.val := by
  show StableHlo.after hostOps1 (W1 m ρ c) (dr main_v61) (ix2 r 0) = _
  rw [host1_v61_0 (W1 m ρ c) r, W1_arg m ρ c (k := main_arg1) (by decide)]; rfl
theorem W2_v61_1 (r : Fin 150000) : W2 m ρ c (dr main_v61) (ix2 r 1) = cnt0 (eiOf m c) 1 r.val := by
  show StableHlo.after hostOps1 (W1 m ρ c) (dr main_v61) (ix2 r 1) = _
  rw [host1_v61_1 (W1 m ρ c) r, W1_arg m ρ c (k := main_arg2) (by decide)]; rfl
theorem W2_v61_2 (r : Fin 150000) : W2 m ρ c (dr main_v61) (ix2 r 2) = cnt0 (eiOf m c) 2 r.val := by
  show StableHlo.after hostOps1 (W1 m ρ c) (dr main_v61) (ix2 r 2) = _
  rw [host1_v61_2 (W1 m ρ c) r, W1_arg m ρ c (k := main_arg3) (by decide)]; rfl

theorem W2_v62 (r : Fin 150000) (k : Fin 64) :
    W2 m ρ c (dr main_v62) (ix2 r k) = m ((c : Thread nD τ).loc main_arg0) (ix2 (Fin.castLE (by decide) r) k) := by
  show StableHlo.after hostOps1 (W1 m ρ c) (dr main_v62) (ix2 r k) = _
  rw [host1_v62 (W1 m ρ c) r k, W1_arg m ρ c (k := main_arg0) (by decide)]

theorem h1_eq (r : Fin 150000) (q : Fin 128) : W3 m ρ c (dr main_v63) (ix2 r q) = (argsOf m c).h1 r q := by
  rw [W3_v63 m ρ c, arr1_10 (V2 m ρ) c r q,
    show (fun k => V2 m ρ c main_v15 (ix2 r k)) = (argsOf m c).agg0 0 r.val from funext (W2_v15 m ρ c r),
    show (fun k => V2 m ρ c main_v34 (ix2 r k)) = (argsOf m c).agg0 1 r.val from funext (W2_v34 m ρ c r),
    show (fun k => V2 m ρ c main_v53 (ix2 r k)) = (argsOf m c).agg0 2 r.val from funext (W2_v53 m ρ c r),
    show V2 m ρ c main_v61 (ix2 r 0) = _ from W2_v61_0 m ρ c r, show V2 m ρ c main_v61 (ix2 r 1) = _ from W2_v61_1 m ρ c r,
    show V2 m ρ c main_v61 (ix2 r 2) = _ from W2_v61_2 m ρ c r,
    show (fun k => V2 m ρ c main_v62 (ix2 r k)) = _ from funext (W2_v62 m ρ c r),
    show V2 m ρ c main_arg8 = _ from W2_arg m ρ c (by decide), show V2 m ρ c main_arg9 = _ from W2_arg m ρ c (by decide),
    show V2 m ρ c main_arg10 = _ from W2_arg m ρ c (by decide), show V2 m ρ c main_arg14 = _ from W2_arg m ρ c (by decide),
    show V2 m ρ c main_arg15 = _ from W2_arg m ρ c (by decide)]
  rfl

theorem W4_v77 (r : Fin 50000) (q : Fin 128) : W4 m ρ c (dr main_v77) (ix2 r q) = (argsOf m c).agg1 0 r.val q := by
  show StableHlo.after hostOps2 (W3 m ρ c) (dr main_v77) (ix2 r q) = _
  rw [host2_v77 (W3 m ρ c) r q, W3_arg m ρ c (k := main_arg1) (by decide)]
  exact segSum_ext (fun e => rfl) (fun e j => h1_eq m ρ c _ j) r.val q
theorem W4_v95 (r : Fin 50000) (q : Fin 128) : W4 m ρ c (dr main_v95) (ix2 r q) = (argsOf m c).agg1 1 r.val q := by
  show StableHlo.after hostOps2 (W3 m ρ c) (dr main_v95) (ix2 r q) = _
  rw [host2_v95 (W3 m ρ c) r q, W3_arg m ρ c (k := main_arg2) (by decide)]
  exact segSum_ext (fun e => rfl) (fun e j => h1_eq m ρ c _ j) r.val q
theorem W4_v113 (r : Fin 50000) (q : Fin 128) : W4 m ρ c (dr main_v113) (ix2 r q) = (argsOf m c).agg1 2 r.val q := by
  show StableHlo.after hostOps2 (W3 m ρ c) (dr main_v113) (ix2 r q) = _
  rw [host2_v113 (W3 m ρ c) r q, W3_arg m ρ c (k := main_arg3) (by decide)]
  exact segSum_ext (fun e => rfl) (fun e j => h1_eq m ρ c _ j) r.val q

theorem W4_v121_0 (r : Fin 50000) : W4 m ρ c (dr main_v121) (ix2 r 0) = cnt1 (eiOf m c) 0 r.val := by
  show StableHlo.after hostOps2 (W3 m ρ c) (dr main_v121) (ix2 r 0) = _
  rw [host2_v121_0 (W3 m ρ c) r, W3_arg m ρ c (k := main_arg1) (by decide)]; rfl
theorem W4_v121_1 (r : Fin 50000) : W4 m ρ c (dr main_v121) (ix2 r 1) = cnt1 (eiOf m c) 1 r.val := by
  show StableHlo.after hostOps2 (W3 m ρ c) (dr main_v121) (ix2 r 1) = _
  rw [host2_v121_1 (W3 m ρ c) r, W3_arg m ρ c (k := main_arg2) (by decide)]; rfl
theorem W4_v121_2 (r : Fin 50000) : W4 m ρ c (dr main_v121) (ix2 r 2) = cnt1 (eiOf m c) 2 r.val := by
  show StableHlo.after hostOps2 (W3 m ρ c) (dr main_v121) (ix2 r 2) = _
  rw [host2_v121_2 (W3 m ρ c) r, W3_arg m ρ c (k := main_arg3) (by decide)]; rfl

theorem W4_v122 (r : Fin 50000) (q : Fin 128) :
    W4 m ρ c (dr main_v122) (ix2 r q) = (argsOf m c).h1 (Fin.castLE (by decide) r) q := by
  show StableHlo.after hostOps2 (W3 m ρ c) (dr main_v122) (ix2 r q) = _
  rw [host2_v122 (W3 m ρ c) r q]
  exact h1_eq m ρ c _ q

theorem result_eq (r : Fin 50000) (q : Fin 128) : W5 m ρ c (dr main_v123) (ix2 r q) = (argsOf m c).out r q := by
  rw [W5_v123 m ρ c, arr2_10 (V4 m ρ) c r q,
    show (fun k => V4 m ρ c main_v77 (ix2 r k)) = (argsOf m c).agg1 0 r.val from funext (W4_v77 m ρ c r),
    show (fun k => V4 m ρ c main_v95 (ix2 r k)) = (argsOf m c).agg1 1 r.val from funext (W4_v95 m ρ c r),
    show (fun k => V4 m ρ c main_v113 (ix2 r k)) = (argsOf m c).agg1 2 r.val from funext (W4_v113 m ρ c r),
    show V4 m ρ c main_v121 (ix2 r 0) = _ from W4_v121_0 m ρ c r, show V4 m ρ c main_v121 (ix2 r 1) = _ from W4_v121_1 m ρ c r,
    show V4 m ρ c main_v121 (ix2 r 2) = _ from W4_v121_2 m ρ c r,
    show (fun k => V4 m ρ c main_v122 (ix2 r k)) = (argsOf m c).h1 (Fin.castLE (by decide) r) from funext (W4_v122 m ρ c r),
    show V4 m ρ c main_arg11 = _ from W4_arg m ρ c (by decide), show V4 m ρ c main_arg12 = _ from W4_arg m ρ c (by decide),
    show V4 m ρ c main_arg13 = _ from W4_arg m ρ c (by decide), show V4 m ρ c main_arg16 = _ from W4_arg m ρ c (by decide),
    show V4 m ρ c main_arg17 = _ from W4_arg m ρ c (by decide)]
  rfl

/-- The returned array, as a function of its index. -/
def outAt : S50000x128.Idx → EReal := fun i => (argsOf m c).out (i 0) (i 1)

theorem result_fun : W5 m ρ c (dr main_v123) = outAt m c :=
  funext fun i : S50000x128.Idx => (congrArg (W5 m ρ c (dr main_v123)) (eq_ix2 i)).trans (result_eq m ρ c (i 0) (i 1))

theorem run_value : θ_run defs (onTc (τ := τ) (main (F := Ideal))) ⟨m, fun _ => 0, ρ⟩ (fun r => ∀ c : Dev nD,
      r.2.mem ((c.tc : Thread nD τ).loc main_v123) = outAt m c
      ∧ args.Forall fun k => r.2.mem ((c.tc : Thread nD τ).loc k) = m ((c.tc : Thread nD τ).loc k)) :=
  (θ_run defs (onTc (τ := τ) (main (F := Ideal))) ⟨m, fun _ => 0, ρ⟩).monotone' (fun r h c =>
    ⟨(h c _ (mem_uc main_v123 (by decide))).trans (result_fun m ρ c),
     List.forall_iff_forall_mem.2 fun k hk =>
      (h c _ (mem_uc k ((by decide : ∀ k ∈ (args : List (Ref sig .tc)), ¬ (Proc.devRef .tc k : DevRef τ sig).isScoped) k hk))).trans
        (W5_arg m ρ c hk)⟩) (run_main m ρ)

end Cert.KernelIdeal.Hand

end
-- ==== Proof.RefRun.lean ====
import proofs.«421255_j8237747274315_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA0 : List (HloOp τ sig (Elt F)) :=
  [ StableHlo.unary main_arg1 main_v0 ((extractStridedSlice S1x900000 ![0, 0] · slices_S2x900000_S1x900000_0_0) : (⟨S2x900000, .i32⟩ : BufTy).Contents (Elt F) → (⟨S1x900000, .i32⟩ : BufTy).Contents (Elt F)),
    StableHlo.reshape main_v0 main_v1 rfl shapeCasts_S1x900000_S900000,
    StableHlo.unary main_arg1 main_v2 ((extractStridedSlice S1x900000 ![1, 0] · slices_S2x900000_S1x900000_1_0) : (⟨S2x900000, .i32⟩ : BufTy).Contents (Elt F) → (⟨S1x900000, .i32⟩ : BufTy).Contents (Elt F)),
    StableHlo.reshape main_v2 main_v3 rfl shapeCasts_S1x900000_S900000,
    StableHlo.unary main_arg6 main_v4 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v4 main_v5 rfl shapeCasts_S1x64x64_S64x64,
    StableHlo.binary main_arg0 main_v5 main_v6 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg7 main_v7 ((extractStridedSlice S1x64 ![0, 0] · slices_S3x64_S1x64_0_0) : (⟨S3x64, .f32⟩ : BufTy).Contents (Elt F) → (⟨S1x64, .f32⟩ : BufTy).Contents (Elt F)),
    StableHlo.reshape main_v7 main_v8 rfl shapeCasts_S1x64_S64,
    StableHlo.unary main_v8 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S300000x64 ![0, 1] bcast_S1x64_S300000x64_0_1 : (⟨S1x64, .f32⟩ : BufTy).Contents (Elt F) → (⟨S300000x64, .f32⟩ : BufTy).Contents (Elt F)),
    StableHlo.binary main_v6 main_v10 main_v11 (addf : (⟨S300000x64, .f32⟩ : BufTy).Contents (Elt F) → (⟨S300000x64, .f32⟩ : BufTy).Contents (Elt F) → (⟨S300000x64, .f32⟩ : BufTy).Contents (Elt F)),
    StableHlo.TRef.nullary main_call0.cst (constant S_ .f32 0x00000000#32),
    StableHlo.TRef.unary main_call0.cst main_call0.v0 (broadcastInDim S300000x64 ![] bcast_S_S300000x64),
    StableHlo.TRef.binary (.of main_v11 : StableHlo.TRef sig ⟨S300000x64, .f32⟩) main_call0.v0 main_call0.v1 maximumf,
    StableHlo.nullary main_c (constantI S_ 32 0#32),
    StableHlo.unary main_c main_v13 (broadcastInDim S900000 ![] bcast_S_S900000 : (⟨S_, .i32⟩ : BufTy).Contents (Elt F) → (⟨S900000, .i32⟩ : BufTy).Contents (Elt F)),
    StableHlo.binary main_v1 main_v13 main_v14 (cmpi .slt : (⟨S900000, .i32⟩ : BufTy).Contents (Elt F) → (⟨S900000, .i32⟩ : BufTy).Contents (Elt F) → (⟨S900000, .i1⟩ : BufTy).Contents (Elt F)),
    StableHlo.nullary main_c_0 (constantI S_ 32 300000#32),
    StableHlo.unary main_c_0 main_v15 (broadcastInDim S900000 ![] bcast_S_S900000 : (⟨S_, .i32⟩ : BufTy).Contents (Elt F) → (⟨S900000, .i32⟩ : BufTy).Contents (Elt F)),
    StableHlo.binary main_v1 main_v15 main_v16 (addi : (⟨S900000, .i32⟩ : BufTy).Contents (Elt F) → (⟨S900000, .i32⟩ : BufTy).Contents (Elt F) → (⟨S900000, .i32⟩ : BufTy).Contents (Elt F)),
    StableHlo.ternary main_v14 main_v16 main_v1 main_v17 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v17 main_v18 (broadcastInDim S900000x1 ![0] bcast_S900000_S900000x1_0 : (⟨S900000, .i32⟩ : BufTy).Contents (Elt F) → (⟨S900000x1, .i32⟩ : BufTy).Contents (Elt F)),
    StableHlo.binary main_v12 main_v18 main_v19 ((fun x i => Host.gather gather_S300000x64_S900000x1_S900000x64_1_0_n_n_0_1_164 x i) : (⟨S300000x64, .f32⟩ : BufTy).Contents (Elt F) → (⟨S900000x1, .i32⟩ : BufTy).Contents (Elt F) → (⟨S900000x64, .f32⟩ : BufTy).Contents (Elt F)),
    StableHlo.nullary main_cst (constant S_ .f32 0x00000000#32),
    StableHlo.unary main_cst main_v20 (broadcastInDim S300000x64 ![] bcast_S_S300000x64 : (⟨S_, .f32⟩ : BufTy).Contents (Elt F) → (⟨S300000x64, .f32⟩ : BufTy).Contents (Elt F)),
    StableHlo.unary main_v3 main_v21 (broadcastInDim S900000x1 ![0] bcast_S900000_S900000x1_0 : (⟨S900000, .i32⟩ : BufTy).Contents (Elt F) → (⟨S900000x1, .i32⟩ : BufTy).Contents (Elt F)),
    StableHlo.ternary main_v20 main_v21 main_v19 main_v22 ((fun x i u => Host.scatterAdd scatter_S300000x64_S900000x1_S900000x64_1_0_0_1 x i u) : (⟨S300000x64, .f32⟩ : BufTy).Contents (Elt F) → (⟨S900000x1, .i32⟩ : BufTy).Contents (Elt F) → (⟨S900000x64, .f32⟩ : BufTy).Contents (Elt F) → (⟨S300000x64, .f32⟩ : BufTy).Contents (Elt F)),
    StableHlo.nullary main_cst_1 (constant S_ .f32 0x3F800000#32),
    StableHlo.unary main_cst_1 main_v23 (broadcastInDim S900000x1 ![] bcast_S_S900000x1 : (⟨S_, .f32⟩ : BufTy).Contents (Elt F) → (⟨S900000x1, .f32⟩ : BufTy).Contents (Elt F)),
    StableHlo.nullary main_cst_2 (constant S_ .f32 0x00000000#32),
    StableHlo.unary main_cst_2 main_v24 (broadcastInDim S300000x1 ![] bcast_S_S300000x1 : (⟨S_, .f32⟩ : BufTy).Contents (Elt F) → (⟨S300000x1, .f32⟩ : BufTy).Contents (Elt F)),
    StableHlo.unary main_v3 main_v25 (broadcastInDim S900000x1 ![0] bcast_S900000_S900000x1_0 : (⟨S900000, .i32⟩ : BufTy).Contents (Elt F) → (⟨S900000x1, .i32⟩ : BufTy).Contents (Elt F)),
    StableHlo.ternary main_v24 main_v25 main_v23 main_v26 ((fun x i u => Host.scatterAdd scatter_S300000x1_S900000x1_S900000x1_1_0_0_1 x i u) : (⟨S300000x1, .f32⟩ : BufTy).Contents (Elt F) → (⟨S900000x1, .i32⟩ : BufTy).Contents (Elt F) → (⟨S900000x1, .f32⟩ : BufTy).Contents (Elt F) → (⟨S300000x1, .f32⟩ : BufTy).Contents (Elt F)),
    StableHlo.nullary main_cst_3 (constant S_ .f32 0x3F800000#32),
    StableHlo.unary main_cst_3 main_v27 (broadcastInDim S300000x1 ![] bcast_S_S300000x1 : (⟨S_, .f32⟩ : BufTy).Contents (Elt F) → (⟨S300000x1, .f32⟩ : BufTy).Contents (Elt F)),
    StableHlo.binary main_v26 main_v27 main_v28 (maximumf : (⟨S300000x1, .f32⟩ : BufTy).Contents (Elt F) → (⟨S300000x1, .f32⟩ : BufTy).Contents (Elt F) → (⟨S300000x1, .f32⟩ : BufTy).Contents (Elt F)),
    StableHlo.unary main_v28 main_v29 (broadcastInDim S300000x64 ![0, 1] bcast_S300000x1_S300000x64_0_1 : (⟨S300000x1, .f32⟩ : BufTy).Contents (Elt F) → (⟨S300000x64, .f32⟩ : BufTy).Contents (Elt F)),
    StableHlo.binary main_v22 main_v29 main_v30 (Host.divf : (⟨S300000x64, .f32⟩ : BufTy).Contents (Elt F) → (⟨S300000x64, .f32⟩ : BufTy).Contents (Elt F) → (⟨S300000x64, .f32⟩ : BufTy).Contents (Elt F)),
    StableHlo.unary main_arg8 main_v31 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v31 main_v32 rfl shapeCasts_S1x64x128_S64x128,
    StableHlo.binary main_v30 main_v32 main_v33 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    StableHlo.unary main_arg9 main_v34 ((extractStridedSlice S1x128 ![0, 0] · slices_S3x128_S1x128_0_0) : (⟨S3x128, .f32⟩ : BufTy).Contents (Elt F) → (⟨S1x128, .f32⟩ : BufTy).Contents (Elt F)),
    StableHlo.reshape main_v34 main_v35 rfl shapeCasts_S1x128_S128,
    StableHlo.unary main_v35 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S300000x128 ![0, 1] bcast_S1x128_S300000x128_0_1 : (⟨S1x128, .f32⟩ : BufTy).Contents (Elt F) → (⟨S300000x128, .f32⟩ : BufTy).Contents (Elt F)),
    StableHlo.binary main_v33 main_v37 main_v38 (addf : (⟨S300000x128, .f32⟩ : BufTy).Contents (Elt F) → (⟨S300000x128, .f32⟩ : BufTy).Contents (Elt F) → (⟨S300000x128, .f32⟩ : BufTy).Contents (Elt F)),
    StableHlo.unary main_arg10 main_v39 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v39 main_v40 rfl shapeCasts_S1x64x128_S64x128,
    StableHlo.binary main_arg0 main_v40 main_v41 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    StableHlo.binary main_v38 main_v41 main_v42 (addf : (⟨S300000x128, .f32⟩ : BufTy).Contents (Elt F) → (⟨S300000x128, .f32⟩ : BufTy).Contents (Elt F) → (⟨S300000x128, .f32⟩ : BufTy).Contents (Elt F)),
    StableHlo.TRef.binary (.of main_v42 : StableHlo.TRef sig ⟨S300000x128, .f32⟩) (.of main_v42 : StableHlo.TRef sig ⟨S300000x128, .f32⟩) main_call1.v0 mulf,
    StableHlo.TRef.nullary main_call1.cst (constant S_ .f32 0x00000000#32),
    StableHlo.TRef.binary main_call1.v0 main_call1.cst main_call1.v1 (fun x v => Host.reduceAdd x v reducesTo_S300000x128_S300000_d1 h_S_),
    StableHlo.TRef.unary main_call1.v1 main_call1.v2 (broadcastInDim S300000x1 ![0] bcast_S300000_S300000x1_0),
    StableHlo.TRef.unary main_call1.v2 main_call1.v3 Host.sqrt,
    StableHlo.nullary main_cst_4 (constant S_ .f32 0x2B8CBCCC#32),
    StableHlo.unary main_cst_4 main_v44 (broadcastInDim S300000x1 ![] bcast_S_S300000x1 : (⟨S_, .f32⟩ : BufTy).Contents (Elt F) → (⟨S300000x1, .f32⟩ : BufTy).Contents (Elt F)),
    StableHlo.binary main_v43 main_v44 main_v45 (maximumf : (⟨S300000x1, .f32⟩ : BufTy).Contents (Elt F) → (⟨S300000x1, .f32⟩ : BufTy).Contents (Elt F) → (⟨S300000x1, .f32⟩ : BufTy).Contents (Elt F)),
    StableHlo.unary main_v45 main_v46 (broadcastInDim S300000x128 ![0, 1] bcast_S300000x1_S300000x128_0_1 : (⟨S300000x1, .f32⟩ : BufTy).Contents (Elt F) → (⟨S300000x128, .f32⟩ : BufTy).Contents (Elt F)),
    StableHlo.binary main_v42 main_v46 main_v47 (Host.divf : (⟨S300000x128, .f32⟩ : BufTy).Contents (Elt F) → (⟨S300000x128, .f32⟩ : BufTy).Contents (Elt F) → (⟨S300000x128, .f32⟩ : BufTy).Contents (Elt F)) ]

abbrev opsA1 : List (HloOp τ sig (Elt F)) :=
  [ StableHlo.unary main_arg2 main_v48 ((extractStridedSlice S1x900000 ![0, 0] · slices_S2x900000_S1x900000_0_0) : (⟨S2x900000, .i32⟩ : BufTy).Contents (Elt F) → (⟨S1x900000, .i32⟩ : BufTy).Contents (Elt F)),
    StableHlo.reshape main_v48 main_v49 rfl shapeCasts_S1x900000_S900000,
    StableHlo.unary main_arg2 main_v50 ((extractStridedSlice S1x900000 ![1, 0] · slices_S2x900000_S1x900000_1_0) : (⟨S2x900000, .i32⟩ : BufTy).Contents (Elt F) → (⟨S1x900000, .i32⟩ : BufTy).Contents (Elt F)),
    StableHlo.reshape main_v50 main_v51 rfl shapeCasts_S1x900000_S900000,
    StableHlo.unary main_arg6 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v52 main_v53 rfl shapeCasts_S1x64x64_S64x64,
    StableHlo.binary main_arg0 main_v53 main_v54 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg7 main_v55 ((extractStridedSlice S1x64 ![1, 0] · slices_S3x64_S1x64_1_0) : (⟨S3x64, .f32⟩ : BufTy).Contents (Elt F) → (⟨S1x64, .f32⟩ : BufTy).Contents (Elt F)),
    StableHlo.reshape main_v55 main_v56 rfl shapeCasts_S1x64_S64,
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S300000x64 ![0, 1] bcast_S1x64_S300000x64_0_1 : (⟨S1x64, .f32⟩ : BufTy).Contents (Elt F) → (⟨S300000x64, .f32⟩ : BufTy).Contents (Elt F)),
    StableHlo.binary main_v54 main_v58 main_v59 (addf : (⟨S300000x64, .f32⟩ : BufTy).Contents (Elt F) → (⟨S300000x64, .f32⟩ : BufTy).Contents (Elt F) → (⟨S300000x64, .f32⟩ : BufTy).Contents (Elt F)),
    StableHlo.TRef.nullary main_call2.cst (constant S_ .f32 0x00000000#32),
    StableHlo.TRef.unary main_call2.cst main_call2.v0 (broadcastInDim S300000x64 ![] bcast_S_S300000x64),
    StableHlo.TRef.binary (.of main_v59 : StableHlo.TRef sig ⟨S300000x64, .f32⟩) main_call2.v0 main_call2.v1 maximumf,
    StableHlo.nullary main_c_5 (constantI S_ 32 0#32),
    StableHlo.unary main_c_5 main_v61 (broadcastInDim S900000 ![] bcast_S_S900000 : (⟨S_, .i32⟩ : BufTy).Contents (Elt F) → (⟨S900000, .i32⟩ : BufTy).Contents (Elt F)),
    StableHlo.binary main_v49 main_v61 main_v62 (cmpi .slt : (⟨S900000, .i32⟩ : BufTy).Contents (Elt F) → (⟨S900000, .i32⟩ : BufTy).Contents (Elt F) → (⟨S900000, .i1⟩ : BufTy).Contents (Elt F)),
    StableHlo.nullary main_c_6 (constantI S_ 32 300000#32),
    StableHlo.unary main_c_6 main_v63 (broadcastInDim S900000 ![] bcast_S_S900000 : (⟨S_, .i32⟩ : BufTy).Contents (Elt F) → (⟨S900000, .i32⟩ : BufTy).Contents (Elt F)),
    StableHlo.binary main_v49 main_v63 main_v64 (addi : (⟨S900000, .i32⟩ : BufTy).Contents (Elt F) → (⟨S900000, .i32⟩ : BufTy).Contents (Elt F) → (⟨S900000, .i32⟩ : BufTy).Contents (Elt F)),
    StableHlo.ternary main_v62 main_v64 main_v49 main_v65 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v65 main_v66 (broadcastInDim S900000x1 ![0] bcast_S900000_S900000x1_0 : (⟨S900000, .i32⟩ : BufTy).Contents (Elt F) → (⟨S900000x1, .i32⟩ : BufTy).Contents (Elt F)),
    StableHlo.binary main_v60 main_v66 main_v67 ((fun x i => Host.gather gather_S300000x64_S900000x1_S900000x64_1_0_n_n_0_1_164 x i) : (⟨S300000x64, .f32⟩ : BufTy).Contents (Elt F) → (⟨S900000x1, .i32⟩ : BufTy).Contents (Elt F) → (⟨S900000x64, .f32⟩ : BufTy).Contents (Elt F)),
    StableHlo.nullary main_cst_7 (constant S_ .f32 0x00000000#32),
    StableHlo.unary main_cst_7 main_v68 (broadcastInDim S300000x64 ![] bcast_S_S300000x64 : (⟨S_, .f32⟩ : BufTy).Contents (Elt F) → (⟨S300000x64, .f32⟩ : BufTy).Contents (Elt F)),
    StableHlo.unary main_v51 main_v69 (broadcastInDim S900000x1 ![0] bcast_S900000_S900000x1_0 : (⟨S900000, .i32⟩ : BufTy).Contents (Elt F) → (⟨S900000x1, .i32⟩ : BufTy).Contents (Elt F)),
    StableHlo.ternary main_v68 main_v69 main_v67 main_v70 ((fun x i u => Host.scatterAdd scatter_S300000x64_S900000x1_S900000x64_1_0_0_1 x i u) : (⟨S300000x64, .f32⟩ : BufTy).Contents (Elt F) → (⟨S900000x1, .i32⟩ : BufTy).Contents (Elt F) → (⟨S900000x64, .f32⟩ : BufTy).Contents (Elt F) → (⟨S300000x64, .f32⟩ : BufTy).Contents (Elt F)),
    StableHlo.nullary main_cst_8 (constant S_ .f32 0x3F800000#32),
    StableHlo.unary main_cst_8 main_v71 (broadcastInDim S900000x1 ![] bcast_S_S900000x1 : (⟨S_, .f32⟩ : BufTy).Contents (Elt F) → (⟨S900000x1, .f32⟩ : BufTy).Contents (Elt F)),
    StableHlo.nullary main_cst_9 (constant S_ .f32 0x00000000#32),
    StableHlo.unary main_cst_9 main_v72 (broadcastInDim S300000x1 ![] bcast_S_S300000x1 : (⟨S_, .f32⟩ : BufTy).Contents (Elt F) → (⟨S300000x1, .f32⟩ : BufTy).Contents (Elt F)),
    StableHlo.unary main_v51 main_v73 (broadcastInDim S900000x1 ![0] bcast_S900000_S900000x1_0 : (⟨S900000, .i32⟩ : BufTy).Contents (Elt F) → (⟨S900000x1, .i32⟩ : BufTy).Contents (Elt F)),
    StableHlo.ternary main_v72 main_v73 main_v71 main_v74 ((fun x i u => Host.scatterAdd scatter_S300000x1_S900000x1_S900000x1_1_0_0_1 x i u) : (⟨S300000x1, .f32⟩ : BufTy).Contents (Elt F) → (⟨S900000x1, .i32⟩ : BufTy).Contents (Elt F) → (⟨S900000x1, .f32⟩ : BufTy).Contents (Elt F) → (⟨S300000x1, .f32⟩ : BufTy).Contents (Elt F)),
    StableHlo.nullary main_cst_10 (constant S_ .f32 0x3F800000#32),
    StableHlo.unary main_cst_10 main_v75 (broadcastInDim S300000x1 ![] bcast_S_S300000x1 : (⟨S_, .f32⟩ : BufTy).Contents (Elt F) → (⟨S300000x1, .f32⟩ : BufTy).Contents (Elt F)),
    StableHlo.binary main_v74 main_v75 main_v76 (maximumf : (⟨S300000x1, .f32⟩ : BufTy).Contents (Elt F) → (⟨S300000x1, .f32⟩ : BufTy).Contents (Elt F) → (⟨S300000x1, .f32⟩ : BufTy).Contents (Elt F)),
    StableHlo.unary main_v76 main_v77 (broadcastInDim S300000x64 ![0, 1] bcast_S300000x1_S300000x64_0_1 : (⟨S300000x1, .f32⟩ : BufTy).Contents (Elt F) → (⟨S300000x64, .f32⟩ : BufTy).Contents (Elt F)),
    StableHlo.binary main_v70 main_v77 main_v78 (Host.divf : (⟨S300000x64, .f32⟩ : BufTy).Contents (Elt F) → (⟨S300000x64, .f32⟩ : BufTy).Contents (Elt F) → (⟨S300000x64, .f32⟩ : BufTy).Contents (Elt F)),
    StableHlo.unary main_arg8 main_v79 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v79 main_v80 rfl shapeCasts_S1x64x128_S64x128,
    StableHlo.binary main_v78 main_v80 main_v81 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    StableHlo.unary main_arg9 main_v82 ((extractStridedSlice S1x128 ![1, 0] · slices_S3x128_S1x128_1_0) : (⟨S3x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S300000x128 ![0, 1] bcast_S1x128_S300000x128_0_1 : (⟨S1x128, .f32⟩ : BufTy).Contents (Elt F) → (⟨S300000x128, .f32⟩ : BufTy).Contents (Elt F)),
    StableHlo.binary main_v81 main_v85 main_v86 (addf : (⟨S300000x128, .f32⟩ : BufTy).Contents (Elt F) → (⟨S300000x128, .f32⟩ : BufTy).Contents (Elt F) → (⟨S300000x128, .f32⟩ : BufTy).Contents (Elt F)),
    StableHlo.unary main_arg10 main_v87 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v87 main_v88 rfl shapeCasts_S1x64x128_S64x128,
    StableHlo.binary main_arg0 main_v88 main_v89 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    StableHlo.binary main_v86 main_v89 main_v90 (addf : (⟨S300000x128, .f32⟩ : BufTy).Contents (Elt F) → (⟨S300000x128, .f32⟩ : BufTy).Contents (Elt F) → (⟨S300000x128, .f32⟩ : BufTy).Contents (Elt F)),
    StableHlo.TRef.binary (.of main_v90 : StableHlo.TRef sig ⟨S300000x128, .f32⟩) (.of main_v90 : StableHlo.TRef sig ⟨S300000x128, .f32⟩) main_call3.v0 mulf,
    StableHlo.TRef.nullary main_call3.cst (constant S_ .f32 0x00000000#32),
    StableHlo.TRef.binary main_call3.v0 main_call3.cst main_call3.v1 (fun x v => Host.reduceAdd x v reducesTo_S300000x128_S300000_d1 h_S_),
    StableHlo.TRef.unary main_call3.v1 main_call3.v2 (broadcastInDim S300000x1 ![0] bcast_S300000_S300000x1_0),
    StableHlo.TRef.unary main_call3.v2 main_call3.v3 Host.sqrt,
    StableHlo.nullary main_cst_11 (constant S_ .f32 0x2B8CBCCC#32),
    StableHlo.unary main_cst_11 main_v92 (broadcastInDim S300000x1 ![] bcast_S_S300000x1 : (⟨S_, .f32⟩ : BufTy).Contents (Elt F) → (⟨S300000x1, .f32⟩ : BufTy).Contents (Elt F)),
    StableHlo.binary main_v91 main_v92 main_v93 (maximumf : (⟨S300000x1, .f32⟩ : BufTy).Contents (Elt F) → (⟨S300000x1, .f32⟩ : BufTy).Contents (Elt F) → (⟨S300000x1, .f32⟩ : BufTy).Contents (Elt F)),
    StableHlo.unary main_v93 main_v94 (broadcastInDim S300000x128 ![0, 1] bcast_S300000x1_S300000x128_0_1 : (⟨S300000x1, .f32⟩ : BufTy).Contents (Elt F) → (⟨S300000x128, .f32⟩ : BufTy).Contents (Elt F)),
    StableHlo.binary main_v90 main_v94 main_v95 (Host.divf : (⟨S300000x128, .f32⟩ : BufTy).Contents (Elt F) → (⟨S300000x128, .f32⟩ : BufTy).Contents (Elt F) → (⟨S300000x128, .f32⟩ : BufTy).Contents (Elt F)) ]

abbrev opsA2 : List (HloOp τ sig (Elt F)) :=
  [ StableHlo.unary main_arg3 main_v96 ((extractStridedSlice S1x900000 ![0, 0] · slices_S2x900000_S1x900000_0_0) : (⟨S2x900000, .i32⟩ : BufTy).Contents (Elt F) → (⟨S1x900000, .i32⟩ : BufTy).Contents (Elt F)),
    StableHlo.reshape main_v96 main_v97 rfl shapeCasts_S1x900000_S900000,
    StableHlo.unary main_arg3 main_v98 ((extractStridedSlice S1x900000 ![1, 0] · slices_S2x900000_S1x900000_1_0) : (⟨S2x900000, .i32⟩ : BufTy).Contents (Elt F) → (⟨S1x900000, .i32⟩ : BufTy).Contents (Elt F)),
    StableHlo.reshape main_v98 main_v99 rfl shapeCasts_S1x900000_S900000,
    StableHlo.unary main_arg6 main_v100 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v100 main_v101 rfl shapeCasts_S1x64x64_S64x64,
    StableHlo.binary main_arg0 main_v101 main_v102 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg7 main_v103 ((extractStridedSlice S1x64 ![2, 0] · slices_S3x64_S1x64_2_0) : (⟨S3x64, .f32⟩ : BufTy).Contents (Elt F) → (⟨S1x64, .f32⟩ : BufTy).Contents (Elt F)),
    StableHlo.reshape main_v103 main_v104 rfl shapeCasts_S1x64_S64,
    StableHlo.unary main_v104 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S300000x64 ![0, 1] bcast_S1x64_S300000x64_0_1 : (⟨S1x64, .f32⟩ : BufTy).Contents (Elt F) → (⟨S300000x64, .f32⟩ : BufTy).Contents (Elt F)),
    StableHlo.binary main_v102 main_v106 main_v107 (addf : (⟨S300000x64, .f32⟩ : BufTy).Contents (Elt F) → (⟨S300000x64, .f32⟩ : BufTy).Contents (Elt F) → (⟨S300000x64, .f32⟩ : BufTy).Contents (Elt F)),
    StableHlo.TRef.nullary main_call4.cst (constant S_ .f32 0x00000000#32),
    StableHlo.TRef.unary main_call4.cst main_call4.v0 (broadcastInDim S300000x64 ![] bcast_S_S300000x64),
    StableHlo.TRef.binary (.of main_v107 : StableHlo.TRef sig ⟨S300000x64, .f32⟩) main_call4.v0 main_call4.v1 maximumf,
    StableHlo.nullary main_c_12 (constantI S_ 32 0#32),
    StableHlo.unary main_c_12 main_v109 (broadcastInDim S900000 ![] bcast_S_S900000 : (⟨S_, .i32⟩ : BufTy).Contents (Elt F) → (⟨S900000, .i32⟩ : BufTy).Contents (Elt F)),
    StableHlo.binary main_v97 main_v109 main_v110 (cmpi .slt : (⟨S900000, .i32⟩ : BufTy).Contents (Elt F) → (⟨S900000, .i32⟩ : BufTy).Contents (Elt F) → (⟨S900000, .i1⟩ : BufTy).Contents (Elt F)),
    StableHlo.nullary main_c_13 (constantI S_ 32 300000#32),
    StableHlo.unary main_c_13 main_v111 (broadcastInDim S900000 ![] bcast_S_S900000 : (⟨S_, .i32⟩ : BufTy).Contents (Elt F) → (⟨S900000, .i32⟩ : BufTy).Contents (Elt F)),
    StableHlo.binary main_v97 main_v111 main_v112 (addi : (⟨S900000, .i32⟩ : BufTy).Contents (Elt F) → (⟨S900000, .i32⟩ : BufTy).Contents (Elt F) → (⟨S900000, .i32⟩ : BufTy).Contents (Elt F)),
    StableHlo.ternary main_v110 main_v112 main_v97 main_v113 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v113 main_v114 (broadcastInDim S900000x1 ![0] bcast_S900000_S900000x1_0 : (⟨S900000, .i32⟩ : BufTy).Contents (Elt F) → (⟨S900000x1, .i32⟩ : BufTy).Contents (Elt F)),
    StableHlo.binary main_v108 main_v114 main_v115 ((fun x i => Host.gather gather_S300000x64_S900000x1_S900000x64_1_0_n_n_0_1_164 x i) : (⟨S300000x64, .f32⟩ : BufTy).Contents (Elt F) → (⟨S900000x1, .i32⟩ : BufTy).Contents (Elt F) → (⟨S900000x64, .f32⟩ : BufTy).Contents (Elt F)),
    StableHlo.nullary main_cst_14 (constant S_ .f32 0x00000000#32),
    StableHlo.unary main_cst_14 main_v116 (broadcastInDim S300000x64 ![] bcast_S_S300000x64 : (⟨S_, .f32⟩ : BufTy).Contents (Elt F) → (⟨S300000x64, .f32⟩ : BufTy).Contents (Elt F)),
    StableHlo.unary main_v99 main_v117 (broadcastInDim S900000x1 ![0] bcast_S900000_S900000x1_0 : (⟨S900000, .i32⟩ : BufTy).Contents (Elt F) → (⟨S900000x1, .i32⟩ : BufTy).Contents (Elt F)),
    StableHlo.ternary main_v116 main_v117 main_v115 main_v118 ((fun x i u => Host.scatterAdd scatter_S300000x64_S900000x1_S900000x64_1_0_0_1 x i u) : (⟨S300000x64, .f32⟩ : BufTy).Contents (Elt F) → (⟨S900000x1, .i32⟩ : BufTy).Contents (Elt F) → (⟨S900000x64, .f32⟩ : BufTy).Contents (Elt F) → (⟨S300000x64, .f32⟩ : BufTy).Contents (Elt F)),
    StableHlo.nullary main_cst_15 (constant S_ .f32 0x3F800000#32),
    StableHlo.unary main_cst_15 main_v119 (broadcastInDim S900000x1 ![] bcast_S_S900000x1 : (⟨S_, .f32⟩ : BufTy).Contents (Elt F) → (⟨S900000x1, .f32⟩ : BufTy).Contents (Elt F)),
    StableHlo.nullary main_cst_16 (constant S_ .f32 0x00000000#32),
    StableHlo.unary main_cst_16 main_v120 (broadcastInDim S300000x1 ![] bcast_S_S300000x1 : (⟨S_, .f32⟩ : BufTy).Contents (Elt F) → (⟨S300000x1, .f32⟩ : BufTy).Contents (Elt F)),
    StableHlo.unary main_v99 main_v121 (broadcastInDim S900000x1 ![0] bcast_S900000_S900000x1_0 : (⟨S900000, .i32⟩ : BufTy).Contents (Elt F) → (⟨S900000x1, .i32⟩ : BufTy).Contents (Elt F)),
    StableHlo.ternary main_v120 main_v121 main_v119 main_v122 ((fun x i u => Host.scatterAdd scatter_S300000x1_S900000x1_S900000x1_1_0_0_1 x i u) : (⟨S300000x1, .f32⟩ : BufTy).Contents (Elt F) → (⟨S900000x1, .i32⟩ : BufTy).Contents (Elt F) → (⟨S900000x1, .f32⟩ : BufTy).Contents (Elt F) → (⟨S300000x1, .f32⟩ : BufTy).Contents (Elt F)),
    StableHlo.nullary main_cst_17 (constant S_ .f32 0x3F800000#32),
    StableHlo.unary main_cst_17 main_v123 (broadcastInDim S300000x1 ![] bcast_S_S300000x1 : (⟨S_, .f32⟩ : BufTy).Contents (Elt F) → (⟨S300000x1, .f32⟩ : BufTy).Contents (Elt F)),
    StableHlo.binary main_v122 main_v123 main_v124 (maximumf : (⟨S300000x1, .f32⟩ : BufTy).Contents (Elt F) → (⟨S300000x1, .f32⟩ : BufTy).Contents (Elt F) → (⟨S300000x1, .f32⟩ : BufTy).Contents (Elt F)),
    StableHlo.unary main_v124 main_v125 (broadcastInDim S300000x64 ![0, 1] bcast_S300000x1_S300000x64_0_1 : (⟨S300000x1, .f32⟩ : BufTy).Contents (Elt F) → (⟨S300000x64, .f32⟩ : BufTy).Contents (Elt F)),
    StableHlo.binary main_v118 main_v125 main_v126 (Host.divf : (⟨S300000x64, .f32⟩ : BufTy).Contents (Elt F) → (⟨S300000x64, .f32⟩ : BufTy).Contents (Elt F) → (⟨S300000x64, .f32⟩ : BufTy).Contents (Elt F)),
    StableHlo.unary main_arg8 main_v127 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v127 main_v128 rfl shapeCasts_S1x64x128_S64x128,
    StableHlo.binary main_v126 main_v128 main_v129 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    StableHlo.unary main_arg9 main_v130 ((extractStridedSlice S1x128 ![2, 0] · slices_S3x128_S1x128_2_0) : (⟨S3x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S300000x128 ![0, 1] bcast_S1x128_S300000x128_0_1 : (⟨S1x128, .f32⟩ : BufTy).Contents (Elt F) → (⟨S300000x128, .f32⟩ : BufTy).Contents (Elt F)),
    StableHlo.binary main_v129 main_v133 main_v134 (addf : (⟨S300000x128, .f32⟩ : BufTy).Contents (Elt F) → (⟨S300000x128, .f32⟩ : BufTy).Contents (Elt F) → (⟨S300000x128, .f32⟩ : BufTy).Contents (Elt F)),
    StableHlo.unary main_arg10 main_v135 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v135 main_v136 rfl shapeCasts_S1x64x128_S64x128,
    StableHlo.binary main_arg0 main_v136 main_v137 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    StableHlo.binary main_v134 main_v137 main_v138 (addf : (⟨S300000x128, .f32⟩ : BufTy).Contents (Elt F) → (⟨S300000x128, .f32⟩ : BufTy).Contents (Elt F) → (⟨S300000x128, .f32⟩ : BufTy).Contents (Elt F)),
    StableHlo.TRef.binary (.of main_v138 : StableHlo.TRef sig ⟨S300000x128, .f32⟩) (.of main_v138 : StableHlo.TRef sig ⟨S300000x128, .f32⟩) main_call5.v0 mulf,
    StableHlo.TRef.nullary main_call5.cst (constant S_ .f32 0x00000000#32),
    StableHlo.TRef.binary main_call5.v0 main_call5.cst main_call5.v1 (fun x v => Host.reduceAdd x v reducesTo_S300000x128_S300000_d1 h_S_),
    StableHlo.TRef.unary main_call5.v1 main_call5.v2 (broadcastInDim S300000x1 ![0] bcast_S300000_S300000x1_0),
    StableHlo.TRef.unary main_call5.v2 main_call5.v3 Host.sqrt,
    StableHlo.nullary main_cst_18 (constant S_ .f32 0x2B8CBCCC#32),
    StableHlo.unary main_cst_18 main_v140 (broadcastInDim S300000x1 ![] bcast_S_S300000x1 : (⟨S_, .f32⟩ : BufTy).Contents (Elt F) → (⟨S300000x1, .f32⟩ : BufTy).Contents (Elt F)),
    StableHlo.binary main_v139 main_v140 main_v141 (maximumf : (⟨S300000x1, .f32⟩ : BufTy).Contents (Elt F) → (⟨S300000x1, .f32⟩ : BufTy).Contents (Elt F) → (⟨S300000x1, .f32⟩ : BufTy).Contents (Elt F)),
    StableHlo.unary main_v141 main_v142 (broadcastInDim S300000x128 ![0, 1] bcast_S300000x1_S300000x128_0_1 : (⟨S300000x1, .f32⟩ : BufTy).Contents (Elt F) → (⟨S300000x128, .f32⟩ : BufTy).Contents (Elt F)),
    StableHlo.binary main_v138 main_v142 main_v143 (Host.divf : (⟨S300000x128, .f32⟩ : BufTy).Contents (Elt F) → (⟨S300000x128, .f32⟩ : BufTy).Contents (Elt F) → (⟨S300000x128, .f32⟩ : BufTy).Contents (Elt F)) ]

abbrev opsB : List (HloOp τ sig (Elt F)) :=
  [ StableHlo.unary main_v47 main_v144 (broadcastInDim S1x300000x128 ![1, 2] bcast_S300000x128_S1x300000x128_1_2 : (⟨S300000x128, .f32⟩ : BufTy).Contents (Elt F) → (⟨S1x300000x128, .f32⟩ : BufTy).Contents (Elt F)),
    StableHlo.unary main_v95 main_v145 (broadcastInDim S1x300000x128 ![1, 2] bcast_S300000x128_S1x300000x128_1_2 : (⟨S300000x128, .f32⟩ : BufTy).Contents (Elt F) → (⟨S1x300000x128, .f32⟩ : BufTy).Contents (Elt F)),
    StableHlo.unary main_v143 main_v146 (broadcastInDim S1x300000x128 ![1, 2] bcast_S300000x128_S1x300000x128_1_2 : (⟨S300000x128, .f32⟩ : BufTy).Contents (Elt F) → (⟨S1x300000x128, .f32⟩ : BufTy).Contents (Elt F)),
    StableHlo.nary ![main_v144, main_v145, main_v146] main_v147 (fun u => concatenate S3x300000x128 0 [⟨S1x300000x128, u 0⟩, ⟨S1x300000x128, u 1⟩, ⟨S1x300000x128, u 2⟩] concatenates_S1x300000x128_S1x300000x128_S1x300000x128_S3x300000x128_d0),
    StableHlo.nullary main_cst_19 (constant S_ .f32 0x00000000#32),
    StableHlo.binary main_v147 main_cst_19 main_v148 ((fun x v => Host.reduceAdd x v reducesTo_S3x300000x128_S300000x128_d0 h_S_) : (⟨S3x300000x128, .f32⟩ : BufTy).Contents (Elt F) → (⟨S_, .f32⟩ : BufTy).Contents (Elt F) → (⟨S300000x128, .f32⟩ : BufTy).Contents (Elt F)),
    StableHlo.nullary main_cst_20 (constant S_ .f32 0x40400000#32),
    StableHlo.unary main_cst_20 main_v149 (broadcastInDim S300000x128 ![] bcast_S_S300000x128 : (⟨S_, .f32⟩ : BufTy).Contents (Elt F) → (⟨S300000x128, .f32⟩ : BufTy).Contents (Elt F)),
    StableHlo.binary main_v148 main_v149 main_v150 (Host.divf : (⟨S300000x128, .f32⟩ : BufTy).Contents (Elt F) → (⟨S300000x128, .f32⟩ : BufTy).Contents (Elt F) → (⟨S300000x128, .f32⟩ : BufTy).Contents (Elt F)),
    StableHlo.TRef.nullary main_call6.cst (constant S_ .f32 0x00000000#32),
    StableHlo.TRef.unary main_call6.cst main_call6.v0 (broadcastInDim S300000x128 ![] bcast_S_S300000x128),
    StableHlo.TRef.binary (.of main_v150 : StableHlo.TRef sig ⟨S300000x128, .f32⟩) main_call6.v0 main_call6.v1 maximumf,
    StableHlo.nullary main_cst_21 (constant S_ .f32 0x00000000#32),
    StableHlo.binary main_v151 main_cst_21 main_v152 ((fun x v => Host.reduceAdd x v reducesTo_S300000x128_S300000_d1 h_S_) : (⟨S300000x128, .f32⟩ : BufTy).Contents (Elt F) → (⟨S_, .f32⟩ : BufTy).Contents (Elt F) → (⟨S300000, .f32⟩ : BufTy).Contents (Elt F)),
    StableHlo.unary main_v152 main_v153 (broadcastInDim S300000x1 ![0] bcast_S300000_S300000x1_0 : (⟨S300000, .f32⟩ : BufTy).Contents (Elt F) → (⟨S300000x1, .f32⟩ : BufTy).Contents (Elt F)),
    StableHlo.nullary main_cst_22 (constant S_ .f32 0x43000000#32),
    StableHlo.unary main_cst_22 main_v154 (broadcastInDim S300000x1 ![] bcast_S_S300000x1 : (⟨S_, .f32⟩ : BufTy).Contents (Elt F) → (⟨S300000x1, .f32⟩ : BufTy).Contents (Elt F)),
    StableHlo.binary main_v153 main_v154 main_v155 (Host.divf : (⟨S300000x1, .f32⟩ : BufTy).Contents (Elt F) → (⟨S300000x1, .f32⟩ : BufTy).Contents (Elt F) → (⟨S300000x1, .f32⟩ : BufTy).Contents (Elt F)),
    StableHlo.nullary main_c_23 (constantI S_ 32 0#32),
    StableHlo.TRef.nullary main_call7.cst (constant S_ .f32 0x00000000#32),
    StableHlo.TRef.binary (.of main_v151 : StableHlo.TRef sig ⟨S300000x128, .f32⟩) main_call7.cst main_call7.v0 (fun x v => Host.reduceAdd x v reducesTo_S300000x128_S300000_d1 h_S_),
    StableHlo.TRef.unary main_call7.v0 main_call7.v1 (broadcastInDim S300000x1 ![0] bcast_S300000_S300000x1_0),
    StableHlo.TRef.nullary main_call7.cst_0 (constant S_ .f32 0x43000000#32),
    StableHlo.TRef.unary main_call7.cst_0 main_call7.v2 (broadcastInDim S300000x1 ![] bcast_S_S300000x1),
    StableHlo.TRef.binary main_call7.v1 main_call7.v2 main_call7.v3 Host.divf,
    StableHlo.TRef.unary main_call7.v3 main_call7.v4 (broadcastInDim S300000x128 ![0, 1] bcast_S300000x1_S300000x128_0_1),
    StableHlo.TRef.binary (.of main_v151 : StableHlo.TRef sig ⟨S300000x128, .f32⟩) main_call7.v4 main_call7.v5 subf,
    StableHlo.TRef.binary main_call7.v5 main_call7.v5 main_call7.v6 mulf,
    StableHlo.TRef.unary (.of main_c_23 : StableHlo.TRef sig ⟨S_, .i32⟩) main_call7.v7 (sitofp .f32),
    StableHlo.TRef.nullary main_call7.cst_1 (constant S_ .f32 0x43000000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S300000x128_S300000_d1 h_S_),
    StableHlo.TRef.unary main_call7.v9 main_call7.v10 (broadcastInDim S300000x1 ![0] bcast_S300000_S300000x1_0),
    StableHlo.TRef.unary main_call7.v8 main_call7.v11 (broadcastInDim S300000x1 ![] bcast_S_S300000x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S300000x1 ![] bcast_S_S300000x1),
    StableHlo.TRef.ternary main_call7.v13 main_call7.v12 main_call7.call0.v1 main_call7.call0.v2 (fun p a b => select (broadcastInDim S300000x1 ![] bcast_S_S300000x1 p) a b),
    StableHlo.unary main_v155 main_v157 (broadcastInDim S300000x128 ![0, 1] bcast_S300000x1_S300000x128_0_1 : (⟨S300000x1, .f32⟩ : BufTy).Contents (Elt F) → (⟨S300000x128, .f32⟩ : BufTy).Contents (Elt F)),
    StableHlo.binary main_v151 main_v157 main_v158 (subf : (⟨S300000x128, .f32⟩ : BufTy).Contents (Elt F) → (⟨S300000x128, .f32⟩ : BufTy).Contents (Elt F) → (⟨S300000x128, .f32⟩ : BufTy).Contents (Elt F)),
    StableHlo.nullary main_cst_24 (constant S_ .f32 0x3727C5AC#32),
    StableHlo.unary main_cst_24 main_v159 (broadcastInDim S300000x1 ![] bcast_S_S300000x1 : (⟨S_, .f32⟩ : BufTy).Contents (Elt F) → (⟨S300000x1, .f32⟩ : BufTy).Contents (Elt F)),
    StableHlo.binary main_v156 main_v159 main_v160 (addf : (⟨S300000x1, .f32⟩ : BufTy).Contents (Elt F) → (⟨S300000x1, .f32⟩ : BufTy).Contents (Elt F) → (⟨S300000x1, .f32⟩ : BufTy).Contents (Elt F)),
    StableHlo.unary main_v160 main_v161 (Host.rsqrt : (⟨S300000x1, .f32⟩ : BufTy).Contents (Elt F) → (⟨S300000x1, .f32⟩ : BufTy).Contents (Elt F)),
    StableHlo.unary main_v161 main_v162 (broadcastInDim S300000x128 ![0, 1] bcast_S300000x1_S300000x128_0_1 : (⟨S300000x1, .f32⟩ : BufTy).Contents (Elt F) → (⟨S300000x128, .f32⟩ : BufTy).Contents (Elt F)),
    StableHlo.binary main_v158 main_v162 main_v163 (mulf : (⟨S300000x128, .f32⟩ : BufTy).Contents (Elt F) → (⟨S300000x128, .f32⟩ : BufTy).Contents (Elt F) → (⟨S300000x128, .f32⟩ : BufTy).Contents (Elt F)),
    StableHlo.unary main_arg14 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S300000x128 ![0, 1] bcast_S1x128_S300000x128_0_1 : (⟨S1x128, .f32⟩ : BufTy).Contents (Elt F) → (⟨S300000x128, .f32⟩ : BufTy).Contents (Elt F)),
    StableHlo.binary main_v163 main_v165 main_v166 (mulf : (⟨S300000x128, .f32⟩ : BufTy).Contents (Elt F) → (⟨S300000x128, .f32⟩ : BufTy).Contents (Elt F) → (⟨S300000x128, .f32⟩ : BufTy).Contents (Elt F)),
    StableHlo.unary main_arg15 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S300000x128 ![0, 1] bcast_S1x128_S300000x128_0_1 : (⟨S1x128, .f32⟩ : BufTy).Contents (Elt F) → (⟨S300000x128, .f32⟩ : BufTy).Contents (Elt F)),
    StableHlo.binary main_v166 main_v168 main_v169 (addf : (⟨S300000x128, .f32⟩ : BufTy).Contents (Elt F) → (⟨S300000x128, .f32⟩ : BufTy).Contents (Elt F) → (⟨S300000x128, .f32⟩ : BufTy).Contents (Elt F)),
    StableHlo.unary main_v169 main_v170 ((extractStridedSlice S150000x128 ![0, 0] · slices_S300000x128_S150000x128_0_0) : (⟨S300000x128, .f32⟩ : BufTy).Contents (Elt F) → (⟨S150000x128, .f32⟩ : BufTy).Contents (Elt F)) ]

abbrev opsC0 : List (HloOp τ sig (Elt F)) :=
  [ StableHlo.unary main_arg1 main_v171 ((extractStridedSlice S1x300000 ![0, 0] · slices_S2x900000_S1x300000_0_0) : (⟨S2x900000, .i32⟩ : BufTy).Contents (Elt F) → (⟨S1x300000, .i32⟩ : BufTy).Contents (Elt F)),
    StableHlo.reshape main_v171 main_v172 rfl shapeCasts_S1x300000_S300000,
    StableHlo.unary main_arg1 main_v173 ((extractStridedSlice S1x300000 ![1, 0] · slices_S2x900000_S1x300000_1_0) : (⟨S2x900000, .i32⟩ : BufTy).Contents (Elt F) → (⟨S1x300000, .i32⟩ : BufTy).Contents (Elt F)),
    StableHlo.reshape main_v173 main_v174 rfl shapeCasts_S1x300000_S300000,
    StableHlo.nullary main_c_25 (constantI S_ 32 0#32),
    StableHlo.unary main_c_25 main_v175 (broadcastInDim S300000 ![] bcast_S_S300000 : (⟨S_, .i32⟩ : BufTy).Contents (Elt F) → (⟨S300000, .i32⟩ : BufTy).Contents (Elt F)),
    StableHlo.binary main_v172 main_v175 main_v176 (cmpi .slt : (⟨S300000, .i32⟩ : BufTy).Contents (Elt F) → (⟨S300000, .i32⟩ : BufTy).Contents (Elt F) → (⟨S300000, .i1⟩ : BufTy).Contents (Elt F)),
    StableHlo.nullary main_c_26 (constantI S_ 32 150000#32),
    StableHlo.unary main_c_26 main_v177 (broadcastInDim S300000 ![] bcast_S_S300000 : (⟨S_, .i32⟩ : BufTy).Contents (Elt F) → (⟨S300000, .i32⟩ : BufTy).Contents (Elt F)),
    StableHlo.binary main_v172 main_v177 main_v178 (addi : (⟨S300000, .i32⟩ : BufTy).Contents (Elt F) → (⟨S300000, .i32⟩ : BufTy).Contents (Elt F) → (⟨S300000, .i32⟩ : BufTy).Contents (Elt F)),
    StableHlo.ternary main_v176 main_v178 main_v172 main_v179 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v179 main_v180 (broadcastInDim S300000x1 ![0] bcast_S300000_S300000x1_0 : (⟨S300000, .i32⟩ : BufTy).Contents (Elt F) → (⟨S300000x1, .i32⟩ : BufTy).Contents (Elt F)),
    StableHlo.binary main_v170 main_v180 main_v181 ((fun x i => Host.gather gather_S150000x128_S300000x1_S300000x128_1_0_n_n_0_1_1128 x i) : (⟨S150000x128, .f32⟩ : BufTy).Contents (Elt F) → (⟨S300000x1, .i32⟩ : BufTy).Contents (Elt F) → (⟨S300000x128, .f32⟩ : BufTy).Contents (Elt F)),
    StableHlo.nullary main_cst_27 (constant S_ .f32 0x00000000#32),
    StableHlo.unary main_cst_27 main_v182 (broadcastInDim S150000x128 ![] bcast_S_S150000x128 : (⟨S_, .f32⟩ : BufTy).Contents (Elt F) → (⟨S150000x128, .f32⟩ : BufTy).Contents (Elt F)),
    StableHlo.unary main_v174 main_v183 (broadcastInDim S300000x1 ![0] bcast_S300000_S300000x1_0 : (⟨S300000, .i32⟩ : BufTy).Contents (Elt F) → (⟨S300000x1, .i32⟩ : BufTy).Contents (Elt F)),
    StableHlo.ternary main_v182 main_v183 main_v181 main_v184 ((fun x i u => Host.scatterAdd scatter_S150000x128_S300000x1_S300000x128_1_0_0_1 x i u) : (⟨S150000x128, .f32⟩ : BufTy).Contents (Elt F) → (⟨S300000x1, .i32⟩ : BufTy).Contents (Elt F) → (⟨S300000x128, .f32⟩ : BufTy).Contents (Elt F) → (⟨S150000x128, .f32⟩ : BufTy).Contents (Elt F)),
    StableHlo.nullary main_cst_28 (constant S_ .f32 0x3F800000#32),
    StableHlo.unary main_cst_28 main_v185 (broadcastInDim S300000x1 ![] bcast_S_S300000x1 : (⟨S_, .f32⟩ : BufTy).Contents (Elt F) → (⟨S300000x1, .f32⟩ : BufTy).Contents (Elt F)),
    StableHlo.nullary main_cst_29 (constant S_ .f32 0x00000000#32),
    StableHlo.unary main_cst_29 main_v186 (broadcastInDim S150000x1 ![] bcast_S_S150000x1 : (⟨S_, .f32⟩ : BufTy).Contents (Elt F) → (⟨S150000x1, .f32⟩ : BufTy).Contents (Elt F)),
    StableHlo.unary main_v174 main_v187 (broadcastInDim S300000x1 ![0] bcast_S300000_S300000x1_0 : (⟨S300000, .i32⟩ : BufTy).Contents (Elt F) → (⟨S300000x1, .i32⟩ : BufTy).Contents (Elt F)),
    StableHlo.ternary main_v186 main_v187 main_v185 main_v188 ((fun x i u => Host.scatterAdd scatter_S150000x1_S300000x1_S300000x1_1_0_0_1 x i u) : (⟨S150000x1, .f32⟩ : BufTy).Contents (Elt F) → (⟨S300000x1, .i32⟩ : BufTy).Contents (Elt F) → (⟨S300000x1, .f32⟩ : BufTy).Contents (Elt F) → (⟨S150000x1, .f32⟩ : BufTy).Contents (Elt F)),
    StableHlo.nullary main_cst_30 (constant S_ .f32 0x3F800000#32),
    StableHlo.unary main_cst_30 main_v189 (broadcastInDim S150000x1 ![] bcast_S_S150000x1 : (⟨S_, .f32⟩ : BufTy).Contents (Elt F) → (⟨S150000x1, .f32⟩ : BufTy).Contents (Elt F)),
    StableHlo.binary main_v188 main_v189 main_v190 (maximumf : (⟨S150000x1, .f32⟩ : BufTy).Contents (Elt F) → (⟨S150000x1, .f32⟩ : BufTy).Contents (Elt F) → (⟨S150000x1, .f32⟩ : BufTy).Contents (Elt F)),
    StableHlo.unary main_v190 main_v191 (broadcastInDim S150000x128 ![0, 1] bcast_S150000x1_S150000x128_0_1 : (⟨S150000x1, .f32⟩ : BufTy).Contents (Elt F) → (⟨S150000x128, .f32⟩ : BufTy).Contents (Elt F)),
    StableHlo.binary main_v184 main_v191 main_v192 (Host.divf : (⟨S150000x128, .f32⟩ : BufTy).Contents (Elt F) → (⟨S150000x128, .f32⟩ : BufTy).Contents (Elt F) → (⟨S150000x128, .f32⟩ : BufTy).Contents (Elt F)),
    StableHlo.unary main_arg11 main_v193 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v193 main_v194 rfl shapeCasts_S1x128x128_S128x128,
    StableHlo.binary main_v192 main_v194 main_v195 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.unary main_arg12 main_v196 ((extractStridedSlice S1x128 ![0, 0] · slices_S3x128_S1x128_0_0) : (⟨S3x128, .f32⟩ : BufTy).Contents (Elt F) → (⟨S1x128, .f32⟩ : BufTy).Contents (Elt F)),
    StableHlo.reshape main_v196 main_v197 rfl shapeCasts_S1x128_S128,
    StableHlo.unary main_v197 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S150000x128 ![0, 1] bcast_S1x128_S150000x128_0_1 : (⟨S1x128, .f32⟩ : BufTy).Contents (Elt F) → (⟨S150000x128, .f32⟩ : BufTy).Contents (Elt F)),
    StableHlo.binary main_v195 main_v199 main_v200 (addf : (⟨S150000x128, .f32⟩ : BufTy).Contents (Elt F) → (⟨S150000x128, .f32⟩ : BufTy).Contents (Elt F) → (⟨S150000x128, .f32⟩ : BufTy).Contents (Elt F)),
    StableHlo.unary main_arg13 main_v201 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v201 main_v202 rfl shapeCasts_S1x128x128_S128x128,
    StableHlo.binary main_v170 main_v202 main_v203 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.binary main_v200 main_v203 main_v204 (addf : (⟨S150000x128, .f32⟩ : BufTy).Contents (Elt F) → (⟨S150000x128, .f32⟩ : BufTy).Contents (Elt F) → (⟨S150000x128, .f32⟩ : BufTy).Contents (Elt F)) ]

abbrev opsC1 : List (HloOp τ sig (Elt F)) :=
  [ StableHlo.unary main_arg2 main_v205 ((extractStridedSlice S1x300000 ![0, 0] · slices_S2x900000_S1x300000_0_0) : (⟨S2x900000, .i32⟩ : BufTy).Contents (Elt F) → (⟨S1x300000, .i32⟩ : BufTy).Contents (Elt F)),
    StableHlo.reshape main_v205 main_v206 rfl shapeCasts_S1x300000_S300000,
    StableHlo.unary main_arg2 main_v207 ((extractStridedSlice S1x300000 ![1, 0] · slices_S2x900000_S1x300000_1_0) : (⟨S2x900000, .i32⟩ : BufTy).Contents (Elt F) → (⟨S1x300000, .i32⟩ : BufTy).Contents (Elt F)),
    StableHlo.reshape main_v207 main_v208 rfl shapeCasts_S1x300000_S300000,
    StableHlo.nullary main_c_31 (constantI S_ 32 0#32),
    StableHlo.unary main_c_31 main_v209 (broadcastInDim S300000 ![] bcast_S_S300000 : (⟨S_, .i32⟩ : BufTy).Contents (Elt F) → (⟨S300000, .i32⟩ : BufTy).Contents (Elt F)),
    StableHlo.binary main_v206 main_v209 main_v210 (cmpi .slt : (⟨S300000, .i32⟩ : BufTy).Contents (Elt F) → (⟨S300000, .i32⟩ : BufTy).Contents (Elt F) → (⟨S300000, .i1⟩ : BufTy).Contents (Elt F)),
    StableHlo.nullary main_c_32 (constantI S_ 32 150000#32),
    StableHlo.unary main_c_32 main_v211 (broadcastInDim S300000 ![] bcast_S_S300000 : (⟨S_, .i32⟩ : BufTy).Contents (Elt F) → (⟨S300000, .i32⟩ : BufTy).Contents (Elt F)),
    StableHlo.binary main_v206 main_v211 main_v212 (addi : (⟨S300000, .i32⟩ : BufTy).Contents (Elt F) → (⟨S300000, .i32⟩ : BufTy).Contents (Elt F) → (⟨S300000, .i32⟩ : BufTy).Contents (Elt F)),
    StableHlo.ternary main_v210 main_v212 main_v206 main_v213 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v213 main_v214 (broadcastInDim S300000x1 ![0] bcast_S300000_S300000x1_0 : (⟨S300000, .i32⟩ : BufTy).Contents (Elt F) → (⟨S300000x1, .i32⟩ : BufTy).Contents (Elt F)),
    StableHlo.binary main_v170 main_v214 main_v215 ((fun x i => Host.gather gather_S150000x128_S300000x1_S300000x128_1_0_n_n_0_1_1128 x i) : (⟨S150000x128, .f32⟩ : BufTy).Contents (Elt F) → (⟨S300000x1, .i32⟩ : BufTy).Contents (Elt F) → (⟨S300000x128, .f32⟩ : BufTy).Contents (Elt F)),
    StableHlo.nullary main_cst_33 (constant S_ .f32 0x00000000#32),
    StableHlo.unary main_cst_33 main_v216 (broadcastInDim S150000x128 ![] bcast_S_S150000x128 : (⟨S_, .f32⟩ : BufTy).Contents (Elt F) → (⟨S150000x128, .f32⟩ : BufTy).Contents (Elt F)),
    StableHlo.unary main_v208 main_v217 (broadcastInDim S300000x1 ![0] bcast_S300000_S300000x1_0 : (⟨S300000, .i32⟩ : BufTy).Contents (Elt F) → (⟨S300000x1, .i32⟩ : BufTy).Contents (Elt F)),
    StableHlo.ternary main_v216 main_v217 main_v215 main_v218 ((fun x i u => Host.scatterAdd scatter_S150000x128_S300000x1_S300000x128_1_0_0_1 x i u) : (⟨S150000x128, .f32⟩ : BufTy).Contents (Elt F) → (⟨S300000x1, .i32⟩ : BufTy).Contents (Elt F) → (⟨S300000x128, .f32⟩ : BufTy).Contents (Elt F) → (⟨S150000x128, .f32⟩ : BufTy).Contents (Elt F)),
    StableHlo.nullary main_cst_34 (constant S_ .f32 0x3F800000#32),
    StableHlo.unary main_cst_34 main_v219 (broadcastInDim S300000x1 ![] bcast_S_S300000x1 : (⟨S_, .f32⟩ : BufTy).Contents (Elt F) → (⟨S300000x1, .f32⟩ : BufTy).Contents (Elt F)),
    StableHlo.nullary main_cst_35 (constant S_ .f32 0x00000000#32),
    StableHlo.unary main_cst_35 main_v220 (broadcastInDim S150000x1 ![] bcast_S_S150000x1 : (⟨S_, .f32⟩ : BufTy).Contents (Elt F) → (⟨S150000x1, .f32⟩ : BufTy).Contents (Elt F)),
    StableHlo.unary main_v208 main_v221 (broadcastInDim S300000x1 ![0] bcast_S300000_S300000x1_0 : (⟨S300000, .i32⟩ : BufTy).Contents (Elt F) → (⟨S300000x1, .i32⟩ : BufTy).Contents (Elt F)),
    StableHlo.ternary main_v220 main_v221 main_v219 main_v222 ((fun x i u => Host.scatterAdd scatter_S150000x1_S300000x1_S300000x1_1_0_0_1 x i u) : (⟨S150000x1, .f32⟩ : BufTy).Contents (Elt F) → (⟨S300000x1, .i32⟩ : BufTy).Contents (Elt F) → (⟨S300000x1, .f32⟩ : BufTy).Contents (Elt F) → (⟨S150000x1, .f32⟩ : BufTy).Contents (Elt F)),
    StableHlo.nullary main_cst_36 (constant S_ .f32 0x3F800000#32),
    StableHlo.unary main_cst_36 main_v223 (broadcastInDim S150000x1 ![] bcast_S_S150000x1 : (⟨S_, .f32⟩ : BufTy).Contents (Elt F) → (⟨S150000x1, .f32⟩ : BufTy).Contents (Elt F)),
    StableHlo.binary main_v222 main_v223 main_v224 (maximumf : (⟨S150000x1, .f32⟩ : BufTy).Contents (Elt F) → (⟨S150000x1, .f32⟩ : BufTy).Contents (Elt F) → (⟨S150000x1, .f32⟩ : BufTy).Contents (Elt F)),
    StableHlo.unary main_v224 main_v225 (broadcastInDim S150000x128 ![0, 1] bcast_S150000x1_S150000x128_0_1 : (⟨S150000x1, .f32⟩ : BufTy).Contents (Elt F) → (⟨S150000x128, .f32⟩ : BufTy).Contents (Elt F)),
    StableHlo.binary main_v218 main_v225 main_v226 (Host.divf : (⟨S150000x128, .f32⟩ : BufTy).Contents (Elt F) → (⟨S150000x128, .f32⟩ : BufTy).Contents (Elt F) → (⟨S150000x128, .f32⟩ : BufTy).Contents (Elt F)),
    StableHlo.unary main_arg11 main_v227 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v227 main_v228 rfl shapeCasts_S1x128x128_S128x128,
    StableHlo.binary main_v226 main_v228 main_v229 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.unary main_arg12 main_v230 ((extractStridedSlice S1x128 ![1, 0] · slices_S3x128_S1x128_1_0) : (⟨S3x128, .f32⟩ : BufTy).Contents (Elt F) → (⟨S1x128, .f32⟩ : BufTy).Contents (Elt F)),
    StableHlo.reshape main_v230 main_v231 rfl shapeCasts_S1x128_S128,
    StableHlo.unary main_v231 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S150000x128 ![0, 1] bcast_S1x128_S150000x128_0_1 : (⟨S1x128, .f32⟩ : BufTy).Contents (Elt F) → (⟨S150000x128, .f32⟩ : BufTy).Contents (Elt F)),
    StableHlo.binary main_v229 main_v233 main_v234 (addf : (⟨S150000x128, .f32⟩ : BufTy).Contents (Elt F) → (⟨S150000x128, .f32⟩ : BufTy).Contents (Elt F) → (⟨S150000x128, .f32⟩ : BufTy).Contents (Elt F)),
    StableHlo.unary main_arg13 main_v235 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v235 main_v236 rfl shapeCasts_S1x128x128_S128x128,
    StableHlo.binary main_v170 main_v236 main_v237 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.binary main_v234 main_v237 main_v238 (addf : (⟨S150000x128, .f32⟩ : BufTy).Contents (Elt F) → (⟨S150000x128, .f32⟩ : BufTy).Contents (Elt F) → (⟨S150000x128, .f32⟩ : BufTy).Contents (Elt F)) ]

abbrev opsC2 : List (HloOp τ sig (Elt F)) :=
  [ StableHlo.unary main_arg3 main_v239 ((extractStridedSlice S1x300000 ![0, 0] · slices_S2x900000_S1x300000_0_0) : (⟨S2x900000, .i32⟩ : BufTy).Contents (Elt F) → (⟨S1x300000, .i32⟩ : BufTy).Contents (Elt F)),
    StableHlo.reshape main_v239 main_v240 rfl shapeCasts_S1x300000_S300000,
    StableHlo.unary main_arg3 main_v241 ((extractStridedSlice S1x300000 ![1, 0] · slices_S2x900000_S1x300000_1_0) : (⟨S2x900000, .i32⟩ : BufTy).Contents (Elt F) → (⟨S1x300000, .i32⟩ : BufTy).Contents (Elt F)),
    StableHlo.reshape main_v241 main_v242 rfl shapeCasts_S1x300000_S300000,
    StableHlo.nullary main_c_37 (constantI S_ 32 0#32),
    StableHlo.unary main_c_37 main_v243 (broadcastInDim S300000 ![] bcast_S_S300000 : (⟨S_, .i32⟩ : BufTy).Contents (Elt F) → (⟨S300000, .i32⟩ : BufTy).Contents (Elt F)),
    StableHlo.binary main_v240 main_v243 main_v244 (cmpi .slt : (⟨S300000, .i32⟩ : BufTy).Contents (Elt F) → (⟨S300000, .i32⟩ : BufTy).Contents (Elt F) → (⟨S300000, .i1⟩ : BufTy).Contents (Elt F)),
    StableHlo.nullary main_c_38 (constantI S_ 32 150000#32),
    StableHlo.unary main_c_38 main_v245 (broadcastInDim S300000 ![] bcast_S_S300000 : (⟨S_, .i32⟩ : BufTy).Contents (Elt F) → (⟨S300000, .i32⟩ : BufTy).Contents (Elt F)),
    StableHlo.binary main_v240 main_v245 main_v246 (addi : (⟨S300000, .i32⟩ : BufTy).Contents (Elt F) → (⟨S300000, .i32⟩ : BufTy).Contents (Elt F) → (⟨S300000, .i32⟩ : BufTy).Contents (Elt F)),
    StableHlo.ternary main_v244 main_v246 main_v240 main_v247 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v247 main_v248 (broadcastInDim S300000x1 ![0] bcast_S300000_S300000x1_0 : (⟨S300000, .i32⟩ : BufTy).Contents (Elt F) → (⟨S300000x1, .i32⟩ : BufTy).Contents (Elt F)),
    StableHlo.binary main_v170 main_v248 main_v249 ((fun x i => Host.gather gather_S150000x128_S300000x1_S300000x128_1_0_n_n_0_1_1128 x i) : (⟨S150000x128, .f32⟩ : BufTy).Contents (Elt F) → (⟨S300000x1, .i32⟩ : BufTy).Contents (Elt F) → (⟨S300000x128, .f32⟩ : BufTy).Contents (Elt F)),
    StableHlo.nullary main_cst_39 (constant S_ .f32 0x00000000#32),
    StableHlo.unary main_cst_39 main_v250 (broadcastInDim S150000x128 ![] bcast_S_S150000x128 : (⟨S_, .f32⟩ : BufTy).Contents (Elt F) → (⟨S150000x128, .f32⟩ : BufTy).Contents (Elt F)),
    StableHlo.unary main_v242 main_v251 (broadcastInDim S300000x1 ![0] bcast_S300000_S300000x1_0 : (⟨S300000, .i32⟩ : BufTy).Contents (Elt F) → (⟨S300000x1, .i32⟩ : BufTy).Contents (Elt F)),
    StableHlo.ternary main_v250 main_v251 main_v249 main_v252 ((fun x i u => Host.scatterAdd scatter_S150000x128_S300000x1_S300000x128_1_0_0_1 x i u) : (⟨S150000x128, .f32⟩ : BufTy).Contents (Elt F) → (⟨S300000x1, .i32⟩ : BufTy).Contents (Elt F) → (⟨S300000x128, .f32⟩ : BufTy).Contents (Elt F) → (⟨S150000x128, .f32⟩ : BufTy).Contents (Elt F)),
    StableHlo.nullary main_cst_40 (constant S_ .f32 0x3F800000#32),
    StableHlo.unary main_cst_40 main_v253 (broadcastInDim S300000x1 ![] bcast_S_S300000x1 : (⟨S_, .f32⟩ : BufTy).Contents (Elt F) → (⟨S300000x1, .f32⟩ : BufTy).Contents (Elt F)),
    StableHlo.nullary main_cst_41 (constant S_ .f32 0x00000000#32),
    StableHlo.unary main_cst_41 main_v254 (broadcastInDim S150000x1 ![] bcast_S_S150000x1 : (⟨S_, .f32⟩ : BufTy).Contents (Elt F) → (⟨S150000x1, .f32⟩ : BufTy).Contents (Elt F)),
    StableHlo.unary main_v242 main_v255 (broadcastInDim S300000x1 ![0] bcast_S300000_S300000x1_0 : (⟨S300000, .i32⟩ : BufTy).Contents (Elt F) → (⟨S300000x1, .i32⟩ : BufTy).Contents (Elt F)),
    StableHlo.ternary main_v254 main_v255 main_v253 main_v256 ((fun x i u => Host.scatterAdd scatter_S150000x1_S300000x1_S300000x1_1_0_0_1 x i u) : (⟨S150000x1, .f32⟩ : BufTy).Contents (Elt F) → (⟨S300000x1, .i32⟩ : BufTy).Contents (Elt F) → (⟨S300000x1, .f32⟩ : BufTy).Contents (Elt F) → (⟨S150000x1, .f32⟩ : BufTy).Contents (Elt F)),
    StableHlo.nullary main_cst_42 (constant S_ .f32 0x3F800000#32),
    StableHlo.unary main_cst_42 main_v257 (broadcastInDim S150000x1 ![] bcast_S_S150000x1 : (⟨S_, .f32⟩ : BufTy).Contents (Elt F) → (⟨S150000x1, .f32⟩ : BufTy).Contents (Elt F)),
    StableHlo.binary main_v256 main_v257 main_v258 (maximumf : (⟨S150000x1, .f32⟩ : BufTy).Contents (Elt F) → (⟨S150000x1, .f32⟩ : BufTy).Contents (Elt F) → (⟨S150000x1, .f32⟩ : BufTy).Contents (Elt F)),
    StableHlo.unary main_v258 main_v259 (broadcastInDim S150000x128 ![0, 1] bcast_S150000x1_S150000x128_0_1 : (⟨S150000x1, .f32⟩ : BufTy).Contents (Elt F) → (⟨S150000x128, .f32⟩ : BufTy).Contents (Elt F)),
    StableHlo.binary main_v252 main_v259 main_v260 (Host.divf : (⟨S150000x128, .f32⟩ : BufTy).Contents (Elt F) → (⟨S150000x128, .f32⟩ : BufTy).Contents (Elt F) → (⟨S150000x128, .f32⟩ : BufTy).Contents (Elt F)),
    StableHlo.unary main_arg11 main_v261 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v261 main_v262 rfl shapeCasts_S1x128x128_S128x128,
    StableHlo.binary main_v260 main_v262 main_v263 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.unary main_arg12 main_v264 ((extractStridedSlice S1x128 ![2, 0] · slices_S3x128_S1x128_2_0) : (⟨S3x128, .f32⟩ : BufTy).Contents (Elt F) → (⟨S1x128, .f32⟩ : BufTy).Contents (Elt F)),
    StableHlo.reshape main_v264 main_v265 rfl shapeCasts_S1x128_S128,
    StableHlo.unary main_v265 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S150000x128 ![0, 1] bcast_S1x128_S150000x128_0_1 : (⟨S1x128, .f32⟩ : BufTy).Contents (Elt F) → (⟨S150000x128, .f32⟩ : BufTy).Contents (Elt F)),
    StableHlo.binary main_v263 main_v267 main_v268 (addf : (⟨S150000x128, .f32⟩ : BufTy).Contents (Elt F) → (⟨S150000x128, .f32⟩ : BufTy).Contents (Elt F) → (⟨S150000x128, .f32⟩ : BufTy).Contents (Elt F)),
    StableHlo.unary main_arg13 main_v269 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v269 main_v270 rfl shapeCasts_S1x128x128_S128x128,
    StableHlo.binary main_v170 main_v270 main_v271 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.binary main_v268 main_v271 main_v272 (addf : (⟨S150000x128, .f32⟩ : BufTy).Contents (Elt F) → (⟨S150000x128, .f32⟩ : BufTy).Contents (Elt F) → (⟨S150000x128, .f32⟩ : BufTy).Contents (Elt F)) ]

abbrev opsD : List (HloOp τ sig (Elt F)) :=
  [ StableHlo.unary main_v204 main_v273 (broadcastInDim S1x150000x128 ![1, 2] bcast_S150000x128_S1x150000x128_1_2 : (⟨S150000x128, .f32⟩ : BufTy).Contents (Elt F) → (⟨S1x150000x128, .f32⟩ : BufTy).Contents (Elt F)),
    StableHlo.unary main_v238 main_v274 (broadcastInDim S1x150000x128 ![1, 2] bcast_S150000x128_S1x150000x128_1_2 : (⟨S150000x128, .f32⟩ : BufTy).Contents (Elt F) → (⟨S1x150000x128, .f32⟩ : BufTy).Contents (Elt F)),
    StableHlo.unary main_v272 main_v275 (broadcastInDim S1x150000x128 ![1, 2] bcast_S150000x128_S1x150000x128_1_2 : (⟨S150000x128, .f32⟩ : BufTy).Contents (Elt F) → (⟨S1x150000x128, .f32⟩ : BufTy).Contents (Elt F)),
    StableHlo.nary ![main_v273, main_v274, main_v275] main_v276 (fun u => concatenate S3x150000x128 0 [⟨S1x150000x128, u 0⟩, ⟨S1x150000x128, u 1⟩, ⟨S1x150000x128, u 2⟩] concatenates_S1x150000x128_S1x150000x128_S1x150000x128_S3x150000x128_d0),
    StableHlo.nullary main_cst_43 (constant S_ .f32 0x00000000#32),
    StableHlo.binary main_v276 main_cst_43 main_v277 ((fun x v => Host.reduceAdd x v reducesTo_S3x150000x128_S150000x128_d0 h_S_) : (⟨S3x150000x128, .f32⟩ : BufTy).Contents (Elt F) → (⟨S_, .f32⟩ : BufTy).Contents (Elt F) → (⟨S150000x128, .f32⟩ : BufTy).Contents (Elt F)),
    StableHlo.nullary main_cst_44 (constant S_ .f32 0x40400000#32),
    StableHlo.unary main_cst_44 main_v278 (broadcastInDim S150000x128 ![] bcast_S_S150000x128 : (⟨S_, .f32⟩ : BufTy).Contents (Elt F) → (⟨S150000x128, .f32⟩ : BufTy).Contents (Elt F)),
    StableHlo.binary main_v277 main_v278 main_v279 (Host.divf : (⟨S150000x128, .f32⟩ : BufTy).Contents (Elt F) → (⟨S150000x128, .f32⟩ : BufTy).Contents (Elt F) → (⟨S150000x128, .f32⟩ : BufTy).Contents (Elt F)),
    StableHlo.TRef.nullary main_call8.cst (constant S_ .f32 0x00000000#32),
    StableHlo.TRef.unary main_call8.cst main_call8.v0 (broadcastInDim S150000x128 ![] bcast_S_S150000x128),
    StableHlo.TRef.binary (.of main_v279 : StableHlo.TRef sig ⟨S150000x128, .f32⟩) main_call8.v0 main_call8.v1 maximumf,
    StableHlo.nullary main_cst_45 (constant S_ .f32 0x00000000#32),
    StableHlo.binary main_v280 main_cst_45 main_v281 ((fun x v => Host.reduceAdd x v reducesTo_S150000x128_S150000_d1 h_S_) : (⟨S150000x128, .f32⟩ : BufTy).Contents (Elt F) → (⟨S_, .f32⟩ : BufTy).Contents (Elt F) → (⟨S150000, .f32⟩ : BufTy).Contents (Elt F)),
    StableHlo.unary main_v281 main_v282 (broadcastInDim S150000x1 ![0] bcast_S150000_S150000x1_0 : (⟨S150000, .f32⟩ : BufTy).Contents (Elt F) → (⟨S150000x1, .f32⟩ : BufTy).Contents (Elt F)),
    StableHlo.nullary main_cst_46 (constant S_ .f32 0x43000000#32),
    StableHlo.unary main_cst_46 main_v283 (broadcastInDim S150000x1 ![] bcast_S_S150000x1 : (⟨S_, .f32⟩ : BufTy).Contents (Elt F) → (⟨S150000x1, .f32⟩ : BufTy).Contents (Elt F)),
    StableHlo.binary main_v282 main_v283 main_v284 (Host.divf : (⟨S150000x1, .f32⟩ : BufTy).Contents (Elt F) → (⟨S150000x1, .f32⟩ : BufTy).Contents (Elt F) → (⟨S150000x1, .f32⟩ : BufTy).Contents (Elt F)),
    StableHlo.nullary main_c_47 (constantI S_ 32 0#32),
    StableHlo.TRef.nullary main_call9.cst (constant S_ .f32 0x00000000#32),
    StableHlo.TRef.binary (.of main_v280 : StableHlo.TRef sig ⟨S150000x128, .f32⟩) main_call9.cst main_call9.v0 (fun x v => Host.reduceAdd x v reducesTo_S150000x128_S150000_d1 h_S_),
    StableHlo.TRef.unary main_call9.v0 main_call9.v1 (broadcastInDim S150000x1 ![0] bcast_S150000_S150000x1_0),
    StableHlo.TRef.nullary main_call9.cst_0 (constant S_ .f32 0x43000000#32),
    StableHlo.TRef.unary main_call9.cst_0 main_call9.v2 (broadcastInDim S150000x1 ![] bcast_S_S150000x1),
    StableHlo.TRef.binary main_call9.v1 main_call9.v2 main_call9.v3 Host.divf,
    StableHlo.TRef.unary main_call9.v3 main_call9.v4 (broadcastInDim S150000x128 ![0, 1] bcast_S150000x1_S150000x128_0_1),
    StableHlo.TRef.binary (.of main_v280 : StableHlo.TRef sig ⟨S150000x128, .f32⟩) main_call9.v4 main_call9.v5 subf,
    StableHlo.TRef.binary main_call9.v5 main_call9.v5 main_call9.v6 mulf,
    StableHlo.TRef.unary (.of main_c_47 : StableHlo.TRef sig ⟨S_, .i32⟩) main_call9.v7 (sitofp .f32),
    StableHlo.TRef.nullary main_call9.cst_1 (constant S_ .f32 0x43000000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S150000x128_S150000_d1 h_S_),
    StableHlo.TRef.unary main_call9.v9 main_call9.v10 (broadcastInDim S150000x1 ![0] bcast_S150000_S150000x1_0),
    StableHlo.TRef.unary main_call9.v8 main_call9.v11 (broadcastInDim S150000x1 ![] bcast_S_S150000x1),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S150000x1 ![] bcast_S_S150000x1),
    StableHlo.TRef.ternary main_call9.v13 main_call9.v12 main_call9.call0.v1 main_call9.call0.v2 (fun p a b => select (broadcastInDim S150000x1 ![] bcast_S_S150000x1 p) a b),
    StableHlo.unary main_v284 main_v286 (broadcastInDim S150000x128 ![0, 1] bcast_S150000x1_S150000x128_0_1 : (⟨S150000x1, .f32⟩ : BufTy).Contents (Elt F) → (⟨S150000x128, .f32⟩ : BufTy).Contents (Elt F)),
    StableHlo.binary main_v280 main_v286 main_v287 (subf : (⟨S150000x128, .f32⟩ : BufTy).Contents (Elt F) → (⟨S150000x128, .f32⟩ : BufTy).Contents (Elt F) → (⟨S150000x128, .f32⟩ : BufTy).Contents (Elt F)),
    StableHlo.nullary main_cst_48 (constant S_ .f32 0x3727C5AC#32),
    StableHlo.unary main_cst_48 main_v288 (broadcastInDim S150000x1 ![] bcast_S_S150000x1 : (⟨S_, .f32⟩ : BufTy).Contents (Elt F) → (⟨S150000x1, .f32⟩ : BufTy).Contents (Elt F)),
    StableHlo.binary main_v285 main_v288 main_v289 (addf : (⟨S150000x1, .f32⟩ : BufTy).Contents (Elt F) → (⟨S150000x1, .f32⟩ : BufTy).Contents (Elt F) → (⟨S150000x1, .f32⟩ : BufTy).Contents (Elt F)),
    StableHlo.unary main_v289 main_v290 (Host.rsqrt : (⟨S150000x1, .f32⟩ : BufTy).Contents (Elt F) → (⟨S150000x1, .f32⟩ : BufTy).Contents (Elt F)),
    StableHlo.unary main_v290 main_v291 (broadcastInDim S150000x128 ![0, 1] bcast_S150000x1_S150000x128_0_1 : (⟨S150000x1, .f32⟩ : BufTy).Contents (Elt F) → (⟨S150000x128, .f32⟩ : BufTy).Contents (Elt F)),
    StableHlo.binary main_v287 main_v291 main_v292 (mulf : (⟨S150000x128, .f32⟩ : BufTy).Contents (Elt F) → (⟨S150000x128, .f32⟩ : BufTy).Contents (Elt F) → (⟨S150000x128, .f32⟩ : BufTy).Contents (Elt F)),
    StableHlo.unary main_arg16 main_v293 (broadcastInDim S1x128 ![1] bcast_S128_S1x128_1 : (⟨S128, .f32⟩ : BufTy).Contents (Elt F) → (⟨S1x128, .f32⟩ : BufTy).Contents (Elt F)),
    StableHlo.unary main_v293 main_v294 (broadcastInDim S150000x128 ![0, 1] bcast_S1x128_S150000x128_0_1 : (⟨S1x128, .f32⟩ : BufTy).Contents (Elt F) → (⟨S150000x128, .f32⟩ : BufTy).Contents (Elt F)),
    StableHlo.binary main_v292 main_v294 main_v295 (mulf : (⟨S150000x128, .f32⟩ : BufTy).Contents (Elt F) → (⟨S150000x128, .f32⟩ : BufTy).Contents (Elt F) → (⟨S150000x128, .f32⟩ : BufTy).Contents (Elt F)),
    StableHlo.unary main_arg17 main_v296 (broadcastInDim S1x128 ![1] bcast_S128_S1x128_1 : (⟨S128, .f32⟩ : BufTy).Contents (Elt F) → (⟨S1x128, .f32⟩ : BufTy).Contents (Elt F)),
    StableHlo.unary main_v296 main_v297 (broadcastInDim S150000x128 ![0, 1] bcast_S1x128_S150000x128_0_1 : (⟨S1x128, .f32⟩ : BufTy).Contents (Elt F) → (⟨S150000x128, .f32⟩ : BufTy).Contents (Elt F)),
    StableHlo.binary main_v295 main_v297 main_v298 (addf : (⟨S150000x128, .f32⟩ : BufTy).Contents (Elt F) → (⟨S150000x128, .f32⟩ : BufTy).Contents (Elt F) → (⟨S150000x128, .f32⟩ : BufTy).Contents (Elt F)),
    StableHlo.unary main_v298 main_v299 ((extractStridedSlice S50000x128 ![0, 0] · slices_S150000x128_S50000x128_0_0) : (⟨S150000x128, .f32⟩ : BufTy).Contents (Elt F) → (⟨S50000x128, .f32⟩ : BufTy).Contents (Elt F)) ]

abbrev ops : List (HloOp τ sig (Elt F)) := opsA0 ++ opsA1 ++ opsA2 ++ opsB ++ opsC0 ++ opsC1 ++ opsC2 ++ opsD

-- Both sides compute to the same chain of steps: calls unfold at their sites, sequencing reassociates.
theorem main_eq (c : Dev nD) : main (F := F) c = seq ops := rfl

theorem after_append (l₁ l₂ : List (HloOp τ sig (Elt F))) (V : Valuation τ sig (Elt F)) :
    after (l₁ ++ l₂) V = after l₂ (after l₁ V) := by
  induction l₁ generalizing V with
  | nil => rfl
  | cons _ _ ih => exact ih _

-- Each operation writes one reference, the one at its place in `W`.
theorem forall_writes {l : List (HloOp τ sig (Elt F))} {W : List (Ref sig .tc)}
    (h : l.map HloOp.writes = W.map fun y => {Proc.devRef .tc y}) :
    l.Forall fun op => op.writes ⊆ (W.map (Proc.devRef (τ := τ) .tc)).toFinset :=
  List.forall_iff_forall_mem.2 fun op hop => by
    obtain ⟨y, hy, e⟩ := List.mem_map.1 (h ▸ List.mem_map_of_mem (f := HloOp.writes) hop)
    rw [← e, Finset.singleton_subset_iff, List.mem_toFinset]
    exact List.mem_map_of_mem hy

abbrev wA0 : List (Ref sig .tc) := [main_v0, main_v1, main_v2, main_v3, main_v4, main_v5, main_v6, main_v7, main_v8, main_v9, main_v10, main_v11, main_call0_cst, main_call0_v0, main_v12, main_c, main_v13, main_v14, main_c_0, main_v15, main_v16, main_v17, main_v18, main_v19, main_cst, main_v20, main_v21, main_v22, main_cst_1, main_v23, main_cst_2, main_v24, main_v25, main_v26, main_cst_3, main_v27, main_v28, main_v29, main_v30, main_v31, main_v32, main_v33, main_v34, main_v35, main_v36, main_v37, main_v38, main_v39, main_v40, main_v41, main_v42, main_call1_v0, main_call1_cst, main_call1_v1, main_call1_v2, main_v43, main_cst_4, main_v44, main_v45, main_v46, main_v47]

theorem opsA0_writes : (opsA0 : List (HloOp τ sig (Elt F))).Forall fun op => op.writes ⊆ (wA0.map (Proc.devRef (τ := τ) .tc)).toFinset :=
  forall_writes rfl

abbrev wA1 : List (Ref sig .tc) := [main_v48, main_v49, main_v50, main_v51, main_v52, main_v53, main_v54, main_v55, main_v56, main_v57, main_v58, main_v59, main_call2_cst, main_call2_v0, main_v60, main_c_5, main_v61, main_v62, main_c_6, main_v63, main_v64, main_v65, main_v66, main_v67, main_cst_7, main_v68, main_v69, main_v70, main_cst_8, main_v71, main_cst_9, main_v72, main_v73, main_v74, main_cst_10, main_v75, main_v76, main_v77, main_v78, main_v79, main_v80, main_v81, main_v82, main_v83, main_v84, main_v85, main_v86, main_v87, main_v88, main_v89, main_v90, main_call3_v0, main_call3_cst, main_call3_v1, main_call3_v2, main_v91, main_cst_11, main_v92, main_v93, main_v94, main_v95]

theorem opsA1_writes : (opsA1 : List (HloOp τ sig (Elt F))).Forall fun op => op.writes ⊆ (wA1.map (Proc.devRef (τ := τ) .tc)).toFinset :=
  forall_writes rfl

abbrev wA2 : List (Ref sig .tc) := [main_v96, main_v97, main_v98, main_v99, main_v100, main_v101, main_v102, main_v103, main_v104, main_v105, main_v106, main_v107, main_call4_cst, main_call4_v0, main_v108, main_c_12, main_v109, main_v110, main_c_13, main_v111, main_v112, main_v113, main_v114, main_v115, main_cst_14, main_v116, main_v117, main_v118, main_cst_15, main_v119, main_cst_16, main_v120, main_v121, main_v122, main_cst_17, main_v123, main_v124, main_v125, main_v126, main_v127, main_v128, main_v129, main_v130, main_v131, main_v132, main_v133, main_v134, main_v135, main_v136, main_v137, main_v138, main_call5_v0, main_call5_cst, main_call5_v1, main_call5_v2, main_v139, main_cst_18, main_v140, main_v141, main_v142, main_v143]

theorem opsA2_writes : (opsA2 : List (HloOp τ sig (Elt F))).Forall fun op => op.writes ⊆ (wA2.map (Proc.devRef (τ := τ) .tc)).toFinset :=
  forall_writes rfl

abbrev wB : List (Ref sig .tc) := [main_v144, main_v145, main_v146, main_v147, main_cst_19, main_v148, main_cst_20, main_v149, main_v150, main_call6_cst, main_call6_v0, main_v151, main_cst_21, main_v152, main_v153, main_cst_22, main_v154, main_v155, main_c_23, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v156, main_v157, main_v158, main_cst_24, main_v159, main_v160, main_v161, main_v162, main_v163, main_v164, main_v165, main_v166, main_v167, main_v168, main_v169, main_v170]

theorem opsB_writes : (opsB : List (HloOp τ sig (Elt F))).Forall fun op => op.writes ⊆ (wB.map (Proc.devRef (τ := τ) .tc)).toFinset :=
  forall_writes rfl

abbrev wC0 : List (Ref sig .tc) := [main_v171, main_v172, main_v173, main_v174, main_c_25, main_v175, main_v176, main_c_26, main_v177, main_v178, main_v179, main_v180, main_v181, main_cst_27, main_v182, main_v183, main_v184, main_cst_28, main_v185, main_cst_29, main_v186, main_v187, main_v188, main_cst_30, main_v189, main_v190, main_v191, main_v192, main_v193, main_v194, main_v195, main_v196, main_v197, main_v198, main_v199, main_v200, main_v201, main_v202, main_v203, main_v204]

theorem opsC0_writes : (opsC0 : List (HloOp τ sig (Elt F))).Forall fun op => op.writes ⊆ (wC0.map (Proc.devRef (τ := τ) .tc)).toFinset :=
  forall_writes rfl

abbrev wC1 : List (Ref sig .tc) := [main_v205, main_v206, main_v207, main_v208, main_c_31, main_v209, main_v210, main_c_32, main_v211, main_v212, main_v213, main_v214, main_v215, main_cst_33, main_v216, main_v217, main_v218, main_cst_34, main_v219, main_cst_35, main_v220, main_v221, main_v222, main_cst_36, main_v223, main_v224, main_v225, main_v226, main_v227, main_v228, main_v229, main_v230, main_v231, main_v232, main_v233, main_v234, main_v235, main_v236, main_v237, main_v238]

theorem opsC1_writes : (opsC1 : List (HloOp τ sig (Elt F))).Forall fun op => op.writes ⊆ (wC1.map (Proc.devRef (τ := τ) .tc)).toFinset :=
  forall_writes rfl

abbrev wC2 : List (Ref sig .tc) := [main_v239, main_v240, main_v241, main_v242, main_c_37, main_v243, main_v244, main_c_38, main_v245, main_v246, main_v247, main_v248, main_v249, main_cst_39, main_v250, main_v251, main_v252, main_cst_40, main_v253, main_cst_41, main_v254, main_v255, main_v256, main_cst_42, main_v257, main_v258, main_v259, main_v260, main_v261, main_v262, main_v263, main_v264, main_v265, main_v266, main_v267, main_v268, main_v269, main_v270, main_v271, main_v272]

theorem opsC2_writes : (opsC2 : List (HloOp τ sig (Elt F))).Forall fun op => op.writes ⊆ (wC2.map (Proc.devRef (τ := τ) .tc)).toFinset :=
  forall_writes rfl

abbrev wD : List (Ref sig .tc) := [main_v273, main_v274, main_v275, main_v276, main_cst_43, main_v277, main_cst_44, main_v278, main_v279, main_call8_cst, main_call8_v0, main_v280, main_cst_45, main_v281, main_v282, main_cst_46, main_v283, main_v284, main_c_47, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v285, main_v286, main_v287, main_cst_48, main_v288, main_v289, main_v290, main_v291, main_v292, main_v293, main_v294, main_v295, main_v296, main_v297, main_v298, main_v299]

theorem opsD_writes : (opsD : List (HloOp τ sig (Elt F))).Forall fun op => op.writes ⊆ (wD.map (Proc.devRef (τ := τ) .tc)).toFinset :=
  forall_writes rfl

theorem ops_sub : (ops : List (HloOp τ sig (Elt F))).Forall fun op => op.bufs ⊆ tcRefs τ sig := by
  simp only [ops, opsA0, opsA1, opsA2, opsB, opsC0, opsC1, opsC2, opsD, List.forall_append, List.forall_cons, List.Forall, unary_bufs_sub, binary_bufs_sub, reshape_bufs_sub, nullary_bufs_sub, ternary_bufs_sub, nary_bufs_sub, and_self]

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq (by decide) (by decide) defs main (fun _ => ops) main_eq (fun _ => ops_sub) m ρ
    fun _ => List.map_inj_left.1 (rfl : ops.map (·.fresh) = ops.map fun _ => ∅)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

-- No operation writes an argument.
theorem after_ops_arg (V : Valuation τ sig (Elt F)) {k : Ref sig .tc} (hk : k ∈ args) :
    after ops V (Proc.devRef .tc k) = V (Proc.devRef .tc k) :=
  after_of_writes_sub (W := wA0 ++ wA1 ++ wA2 ++ wB ++ wC0 ++ wC1 ++ wC2 ++ wD) ops V (forall_writes rfl)
    ((by decide : ∀ k ∈ args, k ∉ _) k hk)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      args.Forall fun k => r.2.mem ((c.tc : Thread nD τ).loc k) = m ((c.tc : Thread nD τ).loc k)) :=
  (θ_run defs _ _).mono (fun _ h c => List.forall_iff_forall_mem.2 fun k hk => (h c k).trans (after_ops_arg _ hk))
    (run_all m ρ)

end Cert.ReferenceIdeal.Hand

end
-- ==== Proof.RefReadA.lean ====
import proofs.«421255_j8237747274315_3_alg».proof.Proof.RefRun
import proofs.«421255_j8237747274315_3_alg».proof.Proof.Spec
import proofs.«421255_j8237747274315_3_alg».proof.Proof.IdxRead
import Idealize.ShloMosaic.Lib.StableHlo.Run
import Idealize.ShloMosaic.Lib.ValueIdx
import Idealize.ShloMosaic.Lib.ValueLayout
import Idealize.ShloMosaic.Lib.KernelVsHost
import Idealize.ShloMosaic.Lib.StackMember
import Idealize.ShloMosaic.Lib.Pipeline.Value
import Idealize.ShloMosaic.PureOps.Ideal.Laws

noncomputable section

namespace Cert.ReferenceIdeal.Hand

open Cert.ReferenceIdeal Cert.ReferenceIdeal.Gen Cert.Spec Idealize.ShloMosaic Idealize.ShloMosaic.ValueIdx
  Idealize.ShloMosaic.StableHlo

local notation "dr" => Proc.devRef (τ := τ) Proc.tc

section Generic

variable {α : Type}

theorem ra_mat_of_stack {n a b : ℕ} (o : ℕ) (t : Fin n) (ht : t.val = o) (W : (⟨3, ![n, a, b]⟩ : Shape).Idx → α)
    (h : (⟨3, ![n, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] W h) hc (ix2 i j) = W (ix3 t i j) := by
  rw [shapeCast_1ab_ab_apply]
  exact extractStridedSlice_apply _ _ _ _ _ (fun ax => by
    match ax with
    | ⟨0, _⟩ => exact ht.trans (Nat.add_zero _).symm
    | ⟨1, _⟩ => exact (Nat.zero_add _).symm
    | ⟨2, _⟩ => exact (Nat.zero_add _).symm)

theorem ra_vec_of_stack {n a : ℕ} (o : ℕ) (t : Fin n) (ht : t.val = o) (B : (⟨2, ![n, a]⟩ : Shape).Idx → α)
    (h : (⟨2, ![n, a]⟩ : Shape).Slices ![o, 0] ⟨2, ![1, a]⟩)
    (hc : (⟨2, ![1, a]⟩ : Shape).ShapeCasts ⟨1, ![a]⟩) (i : Fin a) :
    shapeCast ⟨1, ![a]⟩ (extractStridedSlice ⟨2, ![1, a]⟩ ![o, 0] B h) hc (ix1 i) = B (ix2 t i) := by
  rw [shapeCast_1a_a_apply]
  exact slice2_axis0_apply o B h (0 : Fin 1) i t (ht.trans (Nat.add_zero _).symm)

theorem ra_bcast_row {a : ℕ} (h : (⟨1, ![a]⟩ : Shape).BroadcastsInDim ⟨2, ![1, a]⟩ ![1])
    (x : (⟨1, ![a]⟩ : Shape).Idx → α) (u : Fin 1) (i : Fin a) :
    broadcastInDim ⟨2, ![1, a]⟩ ![1] h x (ix2 u i) = x (ix1 i) := by
  refine broadcastInDim_apply ![1] h x (ix2 u i) (ix1 i) ?_
  intro ax
  fin_cases ax
  show i.val = if a = 1 then 0 else i.val
  split_ifs with hn
  · have := i.isLt; omega
  · rfl

theorem ra_bcast_col {m : ℕ} (h : (⟨1, ![m]⟩ : Shape).BroadcastsInDim ⟨2, ![m, 1]⟩ ![0])
    (x : (⟨1, ![m]⟩ : Shape).Idx → α) (e : Fin m) (u : Fin 1) :
    broadcastInDim ⟨2, ![m, 1]⟩ ![0] h x (ix2 e u) = x (ix1 e) := by
  refine broadcastInDim_apply ![0] h x (ix2 e u) (ix1 e) ?_
  intro ax
  fin_cases ax
  show e.val = if m = 1 then 0 else e.val
  split_ifs with hn
  · have := e.isLt; omega
  · rfl

theorem ra_bcast_cols {m c : ℕ} (h : (⟨2, ![m, 1]⟩ : Shape).BroadcastsInDim ⟨2, ![m, c]⟩ ![0, 1])
    (x : (⟨2, ![m, 1]⟩ : Shape).Idx → α) (r : Fin m) (k : Fin c) :
    broadcastInDim ⟨2, ![m, c]⟩ ![0, 1] h x (ix2 r k) = x (ix2 r (0 : Fin 1)) := by
  refine broadcastInDim_apply ![0, 1] h x (ix2 r k) (ix2 r (0 : Fin 1)) ?_
  intro ax
  fin_cases ax
  · show r.val = if m = 1 then 0 else r.val
    split_ifs with hn
    · have := r.isLt; omega
    · rfl
  · show (0 : ℕ) = if (1 : ℕ) = 1 then 0 else _
    simp

theorem ra_dot_apply {m k n : ℕ} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    Host.dotGeneral d none A B (ix2 a b) = ∑ c : Fin k, A (ix2 a c) * B (ix2 c b) := by
  subst hd
  exact StackMember.dotGeneral_plain_apply none A B a b

end Generic

theorem ra_dot64_eq : dot_S300000x64_S64x64_S300000x64_1_0_0_1_n_n = DotDims.plain 300000 64 64 := rfl
theorem ra_dot128_eq : dot_S300000x64_S64x128_S300000x128_1_0_0_1_n_n = DotDims.plain 300000 64 128 := rfl
theorem ra_hscatter_eq {s si su : Shape} (d : ScatterDims s si su) {w : ℕ} (x : FVec Ideal s .f32) (idx : IVec si w)
    (upd : FVec Ideal su .f32) : Host.scatterAdd d x idx upd = Ideal.hostScatterAdd d x idx upd := rfl
theorem ra_hdivf_apply {s : Shape} (a b : FVec Ideal s .f32) (i : s.Idx) : Host.divf a b i = Ideal.div (a i) (b i) := rfl
theorem ra_hsqrt_apply {s : Shape} (a : FVec Ideal s .f32) (i : s.Idx) : Host.sqrt a i = Ideal.sqrt (a i) := rfl

theorem ra_hreduce_eq {s t u : Shape} {axes : List (Fin s.rank)} (x : FVec Ideal s .f32) (init : u.Idx → Ideal .f32)
    (h : s.ReducesTo axes t) (hu : 0 < u.numel) :
    Host.reduceAdd x init h hu = Ideal.hostReduceAdd h x (init (Shape.Idx.first hu)) := rfl

theorem ra_bconst_apply {t : Shape} (h : S_.BroadcastsInDim t (![] : Fin 0 → Fin t.rank)) (b : BitVec 32) (j : t.Idx) :
    broadcastInDim t ![] h (constant (F := Ideal) S_ .f32 b) j = Ideal.ofBits .f32 b := rfl
theorem ra_sumsq (x : FVec Ideal S300000x128 .f32) (r : Fin 300000) :
    Host.reduceAdd x (constant (F := Ideal) S_ .f32 0x00000000#32) reducesTo_S300000x128_S300000_d1 h_S_ (ix1 r)
      = ∑ k : Fin 128, x (ix2 r k) := by
  rw [ra_hreduce_eq, constant_apply, Ideal.ofBits_zero_f32]
  have h : S300000x128.Reduces [1] S300000 :=
    ⟨reducesTo_S300000x128_S300000_d1.1, Nat.one_pos, reducesTo_S300000x128_S300000_d1.2⟩
  rw [Ideal.hostReduceAdd_single reducesTo_S300000x128_S300000_d1 h, zero_add]
  refine Finset.sum_congr rfl fun k _ => congrArg x (funext fun ax => Fin.ext ?_)
  match ax with
  | ⟨0, _⟩ => rfl
  | ⟨1, _⟩ => rfl

def ra_f5 (A : FVec Ideal S300000x128 .f32) : FVec Ideal S300000x128 .f32 :=
  Host.divf A
    (broadcastInDim S300000x128 ![0, 1] bcast_S300000x1_S300000x128_0_1
      (maximumf
        (Host.sqrt
          (broadcastInDim S300000x1 ![0] bcast_S300000_S300000x1_0
            (Host.reduceAdd (mulf A A) (constant S_ .f32 0x00000000#32) reducesTo_S300000x128_S300000_d1 h_S_)))
        (broadcastInDim S300000x1 ![] bcast_S_S300000x1 (constant S_ .f32 0x2B8CBCCC#32))))

theorem ra_l2n_of (A : FVec Ideal S300000x128 .f32) (r : Fin 300000) (L : Fin 128 → EReal)
    (hL : ∀ q : Fin 128, A (ix2 r q) = L q) (q : Fin 128) : ra_f5 A (ix2 r q) = l2n L q := by
  unfold ra_f5 l2n
  rw [ra_hdivf_apply, ra_bcast_cols, maximumf_apply, ra_hsqrt_apply, ra_bcast_col, ra_bconst_apply, ra_sumsq, hL]
  have hk : ∀ k : Fin 128, mulf A A (ix2 r k) = L k * L k := fun k => by rw [mulf_apply, hL]
  rw [Finset.sum_congr rfl fun k _ => hk k]
  rfl

def ra_v1 (E : IVec S2x900000 32) : IVec S900000 32 :=
  shapeCast S900000 (extractStridedSlice S1x900000 ![0, 0] E slices_S2x900000_S1x900000_0_0) shapeCasts_S1x900000_S900000

def ra_v3 (E : IVec S2x900000 32) : IVec S900000 32 :=
  shapeCast S900000 (extractStridedSlice S1x900000 ![1, 0] E slices_S2x900000_S1x900000_1_0) shapeCasts_S1x900000_S900000

def ra_v12 (o : ℕ) (h1 : S3x64x64.Slices ![o, 0, 0] S1x64x64) (h2 : S3x64.Slices ![o, 0] S1x64)
    (X : FVec Ideal S300000x64 .f32) (Wp : FVec Ideal S3x64x64 .f32) (bp : FVec Ideal S3x64 .f32) :
    FVec Ideal S300000x64 .f32 :=
  maximumf
    (addf
      (Host.dotGeneral dot_S300000x64_S64x64_S300000x64_1_0_0_1_n_n none X
        (shapeCast S64x64 (extractStridedSlice S1x64x64 ![o, 0, 0] Wp h1) shapeCasts_S1x64x64_S64x64))
      (broadcastInDim S300000x64 ![0, 1] bcast_S1x64_S300000x64_0_1
        (broadcastInDim S1x64 ![1] bcast_S64_S1x64_1
          (shapeCast S64 (extractStridedSlice S1x64 ![o, 0] bp h2) shapeCasts_S1x64_S64))))
    (broadcastInDim S300000x64 ![] bcast_S_S300000x64 (constant S_ .f32 0x00000000#32))

def ra_v17 (s : IVec S900000 32) : IVec S900000 32 :=
  select (cmpi .slt s (broadcastInDim S900000 ![] bcast_S_S900000 (constantI S_ 32 0#32)))
    (addi s (broadcastInDim S900000 ![] bcast_S_S900000 (constantI S_ 32 300000#32))) s

def ra_f2 (P : FVec Ideal S300000x64 .f32) (s : IVec S900000 32) : FVec Ideal S900000x64 .f32 :=
  Host.gather gather_S300000x64_S900000x1_S900000x64_1_0_n_n_0_1_164 P
    (broadcastInDim S900000x1 ![0] bcast_S900000_S900000x1_0 (ra_v17 s))

def ra_v19 (o : ℕ) (h1 : S3x64x64.Slices ![o, 0, 0] S1x64x64) (h2 : S3x64.Slices ![o, 0] S1x64)
    (X : FVec Ideal S300000x64 .f32) (E : IVec S2x900000 32) (Wp : FVec Ideal S3x64x64 .f32) (bp : FVec Ideal S3x64 .f32) :
    FVec Ideal S900000x64 .f32 :=
  ra_f2 (ra_v12 o h1 h2 X Wp bp) (ra_v1 E)

def ra_v22 (d : IVec S900000 32) (G : FVec Ideal S900000x64 .f32) : FVec Ideal S300000x64 .f32 :=
  Host.scatterAdd scatter_S300000x64_S900000x1_S900000x64_1_0_0_1
    (broadcastInDim S300000x64 ![] bcast_S_S300000x64 (constant S_ .f32 0x00000000#32))
    (broadcastInDim S900000x1 ![0] bcast_S900000_S900000x1_0 d) G

def ra_v26 (d : IVec S900000 32) : FVec Ideal S300000x1 .f32 :=
  Host.scatterAdd scatter_S300000x1_S900000x1_S900000x1_1_0_0_1
    (broadcastInDim S300000x1 ![] bcast_S_S300000x1 (constant S_ .f32 0x00000000#32))
    (broadcastInDim S900000x1 ![0] bcast_S900000_S900000x1_0 d)
    (broadcastInDim S900000x1 ![] bcast_S_S900000x1 (constant S_ .f32 0x3F800000#32))

def ra_f3 (d : IVec S900000 32) (G : FVec Ideal S900000x64 .f32) : FVec Ideal S300000x64 .f32 :=
  Host.divf (ra_v22 d G)
    (broadcastInDim S300000x64 ![0, 1] bcast_S300000x1_S300000x64_0_1
      (maximumf (ra_v26 d) (broadcastInDim S300000x1 ![] bcast_S_S300000x1 (constant S_ .f32 0x3F800000#32))))

def ra_v30 (o : ℕ) (h1 : S3x64x64.Slices ![o, 0, 0] S1x64x64) (h2 : S3x64.Slices ![o, 0] S1x64)
    (X : FVec Ideal S300000x64 .f32) (E : IVec S2x900000 32) (Wp : FVec Ideal S3x64x64 .f32) (bp : FVec Ideal S3x64 .f32) :
    FVec Ideal S300000x64 .f32 :=
  ra_f3 (ra_v3 E) (ra_v19 o h1 h2 X E Wp bp)

def ra_f4 (o : ℕ) (h3 : S3x64x128.Slices ![o, 0, 0] S1x64x128) (h4 : S3x128.Slices ![o, 0] S1x128)
    (M X : FVec Ideal S300000x64 .f32) (Wl : FVec Ideal S3x64x128 .f32) (bl : FVec Ideal S3x128 .f32)
    (Wr : FVec Ideal S3x64x128 .f32) : FVec Ideal S300000x128 .f32 :=
  addf
    (addf
      (Host.dotGeneral dot_S300000x64_S64x128_S300000x128_1_0_0_1_n_n none M
        (shapeCast S64x128 (extractStridedSlice S1x64x128 ![o, 0, 0] Wl h3) shapeCasts_S1x64x128_S64x128))
      (broadcastInDim S300000x128 ![0, 1] bcast_S1x128_S300000x128_0_1
        (broadcastInDim S1x128 ![1] bcast_S128_S1x128_1
          (shapeCast S128 (extractStridedSlice S1x128 ![o, 0] bl h4) shapeCasts_S1x128_S128))))
    (Host.dotGeneral dot_S300000x64_S64x128_S300000x128_1_0_0_1_n_n none X
      (shapeCast S64x128 (extractStridedSlice S1x64x128 ![o, 0, 0] Wr h3) shapeCasts_S1x64x128_S64x128))

def ra_v42 (o : ℕ) (h1 : S3x64x64.Slices ![o, 0, 0] S1x64x64) (h2 : S3x64.Slices ![o, 0] S1x64)
    (h3 : S3x64x128.Slices ![o, 0, 0] S1x64x128) (h4 : S3x128.Slices ![o, 0] S1x128)
    (X : FVec Ideal S300000x64 .f32) (E : IVec S2x900000 32) (Wp : FVec Ideal S3x64x64 .f32) (bp : FVec Ideal S3x64 .f32)
    (Wl : FVec Ideal S3x64x128 .f32) (bl : FVec Ideal S3x128 .f32) (Wr : FVec Ideal S3x64x128 .f32) :
    FVec Ideal S300000x128 .f32 :=
  ra_f4 o h3 h4 (ra_v30 o h1 h2 X E Wp bp) X Wl bl Wr

def ra_v47 (o : ℕ) (h1 : S3x64x64.Slices ![o, 0, 0] S1x64x64) (h2 : S3x64.Slices ![o, 0] S1x64)
    (h3 : S3x64x128.Slices ![o, 0, 0] S1x64x128) (h4 : S3x128.Slices ![o, 0] S1x128)
    (X : FVec Ideal S300000x64 .f32) (E : IVec S2x900000 32) (Wp : FVec Ideal S3x64x64 .f32) (bp : FVec Ideal S3x64 .f32)
    (Wl : FVec Ideal S3x64x128 .f32) (bl : FVec Ideal S3x128 .f32) (Wr : FVec Ideal S3x64x128 .f32) :
    FVec Ideal S300000x128 .f32 :=
  ra_f5 (ra_v42 o h1 h2 h3 h4 X E Wp bp Wl bl Wr)

theorem ra_v1_apply (E : IVec S2x900000 32) (e : Fin 900000) : ra_v1 E (ix1 e) = E (ix2 0 e) :=
  ra_vec_of_stack 0 (0 : Fin 2) rfl E _ _ e

theorem ra_v3_apply (E : IVec S2x900000 32) (e : Fin 900000) : ra_v3 E (ix1 e) = E (ix2 1 e) :=
  ra_vec_of_stack 1 (1 : Fin 2) rfl E _ _ e

theorem ra_v17_apply (E : IVec S2x900000 32) (e : Fin 900000) :
    ra_v17 (ra_v1 E) (ix1 e) = normIdx 300000 (E (ix2 0 e)) := by
  rw [← ra_v1_apply E e, ← normIdx_eq]
  rfl

theorem ra_dst_eq (E : IVec S2x900000 32) :
    (fun e : Fin 900000 => broadcastInDim S900000x1 ![0] bcast_S900000_S900000x1_0 (ra_v3 E) (ix2 e (0 : Fin 1)))
      = fun e => E (ix2 1 e) :=
  funext fun e => by rw [ra_bcast_col, ra_v3_apply]

section Read

variable (o : ℕ) (t : Fin 3) (ht : t.val = o)
  (h1 : S3x64x64.Slices ![o, 0, 0] S1x64x64) (h2 : S3x64.Slices ![o, 0] S1x64)
  (h3 : S3x64x128.Slices ![o, 0, 0] S1x64x128) (h4 : S3x128.Slices ![o, 0] S1x128)
  (X : FVec Ideal S300000x64 .f32) (E : IVec S2x900000 32) (Wp : FVec Ideal S3x64x64 .f32) (bp : FVec Ideal S3x64 .f32)
  (Wl : FVec Ideal S3x64x128 .f32) (bl : FVec Ideal S3x128 .f32) (Wr : FVec Ideal S3x64x128 .f32)

include ht

theorem ra_v12_apply (r : Fin 300000) (j : Fin 64) :
    ra_v12 o h1 h2 X Wp bp (ix2 r j) = proj X Wp bp t r j := by
  unfold ra_v12 proj
  rw [maximumf_apply, addf_apply, ra_dot_apply _ ra_dot64_eq, broadcastInDim_oneRow_apply, ra_bcast_row,
    ra_vec_of_stack o t ht]
  simp only [ra_mat_of_stack o t ht]
  rfl

theorem ra_v19_apply (e : Fin 900000) (j : Fin 64) :
    ra_v19 o h1 h2 X E Wp bp (ix2 e j)
      = proj X Wp bp t (clampRow 300000 (by decide) (normIdx 300000 (E (ix2 0 e)))) j := by
  unfold ra_v19 ra_f2
  have hg := gather_rows_apply (N := 300000) (M := 900000) (C := 64) (by decide)
    gather_S300000x64_S900000x1_S900000x64_1_0_n_n_0_1_164 rfl rfl rfl rfl rfl rfl rfl
    (ra_v12 o h1 h2 X Wp bp) (broadcastInDim S900000x1 ![0] bcast_S900000_S900000x1_0 (ra_v17 (ra_v1 E))) e j
  rw [hg, ra_bcast_col, ra_v17_apply, ra_v12_apply o t ht]

theorem ra_v22_apply (r : Fin 300000) (k : Fin 64) :
    ra_v22 (ra_v3 E) (ra_v19 o h1 h2 X E Wp bp) (ix2 r k)
      = segSum (fun e : Fin 900000 => E (ix2 1 e))
          (fun e j => proj X Wp bp t (clampRow 300000 (by decide) (normIdx 300000 (E (ix2 0 e)))) j) r.val k := by
  unfold ra_v22
  have hs := scatterAdd_rows_apply (N := 300000) (M := 900000) (C := 64)
    scatter_S300000x64_S900000x1_S900000x64_1_0_0_1 rfl rfl rfl rfl
    (broadcastInDim S300000x64 ![] bcast_S_S300000x64 (constant (F := Ideal) S_ .f32 0x00000000#32))
    (broadcastInDim S900000x1 ![0] bcast_S900000_S900000x1_0 (ra_v3 E)) (ra_v19 o h1 h2 X E Wp bp) r k
  rw [ra_hscatter_eq, hs]
  have hz : broadcastInDim S300000x64 ![] bcast_S_S300000x64 (constant (F := Ideal) S_ .f32 0x00000000#32) (ix2 r k) = 0 :=
    Ideal.ofBits_zero_f32
  rw [hz, zero_add]
  simp only [ra_v19_apply o t ht]
  rw [ra_dst_eq]

omit ht in
theorem ra_v26_apply (r : Fin 300000) :
    ra_v26 (ra_v3 E) (ix2 r (0 : Fin 1)) = segCnt (fun e : Fin 900000 => E (ix2 1 e)) r.val := by
  unfold ra_v26
  have hs := scatterAdd_rows_apply (N := 300000) (M := 900000) (C := 1)
    scatter_S300000x1_S900000x1_S900000x1_1_0_0_1 rfl rfl rfl rfl
    (broadcastInDim S300000x1 ![] bcast_S_S300000x1 (constant (F := Ideal) S_ .f32 0x00000000#32))
    (broadcastInDim S900000x1 ![0] bcast_S900000_S900000x1_0 (ra_v3 E))
    (broadcastInDim S900000x1 ![] bcast_S_S900000x1 (constant (F := Ideal) S_ .f32 0x3F800000#32)) r (0 : Fin 1)
  rw [ra_hscatter_eq, hs]
  have hz : broadcastInDim S300000x1 ![] bcast_S_S300000x1 (constant (F := Ideal) S_ .f32 0x00000000#32) (ix2 r (0 : Fin 1)) = 0 :=
    Ideal.ofBits_zero_f32
  rw [hz, zero_add]
  rw [ra_dst_eq]
  unfold segSum segCnt
  exact Finset.sum_congr rfl fun e _ => rfl

theorem ra_v30_apply (r : Fin 300000) (k : Fin 64) :
    ra_v30 o h1 h2 X E Wp bp (ix2 r k)
      = Ideal.div
          (segSum (fun e : Fin 900000 => E (ix2 1 e))
            (fun e j => proj X Wp bp t (clampRow 300000 (by decide) (normIdx 300000 (E (ix2 0 e)))) j) r.val k)
          (max (segCnt (fun e : Fin 900000 => E (ix2 1 e)) r.val) oneW) := by
  unfold ra_v30 ra_f3
  rw [ra_hdivf_apply, ra_v22_apply o t ht, ra_bcast_cols, maximumf_apply, ra_v26_apply, ra_bconst_apply]
  rfl

theorem ra_v42_apply (r : Fin 300000) (q : Fin 128) :
    ra_v42 o h1 h2 h3 h4 X E Wp bp Wl bl Wr (ix2 r q)
      = lin (segSum (fun e : Fin 900000 => E (ix2 1 e))
              (fun e j => proj X Wp bp t (clampRow 300000 (by decide) (normIdx 300000 (E (ix2 0 e)))) j) r.val)
          (segCnt (fun e : Fin 900000 => E (ix2 1 e)) r.val)
          (fun k => X (ix2 r k)) (fun k q => Wl (ix3 t k q)) (fun k q => Wr (ix3 t k q)) (fun q => bl (ix2 t q)) q := by
  unfold ra_v42 ra_f4 lin
  rw [addf_apply, addf_apply, ra_dot_apply _ ra_dot128_eq, ra_dot_apply _ ra_dot128_eq, broadcastInDim_oneRow_apply,
    ra_bcast_row, ra_vec_of_stack o t ht]
  simp only [ra_mat_of_stack o t ht, ra_v30_apply o t ht]

theorem ra_v47_apply (r : Fin 300000) (q : Fin 128) :
    ra_v47 o h1 h2 h3 h4 X E Wp bp Wl bl Wr (ix2 r q)
      = l2n (lin (segSum (fun e : Fin 900000 => E (ix2 1 e))
              (fun e j => proj X Wp bp t (clampRow 300000 (by decide) (normIdx 300000 (E (ix2 0 e)))) j) r.val)
          (segCnt (fun e : Fin 900000 => E (ix2 1 e)) r.val)
          (fun k => X (ix2 r k)) (fun k q => Wl (ix3 t k q)) (fun k q => Wr (ix3 t k q)) (fun q => bl (ix2 t q))) q := by
  unfold ra_v47
  exact ra_l2n_of _ r _ (fun q => ra_v42_apply o t ht h1 h2 h3 h4 X E Wp bp Wl bl Wr r q) q

end Read

section Runs

variable (V W : Valuation τ sig (Elt Ideal))

theorem ra_keep {ws : List (Ref sig .tc)} {ops sub : List (HloOp τ sig (Elt Ideal))}
    (hW : ops.Forall fun op => op.writes ⊆ (ws.map (Proc.devRef (τ := τ) .tc)).toFinset) (hs : sub.Sublist ops)
    (W : Valuation τ sig (Elt Ideal)) (b : Ref sig .tc) (hb : b ∉ ws) : after sub W (dr b) = W (dr b) :=
  after_of_writes_sub sub W (List.forall_iff_forall_mem.mpr fun op h => List.forall_iff_forall_mem.mp hW op (hs.subset h)) hb

theorem ra_split0 : (opsA0 : List (HloOp τ sig (Elt Ideal)))
    = (opsA0 (F := Ideal)).take 39 ++ (((opsA0 (F := Ideal)).drop 39).take 12 ++ (opsA0 (F := Ideal)).drop 51) := rfl

theorem ra_split0' : (opsA0 (F := Ideal)).take 39
    = (opsA0 (F := Ideal)).take 15 ++ (((opsA0 (F := Ideal)).drop 15).take 9 ++ ((opsA0 (F := Ideal)).drop 24).take 15) := rfl

theorem ra_s1_0 : after ((opsA0 (F := Ideal)).take 15) W (dr main_v12)
      = ra_v12 0 slices_S3x64x64_S1x64x64_0_0_0 slices_S3x64_S1x64_0_0 (W (dr main_arg0)) (W (dr main_arg6))
          (W (dr main_arg7))
    ∧ after ((opsA0 (F := Ideal)).take 15) W (dr main_v1) = ra_v1 (W (dr main_arg1))
    ∧ after ((opsA0 (F := Ideal)).take 15) W (dr main_v3) = ra_v3 (W (dr main_arg1)) := by
  simp only [opsA0, List.take_succ_cons, List.take_zero]
  refine ⟨?_, ?_, ?_⟩ <;> after_results_simp <;> (try simp only [TRef.ofBuf, TRef.toBuf, cast_eq]) <;> rfl

theorem ra_s2_0 : after (((opsA0 (F := Ideal)).drop 15).take 9) W (dr main_v19)
      = ra_f2 (W (dr main_v12)) (W (dr main_v1)) := by
  simp only [opsA0, List.drop_succ_cons, List.drop_zero, List.take_succ_cons, List.take_zero]
  after_results_simp
  rfl

theorem ra_k2_0 : after (((opsA0 (F := Ideal)).drop 15).take 9) W (dr main_v3) = W (dr main_v3) := by
  simp only [opsA0, List.drop_succ_cons, List.drop_zero, List.take_succ_cons, List.take_zero]
  after_results_simp

theorem ra_s3_0 : after (((opsA0 (F := Ideal)).drop 24).take 15) W (dr main_v30)
      = ra_f3 (W (dr main_v3)) (W (dr main_v19)) := by
  simp only [opsA0, List.drop_succ_cons, List.drop_zero, List.take_succ_cons, List.take_zero]
  after_results_simp
  rfl

theorem ra_s4_0 : after (((opsA0 (F := Ideal)).drop 39).take 12) W (dr main_v42)
      = ra_f4 0 slices_S3x64x128_S1x64x128_0_0_0 slices_S3x128_S1x128_0_0 (W (dr main_v30)) (W (dr main_arg0))
          (W (dr main_arg8)) (W (dr main_arg9)) (W (dr main_arg10)) := by
  simp only [opsA0, List.drop_succ_cons, List.drop_zero, List.take_succ_cons, List.take_zero]
  after_results_simp
  rfl

theorem ra_s5_0 : after ((opsA0 (F := Ideal)).drop 51) W (dr main_v47) = ra_f5 (W (dr main_v42)) := by
  simp only [opsA0, List.drop_succ_cons, List.drop_zero]
  after_results_simp
  simp only [TRef.ofBuf, TRef.toBuf, cast_eq]
  rfl

theorem ra_run0 : after opsA0 V (dr main_v47)
    = ra_v47 0 slices_S3x64x64_S1x64x64_0_0_0 slices_S3x64_S1x64_0_0 slices_S3x64x128_S1x64x128_0_0_0
        slices_S3x128_S1x128_0_0 (V (dr main_arg0)) (V (dr main_arg1)) (V (dr main_arg6)) (V (dr main_arg7))
        (V (dr main_arg8)) (V (dr main_arg9)) (V (dr main_arg10)) := by
  have hs : ((opsA0 (F := Ideal)).take 39).Sublist opsA0 := List.take_sublist _ _
  rw [ra_split0, after_append, after_append, ra_s5_0, ra_s4_0, ra_keep opsA0_writes hs V main_arg0 (by decide),
    ra_keep opsA0_writes hs V main_arg8 (by decide), ra_keep opsA0_writes hs V main_arg9 (by decide),
    ra_keep opsA0_writes hs V main_arg10 (by decide), ra_split0', after_append, after_append, ra_s3_0, ra_s2_0, ra_k2_0,
    (ra_s1_0 _).1, (ra_s1_0 _).2.1, (ra_s1_0 _).2.2]
  rfl

theorem refA0 (r : Fin 300000) (q : Fin 128) : after opsA0 V (dr main_v47) (ix2 r q) =
    l2n (lin (segSum (fun e : Fin 900000 => V (dr main_arg1) (ix2 1 e))
                (fun e j => proj (V (dr main_arg0)) (V (dr main_arg6)) (V (dr main_arg7)) 0
                  (clampRow 300000 (by decide) (normIdx 300000 (V (dr main_arg1) (ix2 0 e)))) j) r.val)
             (segCnt (fun e : Fin 900000 => V (dr main_arg1) (ix2 1 e)) r.val)
             (fun k => V (dr main_arg0) (ix2 r k)) (fun k q => V (dr main_arg8) (ix3 0 k q))
             (fun k q => V (dr main_arg10) (ix3 0 k q)) (fun q => V (dr main_arg9) (ix2 0 q))) q := by
  rw [ra_run0 V]
  exact ra_v47_apply 0 0 rfl _ _ _ _ _ _ _ _ _ _ _ r q

theorem keepA0 (b : Ref sig .tc) (hb : b ∈ args) : after opsA0 V (dr b) = V (dr b) :=
  after_of_writes_sub opsA0 V opsA0_writes ((by decide : ∀ x ∈ args, x ∉ wA0) b hb)

end Runs

end Cert.ReferenceIdeal.Hand

end
-- ==== Proof.RefReadA1.lean ====
import proofs.«421255_j8237747274315_3_alg».proof.Proof.RefReadA

noncomputable section

namespace Cert.ReferenceIdeal.Hand

open Cert.ReferenceIdeal Cert.ReferenceIdeal.Gen Cert.Spec Idealize.ShloMosaic Idealize.ShloMosaic.ValueIdx
  Idealize.ShloMosaic.StableHlo

local notation "dr" => Proc.devRef (τ := τ) Proc.tc

section Runs

variable (V W : Valuation τ sig (Elt Ideal))

theorem ra_split1 : (opsA1 : List (HloOp τ sig (Elt Ideal)))
    = (opsA1 (F := Ideal)).take 39 ++ (((opsA1 (F := Ideal)).drop 39).take 12 ++ (opsA1 (F := Ideal)).drop 51) := rfl

theorem ra_split1' : (opsA1 (F := Ideal)).take 39
    = (opsA1 (F := Ideal)).take 15 ++ (((opsA1 (F := Ideal)).drop 15).take 9 ++ ((opsA1 (F := Ideal)).drop 24).take 15) := rfl

theorem ra_s1_1 : after ((opsA1 (F := Ideal)).take 15) W (dr main_v60)
      = ra_v12 1 slices_S3x64x64_S1x64x64_1_0_0 slices_S3x64_S1x64_1_0 (W (dr main_arg0)) (W (dr main_arg6))
          (W (dr main_arg7))
    ∧ after ((opsA1 (F := Ideal)).take 15) W (dr main_v49) = ra_v1 (W (dr main_arg2))
    ∧ after ((opsA1 (F := Ideal)).take 15) W (dr main_v51) = ra_v3 (W (dr main_arg2)) := by
  simp only [opsA1, List.take_succ_cons, List.take_zero]
  refine ⟨?_, ?_, ?_⟩ <;> after_results_simp <;> (try simp only [TRef.ofBuf, TRef.toBuf, cast_eq]) <;> rfl

theorem ra_s2_1 : after (((opsA1 (F := Ideal)).drop 15).take 9) W (dr main_v67)
      = ra_f2 (W (dr main_v60)) (W (dr main_v49)) := by
  simp only [opsA1, List.drop_succ_cons, List.drop_zero, List.take_succ_cons, List.take_zero]
  after_results_simp
  rfl

theorem ra_k2_1 : after (((opsA1 (F := Ideal)).drop 15).take 9) W (dr main_v51) = W (dr main_v51) := by
  simp only [opsA1, List.drop_succ_cons, List.drop_zero, List.take_succ_cons, List.take_zero]
  after_results_simp

theorem ra_s3_1 : after (((opsA1 (F := Ideal)).drop 24).take 15) W (dr main_v78)
      = ra_f3 (W (dr main_v51)) (W (dr main_v67)) := by
  simp only [opsA1, List.drop_succ_cons, List.drop_zero, List.take_succ_cons, List.take_zero]
  after_results_simp
  rfl

theorem ra_s4_1 : after (((opsA1 (F := Ideal)).drop 39).take 12) W (dr main_v90)
      = ra_f4 1 slices_S3x64x128_S1x64x128_1_0_0 slices_S3x128_S1x128_1_0 (W (dr main_v78)) (W (dr main_arg0))
          (W (dr main_arg8)) (W (dr main_arg9)) (W (dr main_arg10)) := by
  simp only [opsA1, List.drop_succ_cons, List.drop_zero, List.take_succ_cons, List.take_zero]
  after_results_simp
  rfl

theorem ra_s5_1 : after ((opsA1 (F := Ideal)).drop 51) W (dr main_v95) = ra_f5 (W (dr main_v90)) := by
  simp only [opsA1, List.drop_succ_cons, List.drop_zero]
  after_results_simp
  simp only [TRef.ofBuf, TRef.toBuf, cast_eq]
  rfl

theorem ra_run1 : after opsA1 V (dr main_v95)
    = ra_v47 1 slices_S3x64x64_S1x64x64_1_0_0 slices_S3x64_S1x64_1_0 slices_S3x64x128_S1x64x128_1_0_0
        slices_S3x128_S1x128_1_0 (V (dr main_arg0)) (V (dr main_arg2)) (V (dr main_arg6)) (V (dr main_arg7))
        (V (dr main_arg8)) (V (dr main_arg9)) (V (dr main_arg10)) := by
  have hs : ((opsA1 (F := Ideal)).take 39).Sublist opsA1 := List.take_sublist _ _
  rw [ra_split1, after_append, after_append, ra_s5_1, ra_s4_1, ra_keep opsA1_writes hs V main_arg0 (by decide),
    ra_keep opsA1_writes hs V main_arg8 (by decide), ra_keep opsA1_writes hs V main_arg9 (by decide),
    ra_keep opsA1_writes hs V main_arg10 (by decide), ra_split1', after_append, after_append, ra_s3_1, ra_s2_1, ra_k2_1,
    (ra_s1_1 _).1, (ra_s1_1 _).2.1, (ra_s1_1 _).2.2]
  rfl

theorem refA1 (r : Fin 300000) (q : Fin 128) : after opsA1 V (dr main_v95) (ix2 r q) =
    l2n (lin (segSum (fun e : Fin 900000 => V (dr main_arg2) (ix2 1 e))
                (fun e j => proj (V (dr main_arg0)) (V (dr main_arg6)) (V (dr main_arg7)) 1
                  (clampRow 300000 (by decide) (normIdx 300000 (V (dr main_arg2) (ix2 0 e)))) j) r.val)
             (segCnt (fun e : Fin 900000 => V (dr main_arg2) (ix2 1 e)) r.val)
             (fun k => V (dr main_arg0) (ix2 r k)) (fun k q => V (dr main_arg8) (ix3 1 k q))
             (fun k q => V (dr main_arg10) (ix3 1 k q)) (fun q => V (dr main_arg9) (ix2 1 q))) q := by
  rw [ra_run1 V]
  exact ra_v47_apply 1 1 rfl _ _ _ _ _ _ _ _ _ _ _ r q

theorem keepA1 (b : Ref sig .tc) (hb : b ∈ args ++ [main_v47]) : after opsA1 V (dr b) = V (dr b) :=
  after_of_writes_sub opsA1 V opsA1_writes ((by decide : ∀ x ∈ args ++ [main_v47], x ∉ wA1) b hb)

end Runs

end Cert.ReferenceIdeal.Hand

end
-- ==== Proof.RefReadA2.lean ====
import proofs.«421255_j8237747274315_3_alg».proof.Proof.RefReadA

noncomputable section

namespace Cert.ReferenceIdeal.Hand

open Cert.ReferenceIdeal Cert.ReferenceIdeal.Gen Cert.Spec Idealize.ShloMosaic Idealize.ShloMosaic.ValueIdx
  Idealize.ShloMosaic.StableHlo

local notation "dr" => Proc.devRef (τ := τ) Proc.tc

section Runs

variable (V W : Valuation τ sig (Elt Ideal))

theorem ra2_split : (opsA2 : List (HloOp τ sig (Elt Ideal)))
    = (opsA2 (F := Ideal)).take 39 ++ (((opsA2 (F := Ideal)).drop 39).take 12 ++ (opsA2 (F := Ideal)).drop 51) := rfl

theorem ra2_split' : (opsA2 (F := Ideal)).take 39
    = (opsA2 (F := Ideal)).take 15 ++ (((opsA2 (F := Ideal)).drop 15).take 9 ++ ((opsA2 (F := Ideal)).drop 24).take 15) := rfl

theorem ra2_s1 : after ((opsA2 (F := Ideal)).take 15) W (dr main_v108)
      = ra_v12 2 slices_S3x64x64_S1x64x64_2_0_0 slices_S3x64_S1x64_2_0 (W (dr main_arg0)) (W (dr main_arg6))
          (W (dr main_arg7))
    ∧ after ((opsA2 (F := Ideal)).take 15) W (dr main_v97) = ra_v1 (W (dr main_arg3))
    ∧ after ((opsA2 (F := Ideal)).take 15) W (dr main_v99) = ra_v3 (W (dr main_arg3)) := by
  simp only [opsA2, List.take_succ_cons, List.take_zero]
  refine ⟨?_, ?_, ?_⟩ <;> after_results_simp <;> (try simp only [TRef.ofBuf, TRef.toBuf, cast_eq]) <;> rfl

theorem ra2_s2 : after (((opsA2 (F := Ideal)).drop 15).take 9) W (dr main_v115)
      = ra_f2 (W (dr main_v108)) (W (dr main_v97)) := by
  simp only [opsA2, List.drop_succ_cons, List.drop_zero, List.take_succ_cons, List.take_zero]
  after_results_simp
  rfl

theorem ra2_k2 : after (((opsA2 (F := Ideal)).drop 15).take 9) W (dr main_v99) = W (dr main_v99) := by
  simp only [opsA2, List.drop_succ_cons, List.drop_zero, List.take_succ_cons, List.take_zero]
  after_results_simp

theorem ra2_s3 : after (((opsA2 (F := Ideal)).drop 24).take 15) W (dr main_v126)
      = ra_f3 (W (dr main_v99)) (W (dr main_v115)) := by
  simp only [opsA2, List.drop_succ_cons, List.drop_zero, List.take_succ_cons, List.take_zero]
  after_results_simp
  rfl

theorem ra2_s4 : after (((opsA2 (F := Ideal)).drop 39).take 12) W (dr main_v138)
      = ra_f4 2 slices_S3x64x128_S1x64x128_2_0_0 slices_S3x128_S1x128_2_0 (W (dr main_v126)) (W (dr main_arg0))
          (W (dr main_arg8)) (W (dr main_arg9)) (W (dr main_arg10)) := by
  simp only [opsA2, List.drop_succ_cons, List.drop_zero, List.take_succ_cons, List.take_zero]
  after_results_simp
  rfl

theorem ra2_s5 : after ((opsA2 (F := Ideal)).drop 51) W (dr main_v143) = ra_f5 (W (dr main_v138)) := by
  simp only [opsA2, List.drop_succ_cons, List.drop_zero]
  after_results_simp
  simp only [TRef.ofBuf, TRef.toBuf, cast_eq]
  rfl

theorem ra2_run : after opsA2 V (dr main_v143)
    = ra_v47 2 slices_S3x64x64_S1x64x64_2_0_0 slices_S3x64_S1x64_2_0 slices_S3x64x128_S1x64x128_2_0_0
        slices_S3x128_S1x128_2_0 (V (dr main_arg0)) (V (dr main_arg3)) (V (dr main_arg6)) (V (dr main_arg7))
        (V (dr main_arg8)) (V (dr main_arg9)) (V (dr main_arg10)) := by
  have hs : ((opsA2 (F := Ideal)).take 39).Sublist opsA2 := List.take_sublist _ _
  rw [ra2_split, after_append, after_append, ra2_s5, ra2_s4, ra_keep opsA2_writes hs V main_arg0 (by decide),
    ra_keep opsA2_writes hs V main_arg8 (by decide), ra_keep opsA2_writes hs V main_arg9 (by decide),
    ra_keep opsA2_writes hs V main_arg10 (by decide), ra2_split', after_append, after_append, ra2_s3, ra2_s2, ra2_k2,
    (ra2_s1 _).1, (ra2_s1 _).2.1, (ra2_s1 _).2.2]
  rfl

theorem refA2 (r : Fin 300000) (q : Fin 128) : after opsA2 V (dr main_v143) (ix2 r q) =
    l2n (lin (segSum (fun e : Fin 900000 => V (dr main_arg3) (ix2 1 e))
                (fun e j => proj (V (dr main_arg0)) (V (dr main_arg6)) (V (dr main_arg7)) 2
                  (clampRow 300000 (by decide) (normIdx 300000 (V (dr main_arg3) (ix2 0 e)))) j) r.val)
             (segCnt (fun e : Fin 900000 => V (dr main_arg3) (ix2 1 e)) r.val)
             (fun k => V (dr main_arg0) (ix2 r k)) (fun k q => V (dr main_arg8) (ix3 2 k q))
             (fun k q => V (dr main_arg10) (ix3 2 k q)) (fun q => V (dr main_arg9) (ix2 2 q))) q := by
  rw [ra2_run V]
  exact ra_v47_apply 2 2 rfl _ _ _ _ _ _ _ _ _ _ _ r q

theorem keepA2 (b : Ref sig .tc) (hb : b ∈ args ++ [main_v47, main_v95]) : after opsA2 V (dr b) = V (dr b) :=
  after_of_writes_sub opsA2 V opsA2_writes ((by decide : ∀ x ∈ args ++ [main_v47, main_v95], x ∉ wA2) b hb)

end Runs

end Cert.ReferenceIdeal.Hand

end
-- ==== Proof.RefReadB.lean ====
import proofs.«421255_j8237747274315_3_alg».proof.Proof.RefRun
import proofs.«421255_j8237747274315_3_alg».proof.Proof.Spec
import Idealize.ShloMosaic.Lib.StableHlo.Run
import Idealize.ShloMosaic.Lib.IdealHost
import Idealize.ShloMosaic.Lib.Pipeline.Value
import Idealize.ShloMosaic.PureOps.Ideal.Laws

noncomputable section

namespace Cert.ReferenceIdeal.Hand

open Cert.ReferenceIdeal Cert.ReferenceIdeal.Gen Cert.Spec Idealize.ShloMosaic Idealize.ShloMosaic.TcCoe Idealize.SL.Sem
  Idealize.ShloMosaic.ValueIdx Idealize.ShloMosaic.StableHlo

section Tail

abbrev sRow (N : ℕ) : Shape := ⟨2, ![N, 128]⟩
abbrev sCol (N : ℕ) : Shape := ⟨2, ![N, 1]⟩
abbrev sVec (N : ℕ) : Shape := ⟨1, ![N]⟩
abbrev sOne (N : ℕ) : Shape := ⟨3, ![1, N, 128]⟩
abbrev sStk (N : ℕ) : Shape := ⟨3, ![3, N, 128]⟩

/-- What the shapes at `N` rows must satisfy; at a literal `N` each clause is decidable. -/
structure TailOK (N : ℕ) : Prop where
  lead : (sRow N).BroadcastsInDim (sOne N) (![1, 2] : Fin 2 → Fin 3)
  cat : Shape.Concatenates [sOne N, sOne N, sOne N] (sStk N) 0
  red0 : (sStk N).ReducesTo [0] (sRow N)
  red0' : (sStk N).Reduces [0] (sRow N)
  all : S_.BroadcastsInDim (sRow N) (![] : Fin 0 → Fin 2)
  red1 : (sRow N).ReducesTo [1] (sVec N)
  red1' : (sRow N).Reduces [1] (sVec N)
  col : (sVec N).BroadcastsInDim (sCol N) (![0] : Fin 1 → Fin 2)
  allc : S_.BroadcastsInDim (sCol N) (![] : Fin 0 → Fin 2)
  row : (sCol N).BroadcastsInDim (sRow N) (![0, 1] : Fin 2 → Fin 2)
  vec : S1x128.BroadcastsInDim (sRow N) (![0, 1] : Fin 2 → Fin 2)

variable {N : ℕ} (w : TailOK N)

/-- Three arrays stacked on a new axis, summed over it, divided by three, clipped at zero. -/
def relu3 (x0 x1 x2 : FVec Ideal (sRow N) .f32) : FVec Ideal (sRow N) .f32 :=
  maximumf (Host.divf (Host.reduceAdd (concatenate (sStk N) 0 [⟨sOne N, broadcastInDim (sOne N) ![1, 2] w.lead x0⟩, ⟨sOne N, broadcastInDim (sOne N) ![1, 2] w.lead x1⟩, ⟨sOne N, broadcastInDim (sOne N) ![1, 2] w.lead x2⟩] w.cat) (constant (F := Ideal) S_ .f32 0x00000000#32) w.red0 h_S_)
    (broadcastInDim (sRow N) ![] w.all (constant (F := Ideal) S_ .f32 0x40400000#32))) (broadcastInDim (sRow N) ![] w.all (constant (F := Ideal) S_ .f32 0x00000000#32))

/-- The column of row sums over `128`. -/
def rowMean (X : FVec Ideal (sRow N) .f32) : FVec Ideal (sCol N) .f32 :=
  Host.divf (broadcastInDim (sCol N) ![0] w.col (Host.reduceAdd X (constant (F := Ideal) S_ .f32 0x00000000#32) w.red1 h_S_)) (broadcastInDim (sCol N) ![] w.allc (constant (F := Ideal) S_ .f32 0x43000000#32))

/-- The column of mean squared deviations; the divisor `128 - 0` is positive, so the guard picks the quotient. -/
def rowVar (X : FVec Ideal (sRow N) .f32) : FVec Ideal (sCol N) .f32 :=
  select (broadcastInDim (sCol N) ![] w.allc (cmpf .ogt (subf (constant (F := Ideal) S_ .f32 0x43000000#32) (sitofp (F := Ideal) .f32 (constantI S_ 32 0#32))) (constant (F := Ideal) S_ .f32 0x00000000#32)))
    (Host.divf (broadcastInDim (sCol N) ![0] w.col (Host.reduceAdd (mulf (subf X (broadcastInDim (sRow N) ![0, 1] w.row (rowMean w X))) (subf X (broadcastInDim (sRow N) ![0, 1] w.row (rowMean w X)))) (constant (F := Ideal) S_ .f32 0x00000000#32) w.red1 h_S_))
      (broadcastInDim (sCol N) ![] w.allc (subf (constant (F := Ideal) S_ .f32 0x43000000#32) (sitofp (F := Ideal) .f32 (constantI S_ 32 0#32)))))
    (broadcastInDim (sCol N) ![] w.allc (id (constant (F := Ideal) S_ .f32 0x7FC00000#32)))

/-- Centre each row, multiply by `rsqrt (variance + ε)`, scale by `g`, shift by `b`. -/
def rowNorm (X : FVec Ideal (sRow N) .f32) (g b : FVec Ideal S128 .f32) : FVec Ideal (sRow N) .f32 :=
  addf (mulf (mulf (subf X (broadcastInDim (sRow N) ![0, 1] w.row (rowMean w X))) (broadcastInDim (sRow N) ![0, 1] w.row (Host.rsqrt (addf (rowVar w X) (broadcastInDim (sCol N) ![] w.allc (constant (F := Ideal) S_ .f32 0x3727C5AC#32))))))
    (broadcastInDim (sRow N) ![0, 1] w.vec (broadcastInDim S1x128 ![1] bcast_S128_S1x128_1 g))) (broadcastInDim (sRow N) ![0, 1] w.vec (broadcastInDim S1x128 ![1] bcast_S128_S1x128_1 b))

/-- If `N = 1` the only index is `0`. -/
private theorem fin_ite (r : Fin N) : r.val = if N = 1 then 0 else r.val := by
  split
  · have := r.isLt; omega
  · rfl

private theorem bc_all {α : Type} {n m : ℕ} {h} (x : S_.Idx → α) (j : (⟨2, ![n, m]⟩ : Shape).Idx) :
    broadcastInDim ⟨2, ![n, m]⟩ (![] : Fin 0 → Fin 2) h x j = x ix0 :=
  broadcastInDim_scalar_apply _ x j

private theorem bc_row {α : Type} {h} (x : (sCol N).Idx → α) (r : Fin N) (q : Fin 128) :
    broadcastInDim (sRow N) (![0, 1] : Fin 2 → Fin 2) h x (ix2 r q) = x (ix2 r 0) :=
  broadcastInDim_apply _ _ x _ (ix2 r 0) (fun a => match a with | ⟨0, _⟩ => fin_ite r | ⟨1, _⟩ => rfl)

private theorem bc_col {α : Type} {h} (x : (sVec N).Idx → α) (r : Fin N) :
    broadcastInDim (sCol N) (![0] : Fin 1 → Fin 2) h x (ix2 r 0) = x (ix1 r) :=
  broadcastInDim_apply _ _ x _ (ix1 r) (fun a => match a with | ⟨0, _⟩ => fin_ite r)

private theorem bc_vec1 {α : Type} (x : S128.Idx → α) (q : Fin 128) :
    broadcastInDim S1x128 (![1] : Fin 1 → Fin 2) bcast_S128_S1x128_1 x (ix2 0 q) = x (ix1 q) :=
  broadcastInDim_apply _ _ x _ (ix1 q) (fun a => match a with | ⟨0, _⟩ => rfl)

private theorem bc_vec {α : Type} {h} (x : S1x128.Idx → α) (r : Fin N) (q : Fin 128) :
    broadcastInDim (sRow N) (![0, 1] : Fin 2 → Fin 2) h x (ix2 r q) = x (ix2 0 q) :=
  broadcastInDim_apply _ _ x _ (ix2 0 q) (fun a => match a with | ⟨0, _⟩ => rfl | ⟨1, _⟩ => rfl)

private theorem bc_lead {α : Type} {h} (x : (sRow N).Idx → α) (r : Fin N) (q : Fin 128) :
    broadcastInDim (sOne N) (![1, 2] : Fin 2 → Fin 3) h x (ix3 0 r q) = x (ix2 r q) :=
  broadcastInDim_apply _ _ x _ (ix2 r q) (fun a => match a with | ⟨0, _⟩ => fin_ite r | ⟨1, _⟩ => rfl)

private theorem red_row (x : FVec Ideal (sRow N) .f32) (r : Fin N) :
    Host.reduceAdd x (constant (F := Ideal) S_ .f32 0x00000000#32) w.red1 h_S_ (ix1 r) = ∑ j : Fin 128, x (ix2 r j) := by
  rw [hostReduceAdd_apply, Ideal.hostReduceAdd_single _ w.red1']
  show Ideal.ofBits .f32 0x00000000#32 + ∑ j : Fin 128, x (w.red1'.lift (ix1 r) j) = _
  rw [Ideal.ofBits_zero_f32, zero_add]
  refine Finset.sum_congr rfl fun j _ => congrArg x ?_
  funext a
  match a with
  | ⟨0, _⟩ => exact Fin.ext rfl
  | ⟨1, _⟩ => exact Fin.ext rfl

private theorem three : Ideal.ofBits .f32 0x40400000#32 = ((3 : ℝ) : EReal) := by
  simp [Ideal.ofBits, Ideal.ieee, -EReal.coe_mul]; norm_num

private theorem c128_eq : Ideal.ofBits .f32 0x43000000#32 = ((128 : ℝ) : EReal) := by
  simp [Ideal.ofBits, Ideal.ieee, -EReal.coe_mul]; norm_num

private theorem sum3 (x0 x1 x2 : FVec Ideal (sRow N) .f32) (r : Fin N) (q : Fin 128) :
    Host.reduceAdd (concatenate (sStk N) 0 [⟨sOne N, broadcastInDim (sOne N) ![1, 2] w.lead x0⟩, ⟨sOne N, broadcastInDim (sOne N) ![1, 2] w.lead x1⟩, ⟨sOne N, broadcastInDim (sOne N) ![1, 2] w.lead x2⟩] w.cat)
      (constant (F := Ideal) S_ .f32 0x00000000#32) w.red0 h_S_ (ix2 r q) = x0 (ix2 r q) + x1 (ix2 r q) + x2 (ix2 r q) := by
  have hi : ∀ (k : Fin 3) (b : Fin (sOne N).rank), b.cast (rfl : (sOne N).rank = (sStk N).rank) ≠ (0 : Fin 3) →
      ((ix3 (0 : Fin 1) r q : (sOne N).Idx) b).val = ((ix3 k r q : (sStk N).Idx) (b.cast rfl)).val := fun k b hb =>
    match b with
    | ⟨0, _⟩ => absurd rfl hb
    | ⟨1, _⟩ => rfl
    | ⟨2, _⟩ => rfl
  have hl : ∀ k : Fin 3, w.red0'.lift (ix2 r q) k = ix3 k r q := fun k => funext fun a =>
    match a with
    | ⟨0, _⟩ => Fin.ext rfl
    | ⟨1, _⟩ => Fin.ext rfl
    | ⟨2, _⟩ => Fin.ext rfl
  rw [hostReduceAdd_apply, Ideal.hostReduceAdd_single _ w.red0']
  show Ideal.ofBits .f32 0x00000000#32 + ∑ k : Fin 3, _ = _
  rw [Fin.sum_univ_three, Ideal.ofBits_zero_f32, zero_add]
  simp only [hl]
  refine congrArg₂ (· + ·) (congrArg₂ (· + ·) ?_ ?_) ?_
  · exact Eq.trans (concatenate_apply_piece (t := sStk N) 0 _ _ _ 0 (by show 0 < 3; decide) (sOne N) _ rfl rfl 0 rfl (ix3 0 r q) (hi 0) rfl) (bc_lead x0 r q)
  · exact Eq.trans (concatenate_apply_piece (t := sStk N) 0 _ _ _ 1 (by show 1 < 3; decide) (sOne N) _ rfl rfl 1 rfl (ix3 0 r q) (hi 1) rfl) (bc_lead x1 r q)
  · exact Eq.trans (concatenate_apply_piece (t := sStk N) 0 _ _ _ 2 (by show 2 < 3; decide) (sOne N) _ rfl rfl 2 rfl (ix3 0 r q) (hi 2) rfl) (bc_lead x2 r q)

theorem relu3_apply (x0 x1 x2 : FVec Ideal (sRow N) .f32) (r : Fin N) (q : Fin 128) :
    relu3 w x0 x1 x2 (ix2 r q) = meanRelu (fun q => x0 (ix2 r q)) (fun q => x1 (ix2 r q)) (fun q => x2 (ix2 r q)) q := by
  unfold relu3
  rw [maximumf_apply, hostDivf_apply, sum3 w, broadcastInDim_scalar_apply, broadcastInDim_scalar_apply]
  show max (Ideal.div _ (Ideal.ofBits .f32 0x40400000#32)) _ = _
  rw [three, Ideal.div_coe (y := 3) (by norm_num)]
  rfl

private theorem count : (constant (F := Ideal) S_ .f32 0x43000000#32) ix0 - (sitofp (F := Ideal) .f32 (constantI S_ 32 0#32)) ix0 = c128 := by
  show Ideal.ofBits .f32 0x43000000#32 - (((0#32 : BitVec 32).toInt : ℝ) : EReal) = c128
  simp [c128]

private theorem guard : (cmpf .ogt (subf (constant (F := Ideal) S_ .f32 0x43000000#32) (sitofp (F := Ideal) .f32 (constantI S_ 32 0#32))) (constant (F := Ideal) S_ .f32 0x00000000#32)) ix0 = 1#1 := by
  rw [cmpf_apply, subf_apply, count]
  have h : ((constant (F := Ideal) S_ .f32 0x00000000#32) ix0 : EReal) < c128 := by
    show Ideal.ofBits .f32 0x00000000#32 < Ideal.ofBits .f32 0x43000000#32
    rw [Ideal.ofBits_zero_f32, c128_eq]
    exact_mod_cast (by norm_num : (0 : ℝ) < 128)
  show BitVec.ofBool (decide (_ < _)) = 1#1
  rw [decide_eq_true h]
  rfl

theorem rowMean_apply (X : FVec Ideal (sRow N) .f32) (r : Fin N) :
    rowMean w X (ix2 r 0) = Ideal.div (∑ j : Fin 128, X (ix2 r j)) c128 := by
  unfold rowMean
  rw [hostDivf_apply, bc_col, red_row w, broadcastInDim_scalar_apply]
  rfl

theorem rowVar_apply (X : FVec Ideal (sRow N) .f32) (r : Fin N) :
    rowVar w X (ix2 r 0) = Ideal.div (∑ j : Fin 128, (X (ix2 r j) - Ideal.div (∑ i : Fin 128, X (ix2 r i)) c128) * (X (ix2 r j) - Ideal.div (∑ i : Fin 128, X (ix2 r i)) c128)) c128 := by
  unfold rowVar
  simp only [select_apply, bc_all, guard, select_one, hostDivf_apply, bc_col, red_row w, mulf_apply, subf_apply,
    bc_row, count, rowMean_apply]

private theorem rsqrt_apply {s : Shape} (x : FVec Ideal s .f32) (i : s.Idx) : Host.rsqrt x i = Ideal.rsqrt (x i) := rfl

theorem rowNorm_apply (X : FVec Ideal (sRow N) .f32) (g b : FVec Ideal S128 .f32) (r : Fin N) (q : Fin 128) :
    rowNorm w X g b (ix2 r q) = layerNorm (fun q => X (ix2 r q)) (fun q => g (ix1 q)) (fun q => b (ix1 q)) q := by
  unfold rowNorm
  simp only [addf_apply, mulf_apply, subf_apply, bc_row, bc_vec, bc_vec1, rsqrt_apply, bc_all, rowMean_apply, rowVar_apply]
  rfl

theorem slice_apply {M : ℕ} {α : Type} {h} (hM : M ≤ N) (Y : (sRow N).Idx → α) (r : Fin M) (q : Fin 128) :
    extractStridedSlice (sRow M) ![0, 0] Y h (ix2 r q) = Y (ix2 (Fin.castLE hM r) q) :=
  extractStridedSlice_apply _ _ _ _ _ fun a =>
    match a with
    | ⟨0, _⟩ => (Nat.zero_add _).symm
    | ⟨1, _⟩ => (Nat.zero_add _).symm

end Tail

variable (V : Valuation τ sig (Elt Ideal))

local notation "dr" => Proc.devRef (τ := τ) Proc.tc

macro "rb_run" : tactic =>
  `(tactic| (simp (disch := decide) only [after_cons, after_nil,
      nullary_result', unary_result', binary_result', ternary_result', nary_result',
      nullary_result_ne', unary_result_ne', binary_result_ne', ternary_result_ne', nary_result_ne', cast_eq,
      Matrix.cons_val_zero, Matrix.cons_val_one, Matrix.cons_val]))

private theorem okB : TailOK 300000 := by constructor <;> decide

private theorem rb_e169 : after opsB V (dr main_v169) = rowNorm okB (relu3 okB (V (dr main_v47)) (V (dr main_v95)) (V (dr main_v143))) (V (dr main_arg14)) (V (dr main_arg15)) := by
  rb_run
  rfl

private theorem rb_e170 : after opsB V (dr main_v170) = extractStridedSlice S150000x128 ![0, 0] (after opsB V (dr main_v169)) slices_S300000x128_S150000x128_0_0 := by
  rb_run
  try rb_run

theorem refB (r : Fin 300000) (q : Fin 128) : after opsB V (dr main_v169) (ix2 r q) =
    layerNorm (meanRelu (fun q => V (dr main_v47) (ix2 r q)) (fun q => V (dr main_v95) (ix2 r q)) (fun q => V (dr main_v143) (ix2 r q)))
      (fun q => V (dr main_arg14) (ix1 q)) (fun q => V (dr main_arg15) (ix1 q)) q := by
  rw [rb_e169, rowNorm_apply]
  simp only [relu3_apply]

theorem refB_slice (r : Fin 150000) (q : Fin 128) :
    after opsB V (dr main_v170) (ix2 r q) = after opsB V (dr main_v169) (ix2 (Fin.castLE (by decide) r) q) := by
  rw [rb_e170]
  exact slice_apply _ _ r q

theorem keepB (b : Ref sig .tc) (hb : b ∈ args) : after opsB V (dr b) = V (dr b) :=
  after_of_writes_sub opsB V opsB_writes ((by decide : ∀ x ∈ args, x ∉ wB) b hb)

end Cert.ReferenceIdeal.Hand

end
-- ==== Proof.RefReadC.lean ====
import proofs.«421255_j8237747274315_3_alg».proof.Proof.RefRun
import proofs.«421255_j8237747274315_3_alg».proof.Proof.Spec
import proofs.«421255_j8237747274315_3_alg».proof.Proof.IdxRead
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws

noncomputable section

namespace Cert.ReferenceIdeal.Hand

open Cert.ReferenceIdeal Cert.ReferenceIdeal.Gen Cert.Spec Idealize.ShloMosaic Idealize.ShloMosaic.ValueIdx
  Idealize.ShloMosaic.StableHlo

private theorem rc_mm_at (A : FVec Ideal S150000x128 .f32) (B : FVec Ideal S128x128 .f32) (r : Fin 150000) (q : Fin 128) :
    Host.dotGeneral dot_S150000x128_S128x128_S150000x128_1_0_0_1_n_n none A B (ix2 r q)
      = ∑ k : Fin 128, A (ix2 r k) * B (ix2 k q) :=
  StackMember.dotGeneral_plain_apply none A B r q

private theorem rc_w_at (W : FVec Ideal S3x128x128 .f32) (t : Nat) (t3 : Fin 3) (ht : t3.val = t)
    (hs : S3x128x128.Slices ![t, 0, 0] S1x128x128) (hc : S1x128x128.ShapeCasts S128x128) (k q : Fin 128) :
    shapeCast S128x128 (extractStridedSlice S1x128x128 ![t, 0, 0] W hs) hc (ix2 k q) = W (ix3 t3 k q) := by
  refine (shapeCast_1ab_ab_apply _ hc k q).trans ?_
  refine extractStridedSlice_apply _ _ hs _ (ix3 t3 k q) fun a => ?_
  match a with
  | ⟨0, _⟩ => show t3.val = t + 0; omega
  | ⟨1, _⟩ => exact (Nat.zero_add _).symm
  | ⟨2, _⟩ => exact (Nat.zero_add _).symm

private theorem rc_b_at (bl : FVec Ideal S3x128 .f32) (t : Nat) (t3 : Fin 3) (ht : t3.val = t)
    (hs : S3x128.Slices ![t, 0] S1x128) (hc : S1x128.ShapeCasts S128)
    (hb1 : S128.BroadcastsInDim S1x128 (![1] : Fin 1 → Fin S1x128.rank))
    (hb2 : S1x128.BroadcastsInDim S150000x128 (![0, 1] : Fin 2 → Fin S150000x128.rank)) (r : Fin 150000) (q : Fin 128) :
    broadcastInDim S150000x128 ![0, 1] hb2 (broadcastInDim S1x128 ![1] hb1
      (shapeCast S128 (extractStridedSlice S1x128 ![t, 0] bl hs) hc)) (ix2 r q) = bl (ix2 t3 q) := by
  refine (broadcastInDim_apply _ hb2 _ (ix2 r q) (ix2 (0 : Fin 1) q) fun a => ?_).trans ?_
  · match a with
    | ⟨0, _⟩ => rfl
    | ⟨1, _⟩ => rfl
  refine (broadcastInDim_apply _ hb1 _ (ix2 (0 : Fin 1) q) (ix1 q) fun a => ?_).trans ?_
  · match a with
    | ⟨0, _⟩ => rfl
  refine (shapeCast_1a_a_apply _ hc q).trans ?_
  refine extractStridedSlice_apply _ _ hs _ (ix2 t3 q) fun a => ?_
  match a with
  | ⟨0, _⟩ => show t3.val = t + 0; omega
  | ⟨1, _⟩ => exact (Nat.zero_add _).symm

private theorem rc_row_at (E : IVec S2x900000 32) (o : Nat) (o2 : Fin 2) (ho : o2.val = o)
    (hs : S2x900000.Slices ![o, 0] S1x300000) (hc : S1x300000.ShapeCasts S300000) (e : Fin 300000) :
    shapeCast S300000 (extractStridedSlice S1x300000 ![o, 0] E hs) hc (ix1 e) = E (ix2 o2 (Fin.castLE (by decide) e)) := by
  refine (shapeCast_1a_a_apply _ hc e).trans ?_
  refine extractStridedSlice_apply _ _ hs _ (ix2 o2 (Fin.castLE (by decide) e)) fun a => ?_
  match a with
  | ⟨0, _⟩ => show o2.val = o + 0; omega
  | ⟨1, _⟩ => exact (Nat.zero_add _).symm

private theorem rc_dst_at (E : IVec S2x900000 32) (hs : S2x900000.Slices ![1, 0] S1x300000) (hc : S1x300000.ShapeCasts S300000)
    (hb : S300000.BroadcastsInDim S300000x1 (![0] : Fin 1 → Fin S300000x1.rank)) (e : Fin 300000) :
    broadcastInDim S300000x1 ![0] hb (shapeCast S300000 (extractStridedSlice S1x300000 ![1, 0] E hs) hc) (ix2 e 0)
      = E (ix2 1 (Fin.castLE (by decide) e)) := by
  refine (broadcastInDim_apply _ hb _ (ix2 e 0) (ix1 e) fun a => ?_).trans ?_
  · match a with
    | ⟨0, _⟩ => rfl
  exact rc_row_at E 1 1 rfl hs hc e

private theorem rc_src_at (E : IVec S2x900000 32) (hs : S2x900000.Slices ![0, 0] S1x300000) (hc : S1x300000.ShapeCasts S300000)
    (hz : S_.BroadcastsInDim S300000 (![] : Fin 0 → Fin S300000.rank))
    (hb : S300000.BroadcastsInDim S300000x1 (![0] : Fin 1 → Fin S300000x1.rank)) (e : Fin 300000) :
    broadcastInDim S300000x1 ![0] hb
      (select (cmpi .slt (shapeCast S300000 (extractStridedSlice S1x300000 ![0, 0] E hs) hc)
          (broadcastInDim S300000 ![] hz (constantI S_ 32 0#32)))
        (addi (shapeCast S300000 (extractStridedSlice S1x300000 ![0, 0] E hs) hc)
          (broadcastInDim S300000 ![] hz (constantI S_ 32 150000#32)))
        (shapeCast S300000 (extractStridedSlice S1x300000 ![0, 0] E hs) hc)) (ix2 e 0)
      = normIdx 150000 (E (ix2 0 (Fin.castLE (by decide) e))) := by
  refine (broadcastInDim_apply _ hb _ (ix2 e 0) (ix1 e) fun a => ?_).trans ?_
  · match a with
    | ⟨0, _⟩ => rfl
  show Scalar.select (IntOp.cmpi .slt (shapeCast S300000 (extractStridedSlice S1x300000 ![0, 0] E hs) hc (ix1 e)) 0#32)
      (IntOp.addi (shapeCast S300000 (extractStridedSlice S1x300000 ![0, 0] E hs) hc (ix1 e)) (BitVec.ofNat 32 150000))
      (shapeCast S300000 (extractStridedSlice S1x300000 ![0, 0] E hs) hc (ix1 e)) = _
  rw [normIdx_eq, rc_row_at E 0 0 rfl hs hc e]

private theorem rc_splat_at {t : Shape} (h : S_.BroadcastsInDim t (![] : Fin 0 → Fin t.rank)) (w : BitVec 32) (j : t.Idx) :
    broadcastInDim t ![] h (constant (F := Ideal) S_ .f32 w) j = Ideal.ofBits .f32 w := rfl

private theorem rc_sum_at (H : FVec Ideal S150000x128 .f32) (SRC DST : IVec S300000x1 32)
    (hz : S_.BroadcastsInDim S150000x128 (![] : Fin 0 → Fin S150000x128.rank)) (r : Fin 150000) (k : Fin 128) :
    Host.scatterAdd scatter_S150000x128_S300000x1_S300000x128_1_0_0_1
        (broadcastInDim S150000x128 ![] hz (constant (F := Ideal) S_ .f32 0x00000000#32)) DST
        (Host.gather gather_S150000x128_S300000x1_S300000x128_1_0_n_n_0_1_1128 H SRC) (ix2 r k)
      = segSum (fun e : Fin 300000 => DST (ix2 e 0))
          (fun e k => H (ix2 (clampRow 150000 (by decide) (SRC (ix2 e 0))) k)) r.val k := by
  unfold Host.scatterAdd
  rw [Ideal.hostScatterAdd_def, scatterAdd_rows_apply _ rfl rfl rfl rfl, rc_splat_at, Ideal.ofBits_zero_f32, zero_add]
  unfold segSum
  refine Finset.sum_congr rfl fun e _ => ?_
  exact gather_rows_apply (by decide) _ rfl rfl rfl rfl rfl rfl rfl H SRC e k

private theorem rc_cnt_at (DST : IVec S300000x1 32)
    (hz : S_.BroadcastsInDim S150000x1 (![] : Fin 0 → Fin S150000x1.rank))
    (ho : S_.BroadcastsInDim S300000x1 (![] : Fin 0 → Fin S300000x1.rank)) (r : Fin 150000) :
    Host.scatterAdd scatter_S150000x1_S300000x1_S300000x1_1_0_0_1
        (broadcastInDim S150000x1 ![] hz (constant (F := Ideal) S_ .f32 0x00000000#32)) DST
        (broadcastInDim S300000x1 ![] ho (constant (F := Ideal) S_ .f32 0x3F800000#32)) (ix2 r 0)
      = segCnt (fun e : Fin 300000 => DST (ix2 e 0)) r.val := by
  unfold Host.scatterAdd
  rw [Ideal.hostScatterAdd_def, scatterAdd_rows_apply _ rfl rfl rfl rfl, rc_splat_at, Ideal.ofBits_zero_f32, zero_add]
  unfold segSum segCnt
  refine Finset.sum_congr rfl fun e _ => ?_
  beta_reduce
  rw [rc_splat_at]
  rfl

private theorem rc_cntb_at (DST : IVec S300000x1 32)
    (hz : S_.BroadcastsInDim S150000x1 (![] : Fin 0 → Fin S150000x1.rank))
    (ho : S_.BroadcastsInDim S300000x1 (![] : Fin 0 → Fin S300000x1.rank))
    (hb : S150000x1.BroadcastsInDim S150000x128 (![0, 1] : Fin 2 → Fin S150000x128.rank)) (r : Fin 150000) (k : Fin 128) :
    broadcastInDim S150000x128 ![0, 1] hb
        (maximumf
          (Host.scatterAdd scatter_S150000x1_S300000x1_S300000x1_1_0_0_1
            (broadcastInDim S150000x1 ![] hz (constant (F := Ideal) S_ .f32 0x00000000#32)) DST
            (broadcastInDim S300000x1 ![] ho (constant (F := Ideal) S_ .f32 0x3F800000#32)))
          (broadcastInDim S150000x1 ![] hz (constant (F := Ideal) S_ .f32 0x3F800000#32))) (ix2 r k)
      = max (segCnt (fun e : Fin 300000 => DST (ix2 e 0)) r.val) oneW := by
  refine (broadcastInDim_apply _ hb _ (ix2 r k) (ix2 r 0) fun a => ?_).trans ?_
  · match a with
    | ⟨0, _⟩ => rfl
    | ⟨1, _⟩ => rfl
  rw [maximumf_apply, rc_cnt_at, rc_splat_at]
  rfl

private theorem rc_lin_at (SC CB H : FVec Ideal S150000x128 .f32) (WlT WrT : FVec Ideal S128x128 .f32)
    (B : FVec Ideal S150000x128 .f32) (s : Fin 128 → EReal) (c : EReal) (Wl Wr : Fin 128 → Fin 128 → EReal)
    (bl : Fin 128 → EReal) (r : Fin 150000) (q : Fin 128)
    (hs : ∀ k, SC (ix2 r k) = s k) (hc : ∀ k, CB (ix2 r k) = max c oneW)
    (hWl : ∀ k, WlT (ix2 k q) = Wl k q) (hWr : ∀ k, WrT (ix2 k q) = Wr k q) (hb : B (ix2 r q) = bl q) :
    addf (addf (Host.dotGeneral dot_S150000x128_S128x128_S150000x128_1_0_0_1_n_n none (Host.divf SC CB) WlT) B)
        (Host.dotGeneral dot_S150000x128_S128x128_S150000x128_1_0_0_1_n_n none H WrT) (ix2 r q)
      = lin s c (fun k => H (ix2 r k)) Wl Wr bl q := by
  rw [addf_apply, addf_apply, rc_mm_at, rc_mm_at, hb]
  unfold lin
  refine congrArg₂ (· + ·) (congrArg (· + bl q) (Finset.sum_congr rfl fun k _ => ?_)) (Finset.sum_congr rfl fun k _ => ?_)
  · show Ideal.div (SC (ix2 r k)) (CB (ix2 r k)) * WlT (ix2 k q) = _
    rw [hs, hc, hWl]
  · rw [hWr]

private theorem rc_segSum_congr {M C : Nat} {dst dst' : Fin M → BitVec 32} {msg msg' : Fin M → Fin C → EReal} (r : Nat) (k : Fin C)
    (hd : ∀ e, dst e = dst' e) (hm : ∀ e, msg e k = msg' e k) : segSum dst msg r k = segSum dst' msg' r k := by
  obtain rfl : dst = dst' := funext hd
  unfold segSum
  exact Finset.sum_congr rfl fun e _ => hm e

private theorem rc_segCnt_congr {M : Nat} {dst dst' : Fin M → BitVec 32} (r : Nat) (hd : ∀ e, dst e = dst' e) :
    segCnt dst r = segCnt dst' r := by
  obtain rfl : dst = dst' := funext hd
  rfl

variable (V : Valuation τ sig (Elt Ideal))

theorem refC0 (r : Fin 150000) (q : Fin 128) : after opsC0 V (Proc.devRef (τ := τ) .tc main_v204) (ix2 r q) =
    lin (segSum (fun e : Fin 300000 => V (Proc.devRef (τ := τ) .tc main_arg1) (ix2 1 (Fin.castLE (by decide) e)))
           (fun e q => V (Proc.devRef (τ := τ) .tc main_v170) (ix2 (clampRow 150000 (by decide) (normIdx 150000 (V (Proc.devRef (τ := τ) .tc main_arg1) (ix2 0 (Fin.castLE (by decide) e))))) q)) r.val)
        (segCnt (fun e : Fin 300000 => V (Proc.devRef (τ := τ) .tc main_arg1) (ix2 1 (Fin.castLE (by decide) e))) r.val)
        (fun k => V (Proc.devRef (τ := τ) .tc main_v170) (ix2 r k)) (fun k q => V (Proc.devRef (τ := τ) .tc main_arg11) (ix3 0 k q)) (fun k q => V (Proc.devRef (τ := τ) .tc main_arg13) (ix3 0 k q))
        (fun q => V (Proc.devRef (τ := τ) .tc main_arg12) (ix2 0 q)) q := by
  simp only [opsC0]
  after_results_simp
  refine rc_lin_at _ _ _ _ _ _ _ _ _ _ _ r q (fun k => ?_) (fun k => ?_) (fun k => ?_) (fun k => ?_) ?_
  · exact (rc_sum_at _ _ _ _ r k).trans (rc_segSum_congr _ k (fun e => rc_dst_at _ _ _ _ e) (fun e =>
      congrArg (fun b => V (Proc.devRef (τ := τ) .tc main_v170) (ix2 (clampRow 150000 (by decide) b) k)) (rc_src_at _ _ _ _ _ e)))
  · exact (rc_cntb_at _ _ _ _ r k).trans (congrArg (max · oneW) (rc_segCnt_congr _ fun e => rc_dst_at _ _ _ _ e))
  · exact rc_w_at _ 0 0 rfl _ _ k q
  · exact rc_w_at _ 0 0 rfl _ _ k q
  · exact rc_b_at _ 0 0 rfl _ _ _ _ r q

theorem refC1 (r : Fin 150000) (q : Fin 128) : after opsC1 V (Proc.devRef (τ := τ) .tc main_v238) (ix2 r q) =
    lin (segSum (fun e : Fin 300000 => V (Proc.devRef (τ := τ) .tc main_arg2) (ix2 1 (Fin.castLE (by decide) e)))
           (fun e q => V (Proc.devRef (τ := τ) .tc main_v170) (ix2 (clampRow 150000 (by decide) (normIdx 150000 (V (Proc.devRef (τ := τ) .tc main_arg2) (ix2 0 (Fin.castLE (by decide) e))))) q)) r.val)
        (segCnt (fun e : Fin 300000 => V (Proc.devRef (τ := τ) .tc main_arg2) (ix2 1 (Fin.castLE (by decide) e))) r.val)
        (fun k => V (Proc.devRef (τ := τ) .tc main_v170) (ix2 r k)) (fun k q => V (Proc.devRef (τ := τ) .tc main_arg11) (ix3 1 k q)) (fun k q => V (Proc.devRef (τ := τ) .tc main_arg13) (ix3 1 k q))
        (fun q => V (Proc.devRef (τ := τ) .tc main_arg12) (ix2 1 q)) q := by
  simp only [opsC1]
  after_results_simp
  refine rc_lin_at _ _ _ _ _ _ _ _ _ _ _ r q (fun k => ?_) (fun k => ?_) (fun k => ?_) (fun k => ?_) ?_
  · exact (rc_sum_at _ _ _ _ r k).trans (rc_segSum_congr _ k (fun e => rc_dst_at _ _ _ _ e) (fun e =>
      congrArg (fun b => V (Proc.devRef (τ := τ) .tc main_v170) (ix2 (clampRow 150000 (by decide) b) k)) (rc_src_at _ _ _ _ _ e)))
  · exact (rc_cntb_at _ _ _ _ r k).trans (congrArg (max · oneW) (rc_segCnt_congr _ fun e => rc_dst_at _ _ _ _ e))
  · exact rc_w_at _ 1 1 rfl _ _ k q
  · exact rc_w_at _ 1 1 rfl _ _ k q
  · exact rc_b_at _ 1 1 rfl _ _ _ _ r q

theorem refC2 (r : Fin 150000) (q : Fin 128) : after opsC2 V (Proc.devRef (τ := τ) .tc main_v272) (ix2 r q) =
    lin (segSum (fun e : Fin 300000 => V (Proc.devRef (τ := τ) .tc main_arg3) (ix2 1 (Fin.castLE (by decide) e)))
           (fun e q => V (Proc.devRef (τ := τ) .tc main_v170) (ix2 (clampRow 150000 (by decide) (normIdx 150000 (V (Proc.devRef (τ := τ) .tc main_arg3) (ix2 0 (Fin.castLE (by decide) e))))) q)) r.val)
        (segCnt (fun e : Fin 300000 => V (Proc.devRef (τ := τ) .tc main_arg3) (ix2 1 (Fin.castLE (by decide) e))) r.val)
        (fun k => V (Proc.devRef (τ := τ) .tc main_v170) (ix2 r k)) (fun k q => V (Proc.devRef (τ := τ) .tc main_arg11) (ix3 2 k q)) (fun k q => V (Proc.devRef (τ := τ) .tc main_arg13) (ix3 2 k q))
        (fun q => V (Proc.devRef (τ := τ) .tc main_arg12) (ix2 2 q)) q := by
  simp only [opsC2]
  after_results_simp
  refine rc_lin_at _ _ _ _ _ _ _ _ _ _ _ r q (fun k => ?_) (fun k => ?_) (fun k => ?_) (fun k => ?_) ?_
  · exact (rc_sum_at _ _ _ _ r k).trans (rc_segSum_congr _ k (fun e => rc_dst_at _ _ _ _ e) (fun e =>
      congrArg (fun b => V (Proc.devRef (τ := τ) .tc main_v170) (ix2 (clampRow 150000 (by decide) b) k)) (rc_src_at _ _ _ _ _ e)))
  · exact (rc_cntb_at _ _ _ _ r k).trans (congrArg (max · oneW) (rc_segCnt_congr _ fun e => rc_dst_at _ _ _ _ e))
  · exact rc_w_at _ 2 2 rfl _ _ k q
  · exact rc_w_at _ 2 2 rfl _ _ k q
  · exact rc_b_at _ 2 2 rfl _ _ _ _ r q

theorem keepC0 (b : Ref sig .tc) (hb : b ∈ args ++ [main_v170]) : after opsC0 V (Proc.devRef (τ := τ) .tc b) = V (Proc.devRef (τ := τ) .tc b) :=
  after_of_writes_sub opsC0 V opsC0_writes ((by decide : ∀ x ∈ args ++ [main_v170], x ∉ wC0) b hb)

theorem keepC1 (b : Ref sig .tc) (hb : b ∈ args ++ [main_v170, main_v204]) : after opsC1 V (Proc.devRef (τ := τ) .tc b) = V (Proc.devRef (τ := τ) .tc b) :=
  after_of_writes_sub opsC1 V opsC1_writes ((by decide : ∀ x ∈ args ++ [main_v170, main_v204], x ∉ wC1) b hb)

theorem keepC2 (b : Ref sig .tc) (hb : b ∈ args ++ [main_v170, main_v204, main_v238]) : after opsC2 V (Proc.devRef (τ := τ) .tc b) = V (Proc.devRef (τ := τ) .tc b) :=
  after_of_writes_sub opsC2 V opsC2_writes ((by decide : ∀ x ∈ args ++ [main_v170, main_v204, main_v238], x ∉ wC2) b hb)

end Cert.ReferenceIdeal.Hand

end
-- ==== Proof.RefReadD.lean ====
import proofs.«421255_j8237747274315_3_alg».proof.Proof.RefReadB

noncomputable section

namespace Cert.ReferenceIdeal.Hand

open Cert.ReferenceIdeal Cert.ReferenceIdeal.Gen Cert.Spec Idealize.ShloMosaic Idealize.ShloMosaic.ValueIdx
  Idealize.ShloMosaic.StableHlo

variable (V : Valuation τ sig (Elt Ideal))

local notation "dr" => Proc.devRef (τ := τ) Proc.tc

private theorem okD : TailOK 150000 := by constructor <;> decide

private theorem rd_e : after opsD V (dr main_v299) = extractStridedSlice S50000x128 ![0, 0] (rowNorm okD (relu3 okD (V (dr main_v204)) (V (dr main_v238)) (V (dr main_v272))) (V (dr main_arg16)) (V (dr main_arg17))) slices_S150000x128_S50000x128_0_0 := by
  rb_run
  rfl

theorem refD (r : Fin 50000) (q : Fin 128) : after opsD V (dr main_v299) (ix2 r q) =
    layerNorm (meanRelu (fun q => V (dr main_v204) (ix2 (Fin.castLE (by decide) r) q))
        (fun q => V (dr main_v238) (ix2 (Fin.castLE (by decide) r) q))
        (fun q => V (dr main_v272) (ix2 (Fin.castLE (by decide) r) q)))
      (fun q => V (dr main_arg16) (ix1 q)) (fun q => V (dr main_arg17) (ix1 q)) q := by
  rw [rd_e, slice_apply (by decide), rowNorm_apply]
  simp only [relu3_apply]

end Cert.ReferenceIdeal.Hand

end
-- ==== Proof.RefAsm.lean ====
import proofs.«421255_j8237747274315_3_alg».proof.Proof.RefRun
import proofs.«421255_j8237747274315_3_alg».proof.Proof.RefReadA
import proofs.«421255_j8237747274315_3_alg».proof.Proof.RefReadA1
import proofs.«421255_j8237747274315_3_alg».proof.Proof.RefReadA2
import proofs.«421255_j8237747274315_3_alg».proof.Proof.RefReadB
import proofs.«421255_j8237747274315_3_alg».proof.Proof.RefReadC
import proofs.«421255_j8237747274315_3_alg».proof.Proof.RefReadD
import proofs.«421255_j8237747274315_3_alg».proof.Proof.Spec
import Idealize.ShloMosaic.Lib.StableHlo.Run
import Idealize.ShloMosaic.Lib.ValueIdx

noncomputable section

namespace Cert.ReferenceIdeal.Hand

open Cert.ReferenceIdeal Cert.ReferenceIdeal.Gen Cert.Spec Idealize.ShloMosaic Idealize.ShloMosaic.ValueIdx Idealize.ShloMosaic.StableHlo Idealize.ShloMosaic.TcCoe Idealize.SL.Sem

local notation "dr" => Proc.devRef (τ := τ) Proc.tc

variable (V : Valuation τ sig (Elt Ideal))

def eiOfV : Fin 3 → I2 2 900000 → BitVec 32
  | 0 => V (dr main_arg1)
  | 1 => V (dr main_arg2)
  | 2 => V (dr main_arg3)

/-- The arguments at a valuation, bundled. -/
noncomputable def argsV : Args :=
  ⟨V (dr main_arg0), eiOfV V, V (dr main_arg6), V (dr main_arg7), V (dr main_arg8), V (dr main_arg9), V (dr main_arg10), V (dr main_arg11), V (dr main_arg12), V (dr main_arg13), V (dr main_arg14), V (dr main_arg15), V (dr main_arg16), V (dr main_arg17)⟩

private theorem ra_fun2 {n0 n1 : Nat} {f : (⟨2, ![n0, n1]⟩ : Shape).Idx → EReal} {g : Fin n0 → Fin n1 → EReal}
    (h : ∀ a b, f (ix2 a b) = g a b) : f = fun i => g (i 0) (i 1) := by
  funext i
  obtain ⟨a, b, rfl⟩ : ∃ a b, i = ix2 a b := ⟨i 0, i 1, eq_ix2 i⟩
  exact h a b

private def ra_V1 : Valuation τ sig (Elt Ideal) := after opsA0 V
private def ra_V2 : Valuation τ sig (Elt Ideal) := after opsA1 (ra_V1 V)
private def ra_V3 : Valuation τ sig (Elt Ideal) := after opsA2 (ra_V2 V)
private def ra_V4 : Valuation τ sig (Elt Ideal) := after opsB (ra_V3 V)
private def ra_V5 : Valuation τ sig (Elt Ideal) := after opsC0 (ra_V4 V)
private def ra_V6 : Valuation τ sig (Elt Ideal) := after opsC1 (ra_V5 V)
private def ra_V7 : Valuation τ sig (Elt Ideal) := after opsC2 (ra_V6 V)

private theorem ra_after_ops : after ops V = after opsD (ra_V7 V) :=
  (after_append _ opsD V).trans <| congrArg (after opsD) <|
  (after_append _ opsC2 V).trans <| congrArg (after opsC2) <|
  (after_append _ opsC1 V).trans <| congrArg (after opsC1) <|
  (after_append _ opsC0 V).trans <| congrArg (after opsC0) <|
  (after_append _ opsB V).trans <| congrArg (after opsB) <|
  (after_append _ opsA2 V).trans <| congrArg (after opsA2) <|
  (after_append opsA0 opsA1 V)

private theorem ra_keep1 (b : Ref sig .tc) (hb : b ∈ args) : ra_V1 V (dr b) = V (dr b) := keepA0 V b hb
private theorem ra_keep2 (b : Ref sig .tc) (hb : b ∈ args) : ra_V2 V (dr b) = V (dr b) :=
  (keepA1 (ra_V1 V) b (List.mem_append_left _ hb)).trans (ra_keep1 V b hb)
private theorem ra_keep3 (b : Ref sig .tc) (hb : b ∈ args) : ra_V3 V (dr b) = V (dr b) :=
  (keepA2 (ra_V2 V) b (List.mem_append_left _ hb)).trans (ra_keep2 V b hb)
private theorem ra_keep4 (b : Ref sig .tc) (hb : b ∈ args) : ra_V4 V (dr b) = V (dr b) :=
  (keepB (ra_V3 V) b hb).trans (ra_keep3 V b hb)
private theorem ra_keep5 (b : Ref sig .tc) (hb : b ∈ args) : ra_V5 V (dr b) = V (dr b) :=
  (keepC0 (ra_V4 V) b (List.mem_append_left _ hb)).trans (ra_keep4 V b hb)
private theorem ra_keep6 (b : Ref sig .tc) (hb : b ∈ args) : ra_V6 V (dr b) = V (dr b) :=
  (keepC1 (ra_V5 V) b (List.mem_append_left _ hb)).trans (ra_keep5 V b hb)
private theorem ra_keep7 (b : Ref sig .tc) (hb : b ∈ args) : ra_V7 V (dr b) = V (dr b) :=
  (keepC2 (ra_V6 V) b (List.mem_append_left _ hb)).trans (ra_keep6 V b hb)

/-- One edge type's row of the first layer, before the mean over the three. -/
private abbrev ra_row0 (t : Fin 3) (r : Fin 300000) : Fin 128 → EReal :=
  l2n (lin ((argsV V).agg0 t r.val) (cnt0 (eiOfV V) t r.val) (fun k => V (dr main_arg0) (ix2 r k))
    (fun k q => V (dr main_arg8) (ix3 t k q)) (fun k q => V (dr main_arg10) (ix3 t k q)) (fun q => V (dr main_arg9) (ix2 t q)))

private theorem ra_main_v47 (r : Fin 300000) (q : Fin 128) : ra_V3 V (dr main_v47) (ix2 r q) = ra_row0 V 0 r q := by
  rw [ra_V3, keepA2 _ main_v47 (by decide), ra_V2, keepA1 _ main_v47 (by decide), ra_V1, refA0]
  rfl

private theorem ra_main_v95 (r : Fin 300000) (q : Fin 128) : ra_V3 V (dr main_v95) (ix2 r q) = ra_row0 V 1 r q := by
  rw [ra_V3, keepA2 _ main_v95 (by decide), ra_V2, refA1]
  rw [ra_keep1 V main_arg0 (by decide), ra_keep1 V main_arg2 (by decide), ra_keep1 V main_arg6 (by decide), ra_keep1 V main_arg7 (by decide), ra_keep1 V main_arg8 (by decide), ra_keep1 V main_arg9 (by decide), ra_keep1 V main_arg10 (by decide)]
  rfl

private theorem ra_main_v143 (r : Fin 300000) (q : Fin 128) : ra_V3 V (dr main_v143) (ix2 r q) = ra_row0 V 2 r q := by
  rw [ra_V3, refA2]
  rw [ra_keep2 V main_arg0 (by decide), ra_keep2 V main_arg3 (by decide), ra_keep2 V main_arg6 (by decide), ra_keep2 V main_arg7 (by decide), ra_keep2 V main_arg8 (by decide), ra_keep2 V main_arg9 (by decide), ra_keep2 V main_arg10 (by decide)]
  rfl

private theorem ra_h0 (r : Fin 300000) (q : Fin 128) : ra_V4 V (dr main_v169) (ix2 r q) = (argsV V).h0 r q := by
  rw [ra_V4, refB]
  rw [ra_fun2 (f := ra_V3 V (dr main_v47)) (ra_main_v47 V), ra_fun2 (f := ra_V3 V (dr main_v95)) (ra_main_v95 V),
    ra_fun2 (f := ra_V3 V (dr main_v143)) (ra_main_v143 V)]
  rw [ra_keep3 V main_arg14 (by decide), ra_keep3 V main_arg15 (by decide)]
  rfl

private theorem ra_h1 (r : Fin 150000) (q : Fin 128) : ra_V4 V (dr main_v170) (ix2 r q) = (argsV V).h1 r q := by
  rw [ra_V4, refB_slice]
  exact ra_h0 V _ q

private theorem ra_v170_5 : ra_V5 V (dr main_v170) = ra_V4 V (dr main_v170) :=
  keepC0 (ra_V4 V) main_v170 (by decide)
private theorem ra_v170_6 : ra_V6 V (dr main_v170) = ra_V4 V (dr main_v170) :=
  (keepC1 (ra_V5 V) main_v170 (by decide)).trans (ra_v170_5 V)

/-- One edge type's row of the second layer, before the mean over the three. -/
private abbrev ra_row1 (t : Fin 3) (r : Fin 150000) : Fin 128 → EReal :=
  lin ((argsV V).agg1 t r.val) (cnt1 (eiOfV V) t r.val) ((argsV V).h1 r)
    (fun k q => V (dr main_arg11) (ix3 t k q)) (fun k q => V (dr main_arg13) (ix3 t k q)) (fun q => V (dr main_arg12) (ix2 t q))

private theorem ra_main_v204 (r : Fin 150000) (q : Fin 128) : ra_V7 V (dr main_v204) (ix2 r q) = ra_row1 V 0 r q := by
  rw [ra_V7, keepC2 _ main_v204 (by decide), ra_V6, keepC1 _ main_v204 (by decide), ra_V5, refC0]
  rw [ra_keep4 V main_arg1 (by decide), ra_keep4 V main_arg11 (by decide), ra_keep4 V main_arg12 (by decide), ra_keep4 V main_arg13 (by decide)]
  rw [ra_fun2 (f := ra_V4 V (dr main_v170)) (ra_h1 V)]
  rfl

private theorem ra_main_v238 (r : Fin 150000) (q : Fin 128) : ra_V7 V (dr main_v238) (ix2 r q) = ra_row1 V 1 r q := by
  rw [ra_V7, keepC2 _ main_v238 (by decide), ra_V6, refC1, ra_v170_5]
  rw [ra_keep5 V main_arg2 (by decide), ra_keep5 V main_arg11 (by decide), ra_keep5 V main_arg12 (by decide), ra_keep5 V main_arg13 (by decide)]
  rw [ra_fun2 (f := ra_V4 V (dr main_v170)) (ra_h1 V)]
  rfl

private theorem ra_main_v272 (r : Fin 150000) (q : Fin 128) : ra_V7 V (dr main_v272) (ix2 r q) = ra_row1 V 2 r q := by
  rw [ra_V7, refC2, ra_v170_6]
  rw [ra_keep6 V main_arg3 (by decide), ra_keep6 V main_arg11 (by decide), ra_keep6 V main_arg12 (by decide), ra_keep6 V main_arg13 (by decide)]
  rw [ra_fun2 (f := ra_V4 V (dr main_v170)) (ra_h1 V)]
  rfl

theorem result_eq (r : Fin 50000) (q : Fin 128) : after ops V (dr main_v299) (ix2 r q) = (argsV V).out r q := by
  rw [ra_after_ops, refD]
  rw [ra_fun2 (f := ra_V7 V (dr main_v204)) (ra_main_v204 V), ra_fun2 (f := ra_V7 V (dr main_v238)) (ra_main_v238 V),
    ra_fun2 (f := ra_V7 V (dr main_v272)) (ra_main_v272 V)]
  rw [ra_keep7 V main_arg16 (by decide), ra_keep7 V main_arg17 (by decide)]
  rfl

/-- The launch contents of the arguments, bundled. -/
noncomputable def argsOf (m : (ℓ : Loc nD τ sig) → Buf (Elt Ideal) ℓ) (c : Dev nD) : Args := argsV (launchContents m c)

/-- The returned array, as a function of its index. -/
def outAt (m : (ℓ : Loc nD τ sig) → Buf (Elt Ideal) ℓ) (c : Dev nD) : S50000x128.Idx → EReal :=
  fun i => (argsOf m c).out (i 0) (i 1)

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v299) = outAt m c
      ∧ args.Forall fun k => r.2.mem ((c.tc : Thread nD τ).loc k) = m ((c.tc : Thread nD τ).loc k)) :=
  (θ_run defs _ _).mono (fun _ h c => ⟨(h c main_v299).trans (funext fun i => by
      obtain ⟨a, b, rfl⟩ : ∃ a b, i = ix2 a b := ⟨i 0, i 1, eq_ix2 i⟩
      exact result_eq _ a b),
    List.forall_iff_forall_mem.2 fun k hk => (h c k).trans (after_ops_arg (launchContents m c) hk)⟩) (run_all m ρ)

end Cert.ReferenceIdeal.Hand

end
-- ==== Proof.lean ====
/-
  Three TensorCore regions (a projection of the node features, then two layers that combine, per edge type, the mean
  of the rows a node receives with the node's own row) with row gathers and scatter-adds between them, against a
  reference that computes every layer on all rows and slices at the end.  Both results are `Cert.Spec.Args.out` of
  the bundled arguments, index by index; the memories agree on the arguments, so the bundles are equal.
-/
import proofs.«421255_j8237747274315_3_alg».proof.Defs
import proofs.«421255_j8237747274315_3_alg».proof.Proof.Gen.Kernel
import proofs.«421255_j8237747274315_3_alg».proof.Proof.Gen.KernelIdeal
import proofs.«421255_j8237747274315_3_alg».proof.Proof.Gen.ReferenceIdeal
import proofs.«421255_j8237747274315_3_alg».proof.Proof.Gen.Pre_finite_inputs
import proofs.«421255_j8237747274315_3_alg».proof.Proof.KRun
import proofs.«421255_j8237747274315_3_alg».proof.Proof.KIAsm
import proofs.«421255_j8237747274315_3_alg».proof.Proof.RefAsm
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

theorem algebraic : Cert.algebraic_KernelIdeal_ReferenceIdeal := by
  intro m ρ m' ρ' _ hagree
  refine ⟨_, Cert.KernelIdeal.Hand.run_value m ρ, ?_⟩
  refine (θ_run Cert.ReferenceIdeal.defs _ _).monotone' (fun r h c => ?_) (Cert.ReferenceIdeal.Hand.run_value m' ρ')
  obtain ⟨e0, e1, e2, e3, e4, e5, e6, e7, e8, e9, e10, e11, e12, e13, e14, e15, e16, e17⟩ := hagree c
  have hei : Cert.ReferenceIdeal.Hand.eiOfV (StableHlo.launchContents m' c) = Cert.KernelIdeal.Hand.eiOf m c := by
    funext t
    match t with
    | ⟨0, _⟩ => exact e1
    | ⟨1, _⟩ => exact e2
    | ⟨2, _⟩ => exact e3
  have hargs : Cert.ReferenceIdeal.Hand.argsOf m' c = Cert.KernelIdeal.Hand.argsOf m c := by
    simp only [Cert.ReferenceIdeal.Hand.argsOf, Cert.ReferenceIdeal.Hand.argsV, Cert.KernelIdeal.Hand.argsOf,
      Cert.Spec.Args.mk.injEq]
    exact ⟨e0, hei, e6, e7, e8, e9, e10, e11, e12, e13, e14, e15, e16, e17⟩
  refine ⟨(h c).1.trans ?_, (h c).2⟩
  unfold Cert.ReferenceIdeal.Hand.outAt Cert.KernelIdeal.Hand.outAt
  rw [hargs]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
